-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x384 : Shape := ⟨2, ![50000, 384]⟩
abbrev S50000x1 : Shape := ⟨2, ![50000, 1]⟩
abbrev S128x384 : Shape := ⟨2, ![128, 384]⟩
abbrev S2000x128 : Shape := ⟨2, ![2000, 128]⟩
abbrev S2000x384 : Shape := ⟨2, ![2000, 384]⟩
abbrev S128x1 : Shape := ⟨2, ![128, 1]⟩

abbrev nBuf : Space → Nat
  | .hbm => 122
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x1, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000x128, .f32⟩
  | .hbm, ⟨97, _⟩ => ⟨S850000x1, .f32⟩
  | .hbm, ⟨98, _⟩ => ⟨S850000x128, .f32⟩
  | .hbm, ⟨99, _⟩ => ⟨S850000x128, .f32⟩
  | .hbm, ⟨100, _⟩ => ⟨S_, .f32⟩
  | .hbm, ⟨101, _⟩ => ⟨S50000x128, .f32⟩
  | .hbm, ⟨102, _⟩ => ⟨S850000x1, .i32⟩
  | .hbm, ⟨103, _⟩ => ⟨S50000x128, .f32⟩
  | .hbm, ⟨104, _⟩ => ⟨S1x128, .f32⟩
  | .hbm, ⟨105, _⟩ => ⟨S50000x128, .f32⟩
  | .hbm, ⟨106, _⟩ => ⟨S50000x384, .f32⟩
  | .hbm, ⟨107, _⟩ => ⟨S1x128, .i32⟩
  | .hbm, ⟨108, _⟩ => ⟨S50000x1, .i32⟩
  | .hbm, ⟨109, _⟩ => ⟨S50000x128, .i32⟩
  | .hbm, ⟨110, _⟩ => ⟨S50000x128, .i32⟩
  | .hbm, ⟨111, _⟩ => ⟨S50000x128, .i1⟩
  | .hbm, ⟨112, _⟩ => ⟨S50000x128, .f32⟩
  | .hbm, ⟨113, _⟩ => ⟨S_, .f32⟩
  | .hbm, ⟨114, _⟩ => ⟨S128, .f32⟩
  | .hbm, ⟨115, _⟩ => ⟨S_, .f32⟩
  | .hbm, ⟨116, _⟩ => ⟨S128, .f32⟩
  | .hbm, ⟨117, _⟩ => ⟨S128, .f32⟩
  | .hbm, ⟨118, _⟩ => ⟨S128x384, .f32⟩
  | .hbm, ⟨119, _⟩ => ⟨S128x1, .f32⟩
  | .hbm, ⟨120, _⟩ => ⟨S128x384, .f32⟩
  | .hbm, ⟨121, _⟩ => ⟨S128x384, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S2000x128, .f32⟩
  | .local _ .vmem, ⟨31, _⟩ => ⟨S2000x128, .f32⟩
  | .local _ .vmem, ⟨32, _⟩ => ⟨S2000x384, .f32⟩
  | .local _ .vmem, ⟨33, _⟩ => ⟨S2000x384, .f32⟩
  | .local _ .vmem, ⟨34, _⟩ => ⟨S128x384, .f32⟩
  | .local _ .vmem, ⟨35, _⟩ => ⟨S128x384, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_15 : Ref sig .tc := ⟨.hbm, 113, rfl⟩
abbrev main_v85 : Ref sig .tc := ⟨.hbm, 114, rfl⟩
abbrev main_cst_16 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v15 : BitVec 1 := Scalar.cmpi .eq arg0 c24_i32
  let v16 : BitVec 32 := Scalar.extui v15
  let c0_i32_8 : BitVec 32 := 0#32
  let v17 : BitVec 1 := Scalar.cmpi .ne v16 c0_i32_8
  v17

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x384 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x384 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S50000x128_S50000x128_S50000x128_S50000x384_d1 : Shape.Concatenates [S50000x128, S50000x128, S50000x128] S50000x384 1
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  bcast_S128_S128x1_0 : S128.BroadcastsInDim S128x1 (![0] : Fin 1 → Fin S128x1.rank)
  bcast_S128x1_S128x384_0_1 : S128x1.BroadcastsInDim S128x384 (![0, 1] : Fin 2 → Fin S128x384.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S2000x384_S128x384_0_0_1_1_n_n_wf : DotDims.WF S2000x128 S2000x384 S128x384 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x384.size a ≤ S50000x384.size a
  hwx6_1 : ∀ i : grid6.Coords, EltTy.bits .f32 = 32 ∨ (Rect.block (s := S50000x384) S2000x384.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x384.size a ≤ S128x384.size a
  hwx6_2 : ∀ i : grid6.Coords, EltTy.bits .f32 = 32 ∨ (Rect.block (s := S128x384) S128x384.size (cc6_transform_2 i) (hinb6_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S2000x384_S128x384_0_0_1_1_n_n : DotDims S2000x128 S2000x384 S128x384 where
  lhsContracting := [0]
  rhsContracting := [0]
  lhsNonContracting := [1]
  rhsNonContracting := [1]
  lhsBatch := []
  rhsBatch := []
  wf := dot_S2000x128_S2000x384_S128x384_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v84) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S2000x384.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v88) S128x384.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S128x1 : Shape := ⟨2, ![128, 1]⟩
abbrev S128x384 : Shape := ⟨2, ![128, 384]⟩
abbrev S50000x384 : Shape := ⟨2, ![50000, 384]⟩

abbrev nBuf : Space → Nat
  | .hbm => 148
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x128, .f32⟩
  | 82 => ⟨S850000x1, .f32⟩
  | 83 => ⟨S850000x128, .f32⟩
  | 84 => ⟨S850000x128, .f32⟩
  | 85 => ⟨S_, .f32⟩
  | 86 => ⟨S50000x128, .f32⟩
  | 87 => ⟨S850000x1, .i32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x128, .f32⟩
  | 105 => ⟨S850000x1, .f32⟩
  | 106 => ⟨S850000x128, .f32⟩
  | 107 => ⟨S850000x128, .f32⟩
  | 108 => ⟨S_, .f32⟩
  | 109 => ⟨S50000x128, .f32⟩
  | 110 => ⟨S850000x1, .i32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .f32⟩
  | 119 => ⟨S50000, .f32⟩
  | 120 => ⟨S_, .f32⟩
  | 121 => ⟨S128, .f32⟩
  | 122 => ⟨S50000x1, .i32⟩
  | 123 => ⟨S128, .f32⟩
  | 124 => ⟨S_, .f32⟩
  | 125 => ⟨S128, .f32⟩
  | 126 => ⟨S128, .f32⟩
  | 127 => ⟨S128x1, .f32⟩
  | _ => ⟨S50000x128, .f32⟩

abbrev hbmTy0_1 (i : Nat) : BufTy := match i % 128 with
  | 0 => ⟨S_, .f32⟩
  | 1 => ⟨S128x128, .f32⟩
  | 2 => ⟨S50000x1, .i32⟩
  | 3 => ⟨S128x128, .f32⟩
  | 4 => ⟨S128x128, .f32⟩
  | 5 => ⟨S128x128, .f32⟩
  | 6 => ⟨S_, .f32⟩
  | 7 => ⟨S128x128, .f32⟩
  | 8 => ⟨S50000x1, .i32⟩
  | 9 => ⟨S128x128, .f32⟩
  | 10 => ⟨S128x128, .f32⟩
  | 11 => ⟨S128x128, .f32⟩
  | 12 => ⟨S_, .f32⟩
  | 13 => ⟨S128x128, .f32⟩
  | 14 => ⟨S50000x1, .i32⟩
  | 15 => ⟨S128x128, .f32⟩
  | 16 => ⟨S128x128, .f32⟩
  | 17 => ⟨S128x128, .f32⟩
  | 18 => ⟨S128x384, .f32⟩
  | 19 => ⟨S50000x384, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_c_12 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_call3_cst : Ref sig .tc := ⟨.hbm, 115, rfl⟩
abbrev main_call3_v0 : Ref sig .tc := ⟨.hbm, 116, rfl⟩
abbrev main_v83 : Ref sig .tc := ⟨.hbm, 117, rfl⟩
abbrev main_cst_15 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_17 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_18 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_19 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_20 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S50000_S50000x1_0 : S50000.BroadcastsInDim S50000x1 (![0] : Fin 1 → Fin S50000x1.rank)
  bcast_S128_S128x1_0 : S128.BroadcastsInDim S128x1 (![0] : Fin 1 → Fin S128x1.rank)
  bcast_S_S128x128 : S_.BroadcastsInDim S128x128 (![] : Fin 0 → Fin S128x128.rank)
  bcast_S128x1_S128x128_0_1 : S128x1.BroadcastsInDim S128x128 (![0, 1] : Fin 2 → Fin S128x128.rank)
  concatenates_S128x128_S128x128_S128x128_S128x384_d1 : Shape.Concatenates [S128x128, S128x128, S128x128] S128x384 1
  concatenates_S50000x128_S50000x128_S50000x128_S50000x384_d1 : Shape.Concatenates [S50000x128, S50000x128, S50000x128] S50000x384 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf

class Facts : Prop extends Facts₀ where

variable [Facts]
-- ==== Proof.KRegion0.lean ====
import proofs.«426581_j30013231464613_1_alg».proof.Proof.Gen.Kernel.Launch
import proofs.«426581_j30013231464613_1_alg».proof.Proof.Gen.Kernel.Skeleton
import proofs.«426581_j30013231464613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

def out0_2 (x0 : Vec F S5000x128 .f32) (x1 : Vec F S128x128 .f32) : Vec F S5000x128 .f32 :=
  View.canon [⟨r0_0, k0_pay1 (View.ld x0 r0_0) (View.ld x1 r0_1)⟩]

theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
/-- Run on blocks x0 and x1 the body leaves them as they are and writes their product. -/
theorem sound_kernel0 (c : Dev nD) (E : Set ℕ) (i : grid0.Coords)
    (arg0 : Memref sig .tc .vmem S5000x128 .f32) (harg0 : arg0.IsWhole) (arg1 : Memref sig .tc .vmem S128x128 .f32) (harg1 : arg1.IsWhole)
    (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- So the body meets its obligation at every grid point. -/
theorem body_obligation0 (c : Dev nD) : BodyObligation (dat0 (F := F) V c) (defs₀ (F := F)) Variants.none () Set.univ := fun t => by
  rw [bigSep_W0, bigSep_W0]
  exact sound_body0 V c t

end Cert.Kernel.Calls

end
-- ==== Proof.KRegion1.lean ====
import proofs.«426581_j30013231464613_1_alg».proof.Proof.Gen.Kernel.Launch
import proofs.«426581_j30013231464613_1_alg».proof.Proof.Gen.Kernel.Skeleton
import proofs.«426581_j30013231464613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

def out1_2 (x0 : Vec F S5000x128 .f32) (x1 : Vec F S1x128 .f32) : Vec F S5000x128 .f32 :=
  View.canon [⟨r1_0, k1_pay1 (View.ld x0 r1_0) (View.ld x1 r1_1)⟩]

theorem cover1_2 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in
/-- Run on a block x0 and the row x1 the body leaves them as they are and writes max(x0 + x1, 0). -/
theorem sound_kernel1 (c : Dev nD) (E : Set ℕ) (i : grid1.Coords)
    (arg0 : Memref sig .tc .vmem S5000x128 .f32) (harg0 : arg0.IsWhole) (arg1 : Memref sig .tc .vmem S1x128 .f32) (harg1 : arg1.IsWhole)
    (arg2 : Memref sig .tc .vmem S5000x128 .f32) (harg2 : arg2.IsWhole)
    (x0 : Vec F S5000x128 .f32) (x1 : Vec F S1x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__bias_relu_kernel i arg0 harg0 arg1 harg1 arg2 harg2) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- So the body meets its obligation at every grid point. -/
theorem body_obligation1 (c : Dev nD) : BodyObligation (dat1 (F := F) V c) (defs₀ (F := F)) Variants.none () Set.univ := fun t => by
  rw [bigSep_W1, bigSep_W1]
  exact sound_body1 V c t

end Cert.Kernel.Calls

end
-- ==== Proof.KRegion2.lean ====
import proofs.«426581_j30013231464613_1_alg».proof.Proof.Gen.Kernel.Launch
import proofs.«426581_j30013231464613_1_alg».proof.Proof.Gen.Kernel.Skeleton
import proofs.«426581_j30013231464613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0

def out2_2 (x0 : Vec F S5000x128 .f32) (x1 : Vec F S128x128 .f32) : Vec F S5000x128 .f32 :=
  View.canon [⟨r2_0, k2_pay1 (View.ld x0 r2_0) (View.ld x1 r2_1)⟩]

theorem cover2_2 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 1000000 in
/-- Run on blocks x0 and x1 the body leaves them as they are and writes their product. -/
theorem sound_kernel2 (c : Dev nD) (E : Set ℕ) (i : grid2.Coords)
    (arg0 : Memref sig .tc .vmem S5000x128 .f32) (harg0 : arg0.IsWhole) (arg1 : Memref sig .tc .vmem S128x128 .f32) (harg1 : arg1.IsWhole)
    (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- So the body meets its obligation at every grid point. -/
theorem body_obligation2 (c : Dev nD) : BodyObligation (dat2 (F := F) V c) (defs₀ (F := F)) Variants.none () Set.univ := fun t => by
  rw [bigSep_W2, bigSep_W2]
  exact sound_body2 V c t

end Cert.Kernel.Calls

end
-- ==== Proof.KRegion3.lean ====
import proofs.«426581_j30013231464613_1_alg».proof.Proof.Gen.Kernel.Launch
import proofs.«426581_j30013231464613_1_alg».proof.Proof.Gen.Kernel.Skeleton
import proofs.«426581_j30013231464613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

def out3_2 (x0 : Vec F S5000x128 .f32) (x1 : Vec F S1x128 .f32) : Vec F S5000x128 .f32 :=
  View.canon [⟨r3_0, k3_pay1 (View.ld x0 r3_0) (View.ld x1 r3_1)⟩]

theorem cover3_2 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 1000000 in
/-- Run on a block x0 and the row x1 the body leaves them as they are and writes max(x0 + x1, 0). -/
theorem sound_kernel3 (c : Dev nD) (E : Set ℕ) (i : grid3.Coords)
    (arg0 : Memref sig .tc .vmem S5000x128 .f32) (harg0 : arg0.IsWhole) (arg1 : Memref sig .tc .vmem S1x128 .f32) (harg1 : arg1.IsWhole)
    (arg2 : Memref sig .tc .vmem S5000x128 .f32) (harg2 : arg2.IsWhole)
    (x0 : Vec F S5000x128 .f32) (x1 : Vec F S1x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__bias_relu_kernel i arg0 harg0 arg1 harg1 arg2 harg2) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- So the body meets its obligation at every grid point. -/
theorem body_obligation3 (c : Dev nD) : BodyObligation (dat3 (F := F) V c) (defs₀ (F := F)) Variants.none () Set.univ := fun t => by
  rw [bigSep_W3, bigSep_W3]
  exact sound_body3 V c t

end Cert.Kernel.Calls

end
-- ==== Proof.KRegion4.lean ====
import proofs.«426581_j30013231464613_1_alg».proof.Proof.Gen.Kernel.Launch
import proofs.«426581_j30013231464613_1_alg».proof.Proof.Gen.Kernel.Skeleton
import proofs.«426581_j30013231464613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0

def out4_2 (x0 : Vec F S5000x128 .f32) (x1 : Vec F S128x128 .f32) : Vec F S5000x128 .f32 :=
  View.canon [⟨r4_0, k4_pay1 (View.ld x0 r4_0) (View.ld x1 r4_1)⟩]

theorem cover4_2 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

set_option maxHeartbeats 1000000 in
/-- Run on blocks x0 and x1 the body leaves them as they are and writes their product. -/
theorem sound_kernel4 (c : Dev nD) (E : Set ℕ) (i : grid4.Coords)
    (arg0 : Memref sig .tc .vmem S5000x128 .f32) (harg0 : arg0.IsWhole) (arg1 : Memref sig .tc .vmem S128x128 .f32) (harg1 : arg1.IsWhole)
    (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__matmul_kernel i arg0 harg0 arg1 harg1 arg2 harg2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- So the body meets its obligation at every grid point. -/
theorem body_obligation4 (c : Dev nD) : BodyObligation (dat4 (F := F) V c) (defs₀ (F := F)) Variants.none () Set.univ := fun t => by
  rw [bigSep_W4, bigSep_W4]
  exact sound_body4 V c t

end Cert.Kernel.Calls

end
-- ==== Proof.KRegion5.lean ====
import proofs.«426581_j30013231464613_1_alg».proof.Proof.Gen.Kernel.Launch
import proofs.«426581_j30013231464613_1_alg».proof.Proof.Gen.Kernel.Skeleton
import proofs.«426581_j30013231464613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

def out5_2 (x0 : Vec F S5000x128 .f32) (x1 : Vec F S1x128 .f32) : Vec F S5000x128 .f32 :=
  View.canon [⟨r5_0, k5_pay1 (View.ld x0 r5_0) (View.ld x1 r5_1)⟩]

theorem cover5_2 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

set_option maxHeartbeats 1000000 in
/-- Run on a block x0 and the row x1 the body leaves them as they are and writes max(x0 + x1, 0). -/
theorem sound_kernel5 (c : Dev nD) (E : Set ℕ) (i : grid5.Coords)
    (arg0 : Memref sig .tc .vmem S5000x128 .f32) (harg0 : arg0.IsWhole) (arg1 : Memref sig .tc .vmem S1x128 .f32) (harg1 : arg1.IsWhole)
    (arg2 : Memref sig .tc .vmem S5000x128 .f32) (harg2 : arg2.IsWhole)
    (x0 : Vec F S5000x128 .f32) (x1 : Vec F S1x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__bias_relu_kernel i arg0 harg0 arg1 harg1 arg2 harg2) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- So the body meets its obligation at every grid point. -/
theorem body_obligation5 (c : Dev nD) : BodyObligation (dat5 (F := F) V c) (defs₀ (F := F)) Variants.none () Set.univ := fun t => by
  rw [bigSep_W5, bigSep_W5]
  exact sound_body5 V c t

end Cert.Kernel.Calls

end
-- ==== Proof.KRegion6.lean ====
import proofs.«426581_j30013231464613_1_alg».proof.Proof.Gen.Kernel.Launch
import proofs.«426581_j30013231464613_1_alg».proof.Proof.Gen.Kernel.Skeleton
import proofs.«426581_j30013231464613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Calls

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def pt6 (n : ℕ) : Fin cfg6.N := ⟨n % 25, lt_of_lt_of_eq (Nat.mod_lt _ (by decide)) N_6.symm⟩

theorem pt6_val (n : ℕ) (h : n < 25) : (pt6 n).val = n := Nat.mod_eq_of_lt h

theorem pt6_eq (t : Fin cfg6.N) : pt6 t.val = t :=
  Fin.ext (Nat.mod_eq_of_lt (lt_of_lt_of_eq t.isLt (show cfg6.N = 25 from N_6)))

def acc6 (c : Dev nD) : ℕ → Vec F S128x384 .f32
  | 0 => k6_pay2 (iblk6 V c 0 (pt6 0)) (iblk6 V c 1 (pt6 0)) (k6_pay1 (F := F))
  | n + 1 => k6_pay2 (iblk6 V c 0 (pt6 (n + 1))) (iblk6 V c 1 (pt6 (n + 1))) (acc6 c n)

theorem acc6_zero (c : Dev nD) : acc6 V c 0 = k6_pay2 (iblk6 V c 0 (pt6 0)) (iblk6 V c 1 (pt6 0)) (k6_pay1 (F := F)) := rfl
theorem acc6_succ (c : Dev nD) (n : ℕ) :
    acc6 V c (n + 1) = k6_pay2 (iblk6 V c 0 (pt6 (n + 1))) (iblk6 V c 1 (pt6 (n + 1))) (acc6 V c n) := rfl

theorem acc6_first (c : Dev nD) (t : Fin cfg6.N) (hz : t.val = 0) :
    acc6 V c t.val = k6_pay2 (iblk6 V c 0 t) (iblk6 V c 1 t) (k6_pay1 (F := F)) := by
  have e : pt6 0 = t := by rw [← hz]; exact pt6_eq t
  rw [hz, acc6_zero]
  exact congrArg (fun x => k6_pay2 (iblk6 V c 0 x) (iblk6 V c 1 x) (k6_pay1 (F := F))) e

theorem acc6_later (c : Dev nD) (t : Fin cfg6.N) (hz : t.val ≠ 0) :
    acc6 V c t.val = k6_pay2 (iblk6 V c 0 t) (iblk6 V c 1 t) (acc6 V c (t.val - 1)) := by
  obtain ⟨n, hn⟩ := t
  cases n with
  | zero => exact absurd rfl hz
  | succ n =>
    have e : pt6 (n + 1) = ⟨n + 1, hn⟩ := pt6_eq ⟨n + 1, hn⟩
    show acc6 V c (n + 1) = k6_pay2 (iblk6 V c 0 ⟨n + 1, hn⟩) (iblk6 V c 1 ⟨n + 1, hn⟩) (acc6 V c n)
    rw [acc6_succ]
    exact congrArg (fun x => k6_pay2 (iblk6 V c 0 x) (iblk6 V c 1 x) (acc6 V c n)) e

abbrev cond6_1 (i : grid6.Coords) : Prop := (Scalar.cmpi .ne (Scalar.extui (Scalar.cmpi .eq (BitVec.ofNat 32 (i 0).val) 0#32)) 0#32) = 1#1
theorem hcond6_1 : ∀ t : Fin cfg6.N, cond6_1 (grid6.coords t) ↔ t.val % 25 = 0 :=
  (by decide +kernel : ∀ t : Fin grid6.N, cond6_1 (grid6.coords t) ↔ t.val % 25 = 0)

abbrev cond6_2 (i : grid6.Coords) : Prop := k6_cond2 i = 1#1
theorem hcond6_2 : ∀ t : Fin cfg6.N, cond6_2 (grid6.coords t) ↔ t.val % 25 = 24 :=
  (by decide +kernel : ∀ t : Fin grid6.N, cond6_2 (grid6.coords t) ↔ t.val % 25 = 24)

theorem liveAt6_0 : ∀ t : Fin cfg6.N, cfg6.idle 0 (grid6.coords t) = false :=
  (by decide +kernel : ∀ t : Fin grid6.N, cfg6.idle 0 (grid6.coords t) = false)
theorem liveAt6_1 : ∀ t : Fin cfg6.N, cfg6.idle 1 (grid6.coords t) = false :=
  (by decide +kernel : ∀ t : Fin grid6.N, cfg6.idle 1 (grid6.coords t) = false)
theorem idleAt6_2 : ∀ t : Fin cfg6.N, ¬t.val % 25 = 24 → cfg6.idle 2 (grid6.coords t) = true :=
  (by decide +kernel : ∀ t : Fin grid6.N, ¬t.val % 25 = 24 → cfg6.idle 2 (grid6.coords t) = true)
theorem liveAt6_2 : ∀ t : Fin cfg6.N, t.val % 25 = 24 → cfg6.idle 2 (grid6.coords t) = false :=
  (by decide +kernel : ∀ t : Fin grid6.N, t.val % 25 = 24 → cfg6.idle 2 (grid6.coords t) = false)
theorem noFlush6_2 (t : Fin cfg6.N) (h : ¬t.val % 25 = 24) : (cfg6.win 2).flush t = false := by
  cases hf : (cfg6.win 2).flush t
  · rfl
  · exact absurd ((flush6_2 t).mp hf) h

theorem zeros6 : (![0, 0] : Fin 2 → Nat) = fun _ => 0 := by funext a; match a with | ⟨0, _⟩ => rfl | ⟨1, _⟩ => rfl

abbrev r6 : Rect S128x384 := Rect.unit (s := S128x384) ![0, 0] S128x384.size inb_S128x384_S128x384_0_0

theorem read_writes_r6 {κ : Kind} {sp : Space} (v : View sig κ sp S128x384 .f32) (f : v.ty.Contents (Elt F)) (p : Vec F S128x384 .f32)
    (L : List (View.Piece (Elt F) S128x384 .f32)) :
    v.read (Elt F) (v.writes (Elt F) f ((⟨r6, p⟩ : View.Piece (Elt F) S128x384 .f32) :: L)) = p := by
  rw [View.read_writes_eq_canon _ _ _ (fun y => ⟨_, List.mem_cons.mpr (Or.inl rfl), View.mem_set_unit_zero zeros6 inb_S128x384_S128x384_0_0 y⟩),
    View.canon_cons_unit_zero zeros6]

set_option maxHeartbeats 1000000 in
theorem sound_kernel6_A (c : Dev nD) (E : Set ℕ) (i : grid6.Coords)
    (arg1 : Memref sig .tc .vmem S2000x128 .f32) (harg1 : arg1.IsWhole) (arg2 : Memref sig .tc .vmem S2000x384 .f32) (harg2 : arg2.IsWhole)
    (arg3 : Memref sig .tc .vmem S128x384 .f32) (harg3 : arg3.IsWhole) (arg4 : Memref sig .tc .vmem S128x384 .f32) (harg4 : arg4.IsWhole)
    (hc1 : cond6_1 i) (hc2 : ¬cond6_2 i)
    (x0 : Vec F S2000x128 .f32) (x1 : Vec F S2000x384 .f32) (R : sProp 𝕄) (K : PUnit → sProp 𝕄) :
    iprop(owns (c : Thread nD τ) arg1 fullShare x0 ∗ owns (c : Thread nD τ) arg2 fullShare x1 ∗ R ∗ (∃ d, owns (c : Thread nD τ) arg4 fullShare d)
        ∗ (iprop(owns (c : Thread nD τ) arg1 fullShare x0 ∗ owns (c : Thread nD τ) arg2 fullShare x1 ∗ R
            ∗ owns (c : Thread nD τ) arg4 fullShare (k6_pay2 x0 x1 (k6_pay1 (F := F)))) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, HR, ⟨%ds, %fs, -, HS⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HR]; · iexact HR
  iexists _; isplitr
  swap; · iexact HS
  ipureintro
  sl_unfold_run_names
  rw [read_writes_r6]
  simp only [View.readAt_eq_ld, View.ld_unit_zero (S := S2000x128) zeros6, View.ld_unit_zero (S := S2000x384) zeros6,
    View.readCov_unit_zero (S := S128x384) _ zeros6]

set_option maxHeartbeats 1000000 in
theorem sound_kernel6_B (c : Dev nD) (E : Set ℕ) (i : grid6.Coords)
    (arg1 : Memref sig .tc .vmem S2000x128 .f32) (harg1 : arg1.IsWhole) (arg2 : Memref sig .tc .vmem S2000x384 .f32) (harg2 : arg2.IsWhole)
    (arg3 : Memref sig .tc .vmem S128x384 .f32) (harg3 : arg3.IsWhole) (arg4 : Memref sig .tc .vmem S128x384 .f32) (harg4 : arg4.IsWhole)
    (hc1 : ¬cond6_1 i) (hc2 : ¬cond6_2 i)
    (x0 : Vec F S2000x128 .f32) (x1 : Vec F S2000x384 .f32) (xs : Vec F S128x384 .f32) (R : sProp 𝕄) (K : PUnit → sProp 𝕄) :
    iprop(owns (c : Thread nD τ) arg1 fullShare x0 ∗ owns (c : Thread nD τ) arg2 fullShare x1 ∗ R ∗ owns (c : Thread nD τ) arg4 fullShare xs
        ∗ (iprop(owns (c : Thread nD τ) arg1 fullShare x0 ∗ owns (c : Thread nD τ) arg2 fullShare x1 ∗ R
            ∗ owns (c : Thread nD τ) arg4 fullShare (k6_pay2 x0 x1 xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, HR, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HR]; · iexact HR
  iexists _; isplitr
  swap; · iexact HS
  ipureintro
  sl_unfold_run_names
  rw [read_writes_r6]
  simp only [View.readAt_eq_ld, View.ld_unit_zero (S := S2000x128) zeros6, View.ld_unit_zero (S := S2000x384) zeros6,
    View.ld_unit_zero (S := S128x384) zeros6]

set_option maxHeartbeats 1000000 in
theorem sound_kernel6_C (c : Dev nD) (E : Set ℕ) (i : grid6.Coords)
    (arg1 : Memref sig .tc .vmem S2000x128 .f32) (harg1 : arg1.IsWhole) (arg2 : Memref sig .tc .vmem S2000x384 .f32) (harg2 : arg2.IsWhole)
    (arg3 : Memref sig .tc .vmem S128x384 .f32) (harg3 : arg3.IsWhole) (arg4 : Memref sig .tc .vmem S128x384 .f32) (harg4 : arg4.IsWhole)
    (hc1 : ¬cond6_1 i) (hc2 : cond6_2 i)
    (x0 : Vec F S2000x128 .f32) (x1 : Vec F S2000x384 .f32) (xs : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k6_pay2 x0 x1 xs)
            ∗ owns (c : Thread nD τ) arg4 fullShare (k6_pay2 x0 x1 xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_r6]
    simp only [View.readAt_eq_ld, View.ld_unit_zero (S := S2000x128) zeros6, View.ld_unit_zero (S := S2000x384) zeros6,
      View.ld_unit_zero (S := S128x384) zeros6, View.readCov_unit_zero (S := S128x384) _ zeros6]
  iexists _; isplitr
  swap; · iexact HS
  ipureintro
  sl_unfold_run_names
  rw [read_writes_r6]
  simp only [View.readAt_eq_ld, View.ld_unit_zero (S := S2000x128) zeros6, View.ld_unit_zero (S := S2000x384) zeros6,
    View.ld_unit_zero (S := S128x384) zeros6]

abbrev scM6 : Memref sig .tc .vmem S128x384 .f32 := Memref.whole cc6_scratch0

abbrev rest6 (c : Dev nD) : sProp 𝕄 :=
  Pipeline.scopedRestBut (Ix := Unit) (Name := ℕ) (U := UR sig nD τ) (Lvl := ℕ) (Val := Elt F) spec6 c [cc6_scratch0]

theorem PhiA6_eq (c : Dev nD) :
    (Pipeline.ΦA spec6 c : sProp 𝕄)
      = iprop(iprop((∃ d, owns (c : Thread nD τ) scM6 fullShare d) ∗ rest6 (F := F) c) ∗ (∃ r, prngReg c r)) := by
  unfold Pipeline.ΦA; rw [scopedRest6_split]; simp only [scM6, owns_whole]; try rfl

def PhiS6 (c : Dev nD) : ℕ → sProp 𝕄
  | 0 => Pipeline.ΦA spec6 c
  | n + 1 => iprop(iprop(owns (c : Thread nD τ) scM6 fullShare (acc6 V c n) ∗ rest6 (F := F) c) ∗ (∃ r, prngReg c r))

theorem PhiS6_zero (c : Dev nD) (n : ℕ) (hz : n = 0) : PhiS6 V c n = Pipeline.ΦA spec6 c := by
  subst hz; rfl

theorem PhiS6_succ (c : Dev nD) (n : ℕ) :
    PhiS6 V c (n + 1) = iprop(iprop(owns (c : Thread nD τ) scM6 fullShare (acc6 V c n) ∗ rest6 (F := F) c) ∗ (∃ r, prngReg c r)) := rfl

theorem PhiS6_pos (c : Dev nD) (n : ℕ) (hz : n ≠ 0) :
    PhiS6 V c n = iprop(iprop(owns (c : Thread nD τ) scM6 fullShare (acc6 V c (n - 1)) ∗ rest6 (F := F) c) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val
  Φ t := PhiS6 V c t.val
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) : (dat6 V c).Φ t.castSucc = PhiS6 V c t.val := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) from rfl, PhiS6_succ, PhiS6_castSucc]
  rw [show (dat6 V c).leavesExact 0 t = owns (c : Thread nD τ) (st6_0 t) fullShare ((dat6 V c).after 0 t) from by
      unfold Dat.leavesExact; rw [liveAt6_0 t], after6_0]
  rw [show (dat6 V c).leavesExact 1 t = owns (c : Thread nD τ) (st6_1 t) fullShare ((dat6 V c).after 1 t) from by
      unfold Dat.leavesExact; rw [liveAt6_1 t], after6_1]
  have hN : t.val < 25 := lt_of_lt_of_eq t.isLt (show cfg6.N = 25 from N_6)
  by_cases h2 : t.val % 25 = 24
  · have hz : t.val ≠ 0 := by omega
    have h1 : ¬t.val % 25 = 0 := by omega
    rw [show (dat6 V c).leavesExact 2 t = owns (c : Thread nD τ) (st6_2 t) fullShare ((dat6 V c).after 2 t) from by
      unfold Dat.leavesExact; rw [liveAt6_2 t h2], after6_2]
    rw [PhiS6_pos V c _ hz, acc6_later V c t hz]
    iintro ⟨⟨⟨HS, Hr⟩, Hg⟩, Ho, ⟨%d0, H0⟩, ⟨%d1, H1⟩, ⟨%d2, H2⟩⟩
    iapply (sound_kernel6_C c Set.univ (grid6.coords t) _ _ _ _ _ _ _ _ (fun h => h1 ((hcond6_1 t).mp h)) ((hcond6_2 t).mpr h2)
      (iblk6 V c 0 t) (iblk6 V c 1 t) (acc6 V c (t.val - 1)) _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat6 V c) 2 t (idleAt6_2 t h2) (noFlush6_2 t h2)]
    by_cases h1 : t.val % 25 = 0
    · have hz : t.val = 0 := by omega
      rw [PhiS6_zero V c _ hz, PhiA6_eq, acc6_first V c t hz]
      iintro ⟨⟨⟨HS, Hr⟩, Hg⟩, Ho, ⟨%d0, H0⟩, ⟨%d1, H1⟩, H2⟩
      iapply (sound_kernel6_A c Set.univ (grid6.coords t) _ _ _ _ _ _ _ _ ((hcond6_1 t).mpr h1) (fun h => h2 ((hcond6_2 t).mp h))
        (iblk6 V c 0 t) (iblk6 V c 1 t)
        (iprop(∃ d, owns (c : Thread nD τ) (st6_2 t) fullShare ((dat6 V c).before 2 t d))) _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hz : t.val ≠ 0 := by omega
      rw [PhiS6_pos V c _ hz, acc6_later V c t hz]
      iintro ⟨⟨⟨HS, Hr⟩, Hg⟩, Ho, ⟨%d0, H0⟩, ⟨%d1, H1⟩, H2⟩
      iapply (sound_kernel6_B c Set.univ (grid6.coords t) _ _ _ _ _ _ _ _ (fun h => h1 ((hcond6_1 t).mp h)) (fun h => h2 ((hcond6_2 t).mp h))
        (iblk6 V c 0 t) (iblk6 V c 1 t) (acc6 V c (t.val - 1))
        (iprop(∃ d, owns (c : Thread nD τ) (st6_2 t) fullShare ((dat6 V c).before 2 t d))) _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2

/-- At every grid point the body adds the product of the transposed left block with the right block to the accumulator, which the last point copies out. -/
theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 from rfl, PhiS6_zero V c 0 rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val from rfl, PhiS6_pos V c _ ht, PhiA6_eq]
  iintro ⟨⟨HS, Hr⟩, Hg⟩
  isplitl [HS Hr]
  · isplitl [HS]
    · iexists _; iexact HS
    iexact Hr
  iexact Hg

theorem hout6 (c : Dev nD) : (dat6 V c).Φ (Fin.last cfg6.N) ⊢ Pipeline.ΦA spec6 c :=
  Phi_out6 V c _ (by rw [Fin.val_last]; have : cfg6.N = 25 := N_6; omega)

theorem idx6_2 : ∀ t : Fin cfg6.N, win6_2.index t (0 : Fin 2) = 0 ∧ win6_2.index t (1 : Fin 2) = 0 :=
  (by decide +kernel : ∀ t : Fin grid6.N, win6_2.index t (0 : Fin 2) = 0 ∧ win6_2.index t (1 : Fin 2) = 0)

theorem emb6_2 (t : Fin cfg6.N) (j : S128x384.Idx) : ((cfg6.win 2).blk t).view.emb j = j := by
  obtain ⟨e0, e1⟩ := idx6_2 t
  funext a; apply Fin.ext
  match a with
  | ⟨0, _⟩ => show win6_2.index t (0 : Fin 2) * 128 + 1 * (j 0).val = (j 0).val; omega
  | ⟨1, _⟩ => show win6_2.index t (1 : Fin 2) * 384 + 1 * (j 1).val = (j 1).val; omega

theorem mem_blk6_2 (t : Fin cfg6.N) (i : S128x384.Idx) : i ∈ ((cfg6.win 2).blk t).view.set := by
  have h : i ∈ ((View.whole main_v88).slice (win6_2.rect t)).set ↔
      ∀ a : Fin 2, win6_2.index t a * S128x384.size a ≤ (i a).val ∧ (i a).val < win6_2.index t a * S128x384.size a + S128x384.size a := by
    rw [View.set_slice_whole, Rect.mem_set_unit]
    exact Iff.rfl
  refine h.mpr fun a => ?_
  obtain ⟨e0, e1⟩ := idx6_2 t
  match a with
  | ⟨0, _⟩ => show win6_2.index t (0 : Fin 2) * 128 ≤ (i 0).val ∧ (i 0).val < win6_2.index t (0 : Fin 2) * 128 + 128; have hi : (i 0).val < 128 := (i 0).isLt; omega
  | ⟨1, _⟩ => show win6_2.index t (1 : Fin 2) * 384 ≤ (i 1).val ∧ (i 1).val < win6_2.index t (1 : Fin 2) * 384 + 384; have hi : (i 1).val < 384 := (i 1).isLt; omega

theorem arr6_out (c : Dev nD) : (dat6 V c).arrAt 2 cfg6.N = acc6 V c 24 := by
  refine (dat6 V c).arrAt_eq_of_cover 2 (acc6 V c 24) (fun t hf => ?_)
    (fun i => ⟨pt6 24, (flush6_2 (pt6 24)).mpr (by rw [pt6_val 24 (by omega)]), mem_blk6_2 (pt6 24) i⟩)
  have hN : t.val < 25 := lt_of_lt_of_eq t.isLt (show cfg6.N = 25 from N_6)
  have ht : t.val = 24 := by have := (flush6_2 t).mp hf; omega
  show (cfg6.win 2).cut (grid6.coords t) ((dat6 V c).after 2 t) = _
  rw [after6_2, ht]
  funext j
  show acc6 V c 24 j = acc6 V c 24 (((cfg6.win 2).blk t).view.emb j)
  rw [emb6_2]

end Cert.Kernel.Calls

end
-- ==== Proof.KData.lean ====
import proofs.«426581_j30013231464613_1_alg».proof.Proof.Gen.Kernel.Regions
import proofs.«426581_j30013231464613_1_alg».proof.Proof.KRegion0
import proofs.«426581_j30013231464613_1_alg».proof.Proof.KRegion1
import proofs.«426581_j30013231464613_1_alg».proof.Proof.KRegion2
import proofs.«426581_j30013231464613_1_alg».proof.Proof.KRegion3
import proofs.«426581_j30013231464613_1_alg».proof.Proof.KRegion4
import proofs.«426581_j30013231464613_1_alg».proof.Proof.KRegion5
import proofs.«426581_j30013231464613_1_alg».proof.Proof.KRegion6

set_option maxRecDepth 16384

noncomputable section

namespace Cert.Kernel.Calls

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
local notation "𝕄" => MT nD τ sig Unit (Elt F) ℕ (UR sig nD τ) ℕ

abbrev noLevels : GSem nD τ sig → Finset Unit := fun _ => ∅
abbrev noLevel : GSem nD τ sig → Unit → ℕ := fun _ _ => 0

abbrev rest (c : Dev nD) : sProp 𝕄 := iprop((∃ r, prngReg c r) ∗ ∃ W, owes (c : Thread nD τ) (0 : CellTallies nD τ sig Unit) W)

abbrev pipe0 : Fin 7 := 0
abbrev pipe1 : Fin 7 := 1
abbrev pipe2 : Fin 7 := 2
abbrev pipe3 : Fin 7 := 3
abbrev pipe4 : Fin 7 := 4
abbrev pipe5 : Fin 7 := 5
abbrev pipe6 : Fin 7 := 6

variable (m : (ℓ : Loc nD τ sig) → Buf (Elt F) ℓ)

abbrev atTc (B : Dev nD → Valuation τ sig (Elt F)) : (c : Dev nD) → (b : Ref sig .tc) → Buf (Elt F) ((c : Thread nD τ).loc b) :=
  fun c b => B c b

abbrev B3 (c : Dev nD) : Valuation τ sig (Elt F) := Gen.V3 m c

def B4 (c : Dev nD) : Valuation τ sig (Elt F) :=
  Function.update (B3 m c) main_v30 ((dat0 (atTc (B3 m)) c).arrAt 2 cfg0.N)

abbrev B5 (c : Dev nD) : Valuation τ sig (Elt F) := StableHlo.after hostOps1 (B4 m c)

def B6 (c : Dev nD) : Valuation τ sig (Elt F) :=
  Function.update (B5 m c) main_v45 ((dat1 (atTc (B5 m)) c).arrAt 2 cfg1.N)

def B7 (c : Dev nD) : Valuation τ sig (Elt F) :=
  Function.update (B6 m c) main_v46 ((dat2 (atTc (B6 m)) c).arrAt 2 cfg2.N)

abbrev B8 (c : Dev nD) : Valuation τ sig (Elt F) := StableHlo.after hostOps3 (B7 m c)

def B9 (c : Dev nD) : Valuation τ sig (Elt F) :=
  Function.update (B8 m c) main_v61 ((dat3 (atTc (B8 m)) c).arrAt 2 cfg3.N)

def B10 (c : Dev nD) : Valuation τ sig (Elt F) :=
  Function.update (B9 m c) main_v62 ((dat4 (atTc (B9 m)) c).arrAt 2 cfg4.N)

abbrev B11 (c : Dev nD) : Valuation τ sig (Elt F) := StableHlo.after hostOps5 (B10 m c)

def B12 (c : Dev nD) : Valuation τ sig (Elt F) :=
  Function.update (B11 m c) main_v77 ((dat5 (atTc (B11 m)) c).arrAt 2 cfg5.N)

abbrev B13 (c : Dev nD) : Valuation τ sig (Elt F) := StableHlo.after hostOps6 (B12 m c)

def B14 (c : Dev nD) : Valuation τ sig (Elt F) :=
  Function.update (B13 m c) main_v88 ((dat6 (atTc (B13 m)) c).arrAt 2 cfg6.N)

abbrev B15 (c : Dev nD) : Valuation τ sig (Elt F) := StableHlo.after hostOps7 (B14 m c)

/-- What each region leaves, boundary by boundary. -/
def outs : Gen.Outs (F := F) := fun n r c =>
  match n with
  | 4 => B4 m c r | 6 => B6 m c r | 7 => B7 m c r | 9 => B9 m c r | 10 => B10 m c r | 12 => B12 m c r | 14 => B14 m c r
  | _ => B3 m c r

theorem V4_eq (c : Dev nD) : Gen.V4 m (outs m) c = B4 m c := by
  show Function.update (Gen.V3 m c) main_v30 (B4 m c main_v30) = B4 m c
  unfold B4; rw [Function.update_self]
theorem V5_eq (c : Dev nD) : Gen.V5 m (outs m) c = B5 m c := by
  show StableHlo.after hostOps1 (Gen.V4 m (outs m) c) = _
  rw [V4_eq]
theorem V6_eq (c : Dev nD) : Gen.V6 m (outs m) c = B6 m c := by
  show Function.update (Gen.V5 m (outs m) c) main_v45 (B6 m c main_v45) = B6 m c
  rw [V5_eq]; unfold B6; rw [Function.update_self]
theorem V7_eq (c : Dev nD) : Gen.V7 m (outs m) c = B7 m c := by
  show Function.update (Gen.V6 m (outs m) c) main_v46 (B7 m c main_v46) = B7 m c
  rw [V6_eq]; unfold B7; rw [Function.update_self]
theorem V8_eq (c : Dev nD) : Gen.V8 m (outs m) c = B8 m c := by
  show StableHlo.after hostOps3 (Gen.V7 m (outs m) c) = _
  rw [V7_eq]
theorem V9_eq (c : Dev nD) : Gen.V9 m (outs m) c = B9 m c := by
  show Function.update (Gen.V8 m (outs m) c) main_v61 (B9 m c main_v61) = B9 m c
  rw [V8_eq]; unfold B9; rw [Function.update_self]
theorem V10_eq (c : Dev nD) : Gen.V10 m (outs m) c = B10 m c := by
  show Function.update (Gen.V9 m (outs m) c) main_v62 (B10 m c main_v62) = B10 m c
  rw [V9_eq]; unfold B10; rw [Function.update_self]
theorem V11_eq (c : Dev nD) : Gen.V11 m (outs m) c = B11 m c := by
  show StableHlo.after hostOps5 (Gen.V10 m (outs m) c) = _
  rw [V10_eq]
theorem V12_eq (c : Dev nD) : Gen.V12 m (outs m) c = B12 m c := by
  show Function.update (Gen.V11 m (outs m) c) main_v77 (B12 m c main_v77) = B12 m c
  rw [V11_eq]; unfold B12; rw [Function.update_self]
theorem V13_eq (c : Dev nD) : Gen.V13 m (outs m) c = B13 m c := by
  show StableHlo.after hostOps6 (Gen.V12 m (outs m) c) = _
  rw [V12_eq]
theorem V14_eq (c : Dev nD) : Gen.V14 m (outs m) c = B14 m c := by
  show Function.update (Gen.V13 m (outs m) c) main_v88 (B14 m c main_v88) = B14 m c
  rw [V13_eq]; unfold B14; rw [Function.update_self]
theorem V15_eq (c : Dev nD) : Gen.V15 m (outs m) c = B15 m c := by
  show StableHlo.after hostOps7 (Gen.V14 m (outs m) c) = _
  rw [V14_eq]

/-- Each region's proof data, at the contents the region is entered with. -/
def pdats : (p : Fin 7) → (c : Dev nD) → Dat τ (Elt F) Unit ℕ (UR sig nD τ) ℕ (cfgs p) c
  | ⟨0, _⟩ => fun c => dat0 (atTc (B3 m)) c
  | ⟨1, _⟩ => fun c => dat1 (atTc (B5 m)) c
  | ⟨2, _⟩ => fun c => dat2 (atTc (B6 m)) c
  | ⟨3, _⟩ => fun c => dat3 (atTc (B8 m)) c
  | ⟨4, _⟩ => fun c => dat4 (atTc (B9 m)) c
  | ⟨5, _⟩ => fun c => dat5 (atTc (B11 m)) c
  | ⟨6, _⟩ => fun c => dat6 (atTc (B13 m)) c

theorem hinP6 (c : Dev nD) : Pipeline.ΦA spec6 c ⊢ (pdats m pipe6 c).Φ 0 := hin6 (atTc (B13 m)) c
theorem houtP6 (c : Dev nD) : (pdats m pipe6 c).Φ (Fin.last cfg6.N) ⊢ Pipeline.ΦA spec6 c := hout6 (atTc (B13 m)) c

theorem B4_out (c : Dev nD) : B4 m c main_v30 = (dat0 (atTc (B3 m)) c).arrAt 2 cfg0.N := by
  unfold B4; rw [Function.update_self]
theorem B6_out (c : Dev nD) : B6 m c main_v45 = (dat1 (atTc (B5 m)) c).arrAt 2 cfg1.N := by
  unfold B6; rw [Function.update_self]
theorem B7_out (c : Dev nD) : B7 m c main_v46 = (dat2 (atTc (B6 m)) c).arrAt 2 cfg2.N := by
  unfold B7; rw [Function.update_self]
theorem B9_out (c : Dev nD) : B9 m c main_v61 = (dat3 (atTc (B8 m)) c).arrAt 2 cfg3.N := by
  unfold B9; rw [Function.update_self]
theorem B10_out (c : Dev nD) : B10 m c main_v62 = (dat4 (atTc (B9 m)) c).arrAt 2 cfg4.N := by
  unfold B10; rw [Function.update_self]
theorem B12_out (c : Dev nD) : B12 m c main_v77 = (dat5 (atTc (B11 m)) c).arrAt 2 cfg5.N := by
  unfold B12; rw [Function.update_self]
theorem B14_out (c : Dev nD) : B14 m c main_v88 = (dat6 (atTc (B13 m)) c).arrAt 2 cfg6.N := by
  unfold B14; rw [Function.update_self]

theorem B4_of_ne (c : Dev nD) (r : Ref sig .tc) (h : r ≠ main_v30) : B4 m c r = B3 m c r := by
  unfold B4; rw [Function.update_of_ne (StableHlo.devRef_ne_of_ne h)]
theorem B6_of_ne (c : Dev nD) (r : Ref sig .tc) (h : r ≠ main_v45) : B6 m c r = B5 m c r := by
  unfold B6; rw [Function.update_of_ne (StableHlo.devRef_ne_of_ne h)]
theorem B7_of_ne (c : Dev nD) (r : Ref sig .tc) (h : r ≠ main_v46) : B7 m c r = B6 m c r := by
  unfold B7; rw [Function.update_of_ne (StableHlo.devRef_ne_of_ne h)]
theorem B9_of_ne (c : Dev nD) (r : Ref sig .tc) (h : r ≠ main_v61) : B9 m c r = B8 m c r := by
  unfold B9; rw [Function.update_of_ne (StableHlo.devRef_ne_of_ne h)]
theorem B10_of_ne (c : Dev nD) (r : Ref sig .tc) (h : r ≠ main_v62) : B10 m c r = B9 m c r := by
  unfold B10; rw [Function.update_of_ne (StableHlo.devRef_ne_of_ne h)]
theorem B12_of_ne (c : Dev nD) (r : Ref sig .tc) (h : r ≠ main_v77) : B12 m c r = B11 m c r := by
  unfold B12; rw [Function.update_of_ne (StableHlo.devRef_ne_of_ne h)]
theorem B14_of_ne (c : Dev nD) (r : Ref sig .tc) (h : r ≠ main_v88) : B14 m c r = B13 m c r := by
  unfold B14; rw [Function.update_of_ne (StableHlo.devRef_ne_of_ne h)]

end Cert.Kernel.Calls

end
-- ==== Proof.KRegOf.lean ====
import proofs.«426581_j30013231464613_1_alg».proof.Proof.KData

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The type of region p's segment. -/
abbrev RSeg (p : Fin 7) := Pipeline.RegionSeg (pcfgs (F := F)) adm (pdats m) () defs₀ Variants.none noLevels noLevel p

set_option backward.isDefEq.respectTransparency.types false in
/-- A region of the main program as a segment from the boundary contents Bi to the contents Bo. -/
def regOf (p : Fin 7) (L : Pipeline.LaunchFacts (nD := nD) (τ := τ) cfgs p) (Bi Bo : Dev nD → Valuation τ sig (Elt F))
    (hB : ∀ c, BodyObligation (pdats m p c) (defs₀ (F := F)) Variants.none () Set.univ)
    (hA : ∀ c w, (pdats m p c).A w = atTc Bi c (Pipeline.arrRef (cfgs p).spec w))
    (hshare : ∀ c w, (pdats m p c).share w = fullShare)
    (howed : ∀ c t, (pdats m p c).owed t = 0) (hrec : ∀ c x, x ∈ (pdats m p c).recorded 0)
    (hI : ∀ c, Pipeline.ΦA (cfgs p).spec c ⊢ (pdats m p c).Φ 0)
    (hO : ∀ c, (pdats m p c).Φ (Fin.last (cfgs p).N) ⊢ Pipeline.ΦA (cfgs p).spec c)
    (hF : ∀ c w, (pdats m p c).arrAt w (cfgs p).N = atTc Bo c (Pipeline.arrRef (cfgs p).spec w))
    (hrest : ∀ c b, b ∉ Finset.univ.image (Pipeline.arrRef (cfgs p).spec) → atTc Bo c b = atTc Bi c b) :
    RSeg m p where
  win := L.win.to₀
  block_pos := L.block_pos
  stage_whole := L.stage_whole
  K := PEmpty
  osem k := k.elim
  ho := Pipeline.OwnSemFacts.none _
  hbody c := (hB c).loose
  hwaits := Pipeline.hwaits_of_owed_zero _ _ _ _ noLevels noLevel p howed
  pre c := iprop(StableHlo.held (c : Thread nD τ) (Pipeline.ucRefs τ sig) (Bi c) ∗ rest c)
  post c := iprop(StableHlo.held (c : Thread nD τ) (Pipeline.ucRefs τ sig) (Bo c) ∗ rest c)
  X c := iprop(∃ r, prngReg c r)
  Y c := iprop(∃ r, prngReg c r)
  Z c := Pipeline.unscopedRest (Ix := Unit) (Name := ℕ) (U := UR sig nD τ) (Lvl := ℕ) (cfgs p).spec c (atTc Bi c)
  hentry c := by
    rw [Pipeline.ownSems0_none]
    have hsplit := Pipeline.arrays_of_unscopedBufs (p := p) (pcfgs (F := F)) adm (pdats m) L.win L.arr_whole c
      (hshare c) (atTc Bi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c _)
      iexact HO
    isplitl [Hp]; · iexact Hp
    iexact Hrest
  hin c := by
    have h := hI c
    unfold Pipeline.ΦA at h
    iintro ⟨Hp, -, Hr⟩
    iapply h
    isplitl [Hr]; · iexact Hr
    iexact Hp
  hout c := by
    rw [Pipeline.ownSems0_none]
    have h := hO c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m) (hshare c)
      (atTc Bi c) (atTc Bo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

end Cert.Kernel.Calls

end
-- ==== Proof.KRegs.lean ====
import proofs.«426581_j30013231464613_1_alg».proof.Proof.KRegOf

set_option maxRecDepth 16384
set_option maxHeartbeats 4000000

noncomputable section

namespace Cert.Kernel.Calls

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

theorem hF0 (c : Dev nD) (w : Fin cfg0.W) :
    (pdats m pipe0 c).arrAt w cfg0.N = atTc (B4 m) c (Pipeline.arrRef spec0 w) := by
  match w with
  | ⟨0, _⟩ => exact ((pdats m pipe0 c).arrAt_in 0 rfl _).trans ((A_eq0 (atTc (B3 m)) c 0).trans (B4_of_ne m c _ (by decide)).symm)
  | ⟨1, _⟩ => exact ((pdats m pipe0 c).arrAt_in 1 rfl _).trans ((A_eq0 (atTc (B3 m)) c 1).trans (B4_of_ne m c _ (by decide)).symm)
  | ⟨2, _⟩ => exact (B4_out m c).symm

def reg0 : RSeg m pipe0 :=
  regOf m pipe0 launch0 (B3 m) (B4 m) (fun c => body_obligation0 (atTc (B3 m)) c) (fun _ _ => rfl)
    (fun c => (pdats m pipe0 c).share_full fun _ => rfl) (fun _ _ => rfl) (fun _ _ => trivial) (fun _ => .rfl) (fun _ => .rfl) (hF0 m)
    fun c b hb => B4_of_ne m c b (by rintro rfl; exact hb (Finset.mem_image.mpr ⟨2, Finset.mem_univ _, rfl⟩))

theorem hF1 (c : Dev nD) (w : Fin cfg1.W) :
    (pdats m pipe1 c).arrAt w cfg1.N = atTc (B6 m) c (Pipeline.arrRef spec1 w) := by
  match w with
  | ⟨0, _⟩ => exact ((pdats m pipe1 c).arrAt_in 0 rfl _).trans ((A_eq1 (atTc (B5 m)) c 0).trans (B6_of_ne m c _ (by decide)).symm)
  | ⟨1, _⟩ => exact ((pdats m pipe1 c).arrAt_in 1 rfl _).trans ((A_eq1 (atTc (B5 m)) c 1).trans (B6_of_ne m c _ (by decide)).symm)
  | ⟨2, _⟩ => exact (B6_out m c).symm

def reg1 : RSeg m pipe1 :=
  regOf m pipe1 launch1 (B5 m) (B6 m) (fun c => body_obligation1 (atTc (B5 m)) c) (fun _ _ => rfl)
    (fun c => (pdats m pipe1 c).share_full fun _ => rfl) (fun _ _ => rfl) (fun _ _ => trivial) (fun _ => .rfl) (fun _ => .rfl) (hF1 m)
    fun c b hb => B6_of_ne m c b (by rintro rfl; exact hb (Finset.mem_image.mpr ⟨2, Finset.mem_univ _, rfl⟩))

theorem hF2 (c : Dev nD) (w : Fin cfg2.W) :
    (pdats m pipe2 c).arrAt w cfg2.N = atTc (B7 m) c (Pipeline.arrRef spec2 w) := by
  match w with
  | ⟨0, _⟩ => exact ((pdats m pipe2 c).arrAt_in 0 rfl _).trans ((A_eq2 (atTc (B6 m)) c 0).trans (B7_of_ne m c _ (by decide)).symm)
  | ⟨1, _⟩ => exact ((pdats m pipe2 c).arrAt_in 1 rfl _).trans ((A_eq2 (atTc (B6 m)) c 1).trans (B7_of_ne m c _ (by decide)).symm)
  | ⟨2, _⟩ => exact (B7_out m c).symm

def reg2 : RSeg m pipe2 :=
  regOf m pipe2 launch2 (B6 m) (B7 m) (fun c => body_obligation2 (atTc (B6 m)) c) (fun _ _ => rfl)
    (fun c => (pdats m pipe2 c).share_full fun _ => rfl) (fun _ _ => rfl) (fun _ _ => trivial) (fun _ => .rfl) (fun _ => .rfl) (hF2 m)
    fun c b hb => B7_of_ne m c b (by rintro rfl; exact hb (Finset.mem_image.mpr ⟨2, Finset.mem_univ _, rfl⟩))

theorem hF3 (c : Dev nD) (w : Fin cfg3.W) :
    (pdats m pipe3 c).arrAt w cfg3.N = atTc (B9 m) c (Pipeline.arrRef spec3 w) := by
  match w with
  | ⟨0, _⟩ => exact ((pdats m pipe3 c).arrAt_in 0 rfl _).trans ((A_eq3 (atTc (B8 m)) c 0).trans (B9_of_ne m c _ (by decide)).symm)
  | ⟨1, _⟩ => exact ((pdats m pipe3 c).arrAt_in 1 rfl _).trans ((A_eq3 (atTc (B8 m)) c 1).trans (B9_of_ne m c _ (by decide)).symm)
  | ⟨2, _⟩ => exact (B9_out m c).symm

def reg3 : RSeg m pipe3 :=
  regOf m pipe3 launch3 (B8 m) (B9 m) (fun c => body_obligation3 (atTc (B8 m)) c) (fun _ _ => rfl)
    (fun c => (pdats m pipe3 c).share_full fun _ => rfl) (fun _ _ => rfl) (fun _ _ => trivial) (fun _ => .rfl) (fun _ => .rfl) (hF3 m)
    fun c b hb => B9_of_ne m c b (by rintro rfl; exact hb (Finset.mem_image.mpr ⟨2, Finset.mem_univ _, rfl⟩))

theorem hF4 (c : Dev nD) (w : Fin cfg4.W) :
    (pdats m pipe4 c).arrAt w cfg4.N = atTc (B10 m) c (Pipeline.arrRef spec4 w) := by
  match w with
  | ⟨0, _⟩ => exact ((pdats m pipe4 c).arrAt_in 0 rfl _).trans ((A_eq4 (atTc (B9 m)) c 0).trans (B10_of_ne m c _ (by decide)).symm)
  | ⟨1, _⟩ => exact ((pdats m pipe4 c).arrAt_in 1 rfl _).trans ((A_eq4 (atTc (B9 m)) c 1).trans (B10_of_ne m c _ (by decide)).symm)
  | ⟨2, _⟩ => exact (B10_out m c).symm

def reg4 : RSeg m pipe4 :=
  regOf m pipe4 launch4 (B9 m) (B10 m) (fun c => body_obligation4 (atTc (B9 m)) c) (fun _ _ => rfl)
    (fun c => (pdats m pipe4 c).share_full fun _ => rfl) (fun _ _ => rfl) (fun _ _ => trivial) (fun _ => .rfl) (fun _ => .rfl) (hF4 m)
    fun c b hb => B10_of_ne m c b (by rintro rfl; exact hb (Finset.mem_image.mpr ⟨2, Finset.mem_univ _, rfl⟩))

theorem hF5 (c : Dev nD) (w : Fin cfg5.W) :
    (pdats m pipe5 c).arrAt w cfg5.N = atTc (B12 m) c (Pipeline.arrRef spec5 w) := by
  match w with
  | ⟨0, _⟩ => exact ((pdats m pipe5 c).arrAt_in 0 rfl _).trans ((A_eq5 (atTc (B11 m)) c 0).trans (B12_of_ne m c _ (by decide)).symm)
  | ⟨1, _⟩ => exact ((pdats m pipe5 c).arrAt_in 1 rfl _).trans ((A_eq5 (atTc (B11 m)) c 1).trans (B12_of_ne m c _ (by decide)).symm)
  | ⟨2, _⟩ => exact (B12_out m c).symm

def reg5 : RSeg m pipe5 :=
  regOf m pipe5 launch5 (B11 m) (B12 m) (fun c => body_obligation5 (atTc (B11 m)) c) (fun _ _ => rfl)
    (fun c => (pdats m pipe5 c).share_full fun _ => rfl) (fun _ _ => rfl) (fun _ _ => trivial) (fun _ => .rfl) (fun _ => .rfl) (hF5 m)
    fun c b hb => B12_of_ne m c b (by rintro rfl; exact hb (Finset.mem_image.mpr ⟨2, Finset.mem_univ _, rfl⟩))

theorem hF6 (c : Dev nD) (w : Fin cfg6.W) :
    (pdats m pipe6 c).arrAt w cfg6.N = atTc (B14 m) c (Pipeline.arrRef spec6 w) := by
  match w with
  | ⟨0, _⟩ => exact ((pdats m pipe6 c).arrAt_in 0 rfl _).trans ((A_eq6 (atTc (B13 m)) c 0).trans (B14_of_ne m c _ (by decide)).symm)
  | ⟨1, _⟩ => exact ((pdats m pipe6 c).arrAt_in 1 rfl _).trans ((A_eq6 (atTc (B13 m)) c 1).trans (B14_of_ne m c _ (by decide)).symm)
  | ⟨2, _⟩ => exact (B14_out m c).symm

def reg6 : RSeg m pipe6 :=
  regOf m pipe6 launch6 (B13 m) (B14 m) (fun c => body_obligation6 (atTc (B13 m)) c) (fun _ _ => rfl)
    (fun c => (pdats m pipe6 c).share_full fun _ => rfl) (fun _ _ => rfl) (fun _ _ => trivial) (hinP6 m) (houtP6 m) (hF6 m)
    fun c b hb => B14_of_ne m c b (by rintro rfl; exact hb (Finset.mem_image.mpr ⟨2, Finset.mem_univ _, rfl⟩))

end Cert.Kernel.Calls

end
-- ==== Proof.KLaunch.lean ====
import proofs.«426581_j30013231464613_1_alg».proof.Proof.KRegs

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem held_congr (c : Dev nD) {W W' : Valuation τ sig (Elt F)} (h : W = W') (R : sProp 𝕄) :
    iprop(StableHlo.held (c : Thread nD τ) (Pipeline.ucRefs τ sig) W ∗ R)
      ⊢ iprop(StableHlo.held (c : Thread nD τ) (Pipeline.ucRefs τ sig) W' ∗ R) := by
  subst h; exact .rfl

abbrev rests : Fin 8 → Dev nD → sProp 𝕄 := fun _ c => rest c

abbrev items (c : Dev nD) :=
  Gen.segs m (outs m) Variants.none noLevels noLevel (rests (F := F)) () (pdats m) (reg0 m) (reg1 m) (reg2 m) (reg3 m) (reg4 m) (reg5 m) (reg6 m) c

set_option backward.isDefEq.respectTransparency.types false in
/-- Every weakly fair execution of the main program terminates, every buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B15 m c b) := by
  refine Pipeline.θ_run_regions_kit_dev (pcfgs (F := F)) adm (pdats m) () cellOf_inj emb₁ defs₀ Variants.none noLevels noLevel m ρ main
    (items m)
    (fun c Q => by
      rewrite [main_chain c, Seg.run_eq_chain,
        show (items m c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [items, Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => StableHlo.held (c : Thread nD τ) (Pipeline.ucRefs τ sig) (B15 m c))
    (hch := fun c => ⟨.rfl, .rfl, .rfl, .rfl,
      held_congr c (V4_eq m c).symm _, held_congr c (V5_eq m c) _,
      .rfl,
      held_congr c (V7_eq m c).symm _, held_congr c (V8_eq m c) _,
      .rfl,
      held_congr c (V10_eq m c).symm _, held_congr c (V11_eq m c) _,
      held_congr c (V12_eq m c).symm _, held_congr c (V13_eq m c) _,
      held_congr c (V14_eq m c).symm _,
      (held_congr c (V15_eq m c) _).trans (sep_mono .rfl (by iintro ⟨-, HO⟩; iexact HO))⟩)
    (hinit := ?_)
    (QY := fun c s => ∀ b ∈ Pipeline.ucRefs τ sig, s.mem (((c : Thread nD τ)).1, b) = B15 m c b)
    (hfin := fun c s' => ?_) (hQ := fun _ h => h)
  ·
    refine Pipeline.initEach noLevels noLevel fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    iintro ⟨Hh, HSI⟩
    unfold StableHlo.held
    imodintro
    iapply (pointsTo_read_all (Pipeline.ucRefs τ sig) (fun b => (((c : Thread nD τ)).1, b)) (B15 m c) s')
    isplitl [Hh] <;> iassumption

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem B15_eq (c : Dev nD) : B15 m c = Gen.V15 m (outs m) c := (V15_eq m c).symm

/-- The arguments, which no item writes, end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans ((congrFun (B15_eq m c) _).trans (Gen.V15_main_arg0 m (outs m) c)),
    (h c _ (mem_uc main_arg1 (by decide))).trans ((congrFun (B15_eq m c) _).trans (Gen.V15_main_arg1 m (outs m) c)),
    (h c _ (mem_uc main_arg2 (by decide))).trans ((congrFun (B15_eq m c) _).trans (Gen.V15_main_arg2 m (outs m) c)),
    (h c _ (mem_uc main_arg3 (by decide))).trans ((congrFun (B15_eq m c) _).trans (Gen.V15_main_arg3 m (outs m) c)),
    (h c _ (mem_uc main_arg4 (by decide))).trans ((congrFun (B15_eq m c) _).trans (Gen.V15_main_arg4 m (outs m) c)),
    (h c _ (mem_uc main_arg5 (by decide))).trans ((congrFun (B15_eq m c) _).trans (Gen.V15_main_arg5 m (outs m) c)),
    (h c _ (mem_uc main_arg6 (by decide))).trans ((congrFun (B15_eq m c) _).trans (Gen.V15_main_arg6 m (outs m) c)),
    (h c _ (mem_uc main_arg7 (by decide))).trans ((congrFun (B15_eq m c) _).trans (Gen.V15_main_arg7 m (outs m) c)),
    (h c _ (mem_uc main_arg8 (by decide))).trans ((congrFun (B15_eq m c) _).trans (Gen.V15_main_arg8 m (outs m) c))⟩)
    (run_all m ρ)

end Cert.Kernel.Calls

end
-- ==== Proof.Region0.lean ====
import proofs.«426581_j30013231464613_1_alg».proof.Proof.Gen.KernelIdeal.Launch
import proofs.«426581_j30013231464613_1_alg».proof.Proof.Gen.KernelIdeal.Skeleton
import proofs.«426581_j30013231464613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

def out0_2 (x0 : Vec F S5000x128 .f32) (x1 : Vec F S128x128 .f32) : Vec F S5000x128 .f32 :=
  View.canon [⟨r0_0, k0_pay1 (View.ld x0 r0_0) (View.ld x1 r0_1)⟩]

theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
/-- Run on blocks x0 and x1 the body leaves them as they are and writes their product. -/
theorem sound_kernel0 (c : Dev nD) (E : Set ℕ) (i : grid0.Coords)
    (arg0 : Memref sig .tc .vmem S5000x128 .f32) (harg0 : arg0.IsWhole) (arg1 : Memref sig .tc .vmem S128x128 .f32) (harg1 : arg1.IsWhole)
    (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- So the body meets its obligation at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Calls

end
-- ==== Proof.Region1.lean ====
import proofs.«426581_j30013231464613_1_alg».proof.Proof.Gen.KernelIdeal.Launch
import proofs.«426581_j30013231464613_1_alg».proof.Proof.Gen.KernelIdeal.Skeleton
import proofs.«426581_j30013231464613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

def out1_2 (x0 : Vec F S5000x128 .f32) (x1 : Vec F S1x128 .f32) : Vec F S5000x128 .f32 :=
  View.canon [⟨r1_0, k1_pay1 (View.ld x0 r1_0) (View.ld x1 r1_1)⟩]

theorem cover1_2 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in
/-- Run on a block x0 and the row x1 the body leaves them as they are and writes max(x0 + x1, 0). -/
theorem sound_kernel1 (c : Dev nD) (E : Set ℕ) (i : grid1.Coords)
    (arg0 : Memref sig .tc .vmem S5000x128 .f32) (harg0 : arg0.IsWhole) (arg1 : Memref sig .tc .vmem S1x128 .f32) (harg1 : arg1.IsWhole)
    (arg2 : Memref sig .tc .vmem S5000x128 .f32) (harg2 : arg2.IsWhole)
    (x0 : Vec F S5000x128 .f32) (x1 : Vec F S1x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__bias_relu_kernel i arg0 harg0 arg1 harg1 arg2 harg2) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- So the body meets its obligation at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Calls

end
-- ==== Proof.Region2.lean ====
import proofs.«426581_j30013231464613_1_alg».proof.Proof.Gen.KernelIdeal.Launch
import proofs.«426581_j30013231464613_1_alg».proof.Proof.Gen.KernelIdeal.Skeleton
import proofs.«426581_j30013231464613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0

def out2_2 (x0 : Vec F S5000x128 .f32) (x1 : Vec F S128x128 .f32) : Vec F S5000x128 .f32 :=
  View.canon [⟨r2_0, k2_pay1 (View.ld x0 r2_0) (View.ld x1 r2_1)⟩]

theorem cover2_2 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 1000000 in
/-- Run on blocks x0 and x1 the body leaves them as they are and writes their product. -/
theorem sound_kernel2 (c : Dev nD) (E : Set ℕ) (i : grid2.Coords)
    (arg0 : Memref sig .tc .vmem S5000x128 .f32) (harg0 : arg0.IsWhole) (arg1 : Memref sig .tc .vmem S128x128 .f32) (harg1 : arg1.IsWhole)
    (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- So the body meets its obligation at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Calls

end
-- ==== Proof.Region3.lean ====
import proofs.«426581_j30013231464613_1_alg».proof.Proof.Gen.KernelIdeal.Launch
import proofs.«426581_j30013231464613_1_alg».proof.Proof.Gen.KernelIdeal.Skeleton
import proofs.«426581_j30013231464613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

def out3_2 (x0 : Vec F S5000x128 .f32) (x1 : Vec F S1x128 .f32) : Vec F S5000x128 .f32 :=
  View.canon [⟨r3_0, k3_pay1 (View.ld x0 r3_0) (View.ld x1 r3_1)⟩]

theorem cover3_2 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 1000000 in
/-- Run on a block x0 and the row x1 the body leaves them as they are and writes max(x0 + x1, 0). -/
theorem sound_kernel3 (c : Dev nD) (E : Set ℕ) (i : grid3.Coords)
    (arg0 : Memref sig .tc .vmem S5000x128 .f32) (harg0 : arg0.IsWhole) (arg1 : Memref sig .tc .vmem S1x128 .f32) (harg1 : arg1.IsWhole)
    (arg2 : Memref sig .tc .vmem S5000x128 .f32) (harg2 : arg2.IsWhole)
    (x0 : Vec F S5000x128 .f32) (x1 : Vec F S1x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__bias_relu_kernel i arg0 harg0 arg1 harg1 arg2 harg2) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- So the body meets its obligation at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Calls

end
-- ==== Proof.Region4.lean ====
import proofs.«426581_j30013231464613_1_alg».proof.Proof.Gen.KernelIdeal.Launch
import proofs.«426581_j30013231464613_1_alg».proof.Proof.Gen.KernelIdeal.Skeleton
import proofs.«426581_j30013231464613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0

def out4_2 (x0 : Vec F S5000x128 .f32) (x1 : Vec F S128x128 .f32) : Vec F S5000x128 .f32 :=
  View.canon [⟨r4_0, k4_pay1 (View.ld x0 r4_0) (View.ld x1 r4_1)⟩]

theorem cover4_2 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

set_option maxHeartbeats 1000000 in
/-- Run on blocks x0 and x1 the body leaves them as they are and writes their product. -/
theorem sound_kernel4 (c : Dev nD) (E : Set ℕ) (i : grid4.Coords)
    (arg0 : Memref sig .tc .vmem S5000x128 .f32) (harg0 : arg0.IsWhole) (arg1 : Memref sig .tc .vmem S128x128 .f32) (harg1 : arg1.IsWhole)
    (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__matmul_kernel i arg0 harg0 arg1 harg1 arg2 harg2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- So the body meets its obligation at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Calls

end
-- ==== Proof.Region5.lean ====
import proofs.«426581_j30013231464613_1_alg».proof.Proof.Gen.KernelIdeal.Launch
import proofs.«426581_j30013231464613_1_alg».proof.Proof.Gen.KernelIdeal.Skeleton
import proofs.«426581_j30013231464613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

def out5_2 (x0 : Vec F S5000x128 .f32) (x1 : Vec F S1x128 .f32) : Vec F S5000x128 .f32 :=
  View.canon [⟨r5_0, k5_pay1 (View.ld x0 r5_0) (View.ld x1 r5_1)⟩]

theorem cover5_2 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

set_option maxHeartbeats 1000000 in
/-- Run on a block x0 and the row x1 the body leaves them as they are and writes max(x0 + x1, 0). -/
theorem sound_kernel5 (c : Dev nD) (E : Set ℕ) (i : grid5.Coords)
    (arg0 : Memref sig .tc .vmem S5000x128 .f32) (harg0 : arg0.IsWhole) (arg1 : Memref sig .tc .vmem S1x128 .f32) (harg1 : arg1.IsWhole)
    (arg2 : Memref sig .tc .vmem S5000x128 .f32) (harg2 : arg2.IsWhole)
    (x0 : Vec F S5000x128 .f32) (x1 : Vec F S1x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__bias_relu_kernel i arg0 harg0 arg1 harg1 arg2 harg2) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- So the body meets its obligation at every grid point. -/
theorem body_obligation5 (c : Dev nD) : BodyObligation (dat5 (F := F) V c) (defs₀ (F := F)) Variants.none () Set.univ := fun t => by
  rw [bigSep_W5, bigSep_W5]
  exact sound_body5 V c t

end Cert.KernelIdeal.Calls

end
-- ==== Proof.Region6.lean ====
import proofs.«426581_j30013231464613_1_alg».proof.Proof.Gen.KernelIdeal.Launch
import proofs.«426581_j30013231464613_1_alg».proof.Proof.Gen.KernelIdeal.Skeleton
import proofs.«426581_j30013231464613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Calls

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def pt6 (n : ℕ) : Fin cfg6.N := ⟨n % 25, lt_of_lt_of_eq (Nat.mod_lt _ (by decide)) N_6.symm⟩

theorem pt6_val (n : ℕ) (h : n < 25) : (pt6 n).val = n := Nat.mod_eq_of_lt h

theorem pt6_eq (t : Fin cfg6.N) : pt6 t.val = t :=
  Fin.ext (Nat.mod_eq_of_lt (lt_of_lt_of_eq t.isLt (show cfg6.N = 25 from N_6)))

def acc6 (c : Dev nD) : ℕ → Vec F S128x384 .f32
  | 0 => k6_pay2 (iblk6 V c 0 (pt6 0)) (iblk6 V c 1 (pt6 0)) (k6_pay1 (F := F))
  | n + 1 => k6_pay2 (iblk6 V c 0 (pt6 (n + 1))) (iblk6 V c 1 (pt6 (n + 1))) (acc6 c n)

theorem acc6_zero (c : Dev nD) : acc6 V c 0 = k6_pay2 (iblk6 V c 0 (pt6 0)) (iblk6 V c 1 (pt6 0)) (k6_pay1 (F := F)) := rfl
theorem acc6_succ (c : Dev nD) (n : ℕ) :
    acc6 V c (n + 1) = k6_pay2 (iblk6 V c 0 (pt6 (n + 1))) (iblk6 V c 1 (pt6 (n + 1))) (acc6 V c n) := rfl

theorem acc6_first (c : Dev nD) (t : Fin cfg6.N) (hz : t.val = 0) :
    acc6 V c t.val = k6_pay2 (iblk6 V c 0 t) (iblk6 V c 1 t) (k6_pay1 (F := F)) := by
  have e : pt6 0 = t := by rw [← hz]; exact pt6_eq t
  rw [hz, acc6_zero]
  exact congrArg (fun x => k6_pay2 (iblk6 V c 0 x) (iblk6 V c 1 x) (k6_pay1 (F := F))) e

theorem acc6_later (c : Dev nD) (t : Fin cfg6.N) (hz : t.val ≠ 0) :
    acc6 V c t.val = k6_pay2 (iblk6 V c 0 t) (iblk6 V c 1 t) (acc6 V c (t.val - 1)) := by
  obtain ⟨n, hn⟩ := t
  cases n with
  | zero => exact absurd rfl hz
  | succ n =>
    have e : pt6 (n + 1) = ⟨n + 1, hn⟩ := pt6_eq ⟨n + 1, hn⟩
    show acc6 V c (n + 1) = k6_pay2 (iblk6 V c 0 ⟨n + 1, hn⟩) (iblk6 V c 1 ⟨n + 1, hn⟩) (acc6 V c n)
    rw [acc6_succ]
    exact congrArg (fun x => k6_pay2 (iblk6 V c 0 x) (iblk6 V c 1 x) (acc6 V c n)) e

abbrev cond6_1 (i : grid6.Coords) : Prop := (Scalar.cmpi .ne (Scalar.extui (Scalar.cmpi .eq (BitVec.ofNat 32 (i 0).val) 0#32)) 0#32) = 1#1
theorem hcond6_1 : ∀ t : Fin cfg6.N, cond6_1 (grid6.coords t) ↔ t.val % 25 = 0 :=
  (by decide +kernel : ∀ t : Fin grid6.N, cond6_1 (grid6.coords t) ↔ t.val % 25 = 0)

abbrev cond6_2 (i : grid6.Coords) : Prop := k6_cond2 i = 1#1
theorem hcond6_2 : ∀ t : Fin cfg6.N, cond6_2 (grid6.coords t) ↔ t.val % 25 = 24 :=
  (by decide +kernel : ∀ t : Fin grid6.N, cond6_2 (grid6.coords t) ↔ t.val % 25 = 24)

theorem liveAt6_0 : ∀ t : Fin cfg6.N, cfg6.idle 0 (grid6.coords t) = false :=
  (by decide +kernel : ∀ t : Fin grid6.N, cfg6.idle 0 (grid6.coords t) = false)
theorem liveAt6_1 : ∀ t : Fin cfg6.N, cfg6.idle 1 (grid6.coords t) = false :=
  (by decide +kernel : ∀ t : Fin grid6.N, cfg6.idle 1 (grid6.coords t) = false)
theorem idleAt6_2 : ∀ t : Fin cfg6.N, ¬t.val % 25 = 24 → cfg6.idle 2 (grid6.coords t) = true :=
  (by decide +kernel : ∀ t : Fin grid6.N, ¬t.val % 25 = 24 → cfg6.idle 2 (grid6.coords t) = true)
theorem liveAt6_2 : ∀ t : Fin cfg6.N, t.val % 25 = 24 → cfg6.idle 2 (grid6.coords t) = false :=
  (by decide +kernel : ∀ t : Fin grid6.N, t.val % 25 = 24 → cfg6.idle 2 (grid6.coords t) = false)
theorem noFlush6_2 (t : Fin cfg6.N) (h : ¬t.val % 25 = 24) : (cfg6.win 2).flush t = false := by
  cases hf : (cfg6.win 2).flush t
  · rfl
  · exact absurd ((flush6_2 t).mp hf) h

theorem zeros6 : (![0, 0] : Fin 2 → Nat) = fun _ => 0 := by funext a; match a with | ⟨0, _⟩ => rfl | ⟨1, _⟩ => rfl

abbrev r6 : Rect S128x384 := Rect.unit (s := S128x384) ![0, 0] S128x384.size inb_S128x384_S128x384_0_0

theorem read_writes_r6 {κ : Kind} {sp : Space} (v : View sig κ sp S128x384 .f32) (f : v.ty.Contents (Elt F)) (p : Vec F S128x384 .f32)
    (L : List (View.Piece (Elt F) S128x384 .f32)) :
    v.read (Elt F) (v.writes (Elt F) f ((⟨r6, p⟩ : View.Piece (Elt F) S128x384 .f32) :: L)) = p := by
  rw [View.read_writes_eq_canon _ _ _ (fun y => ⟨_, List.mem_cons.mpr (Or.inl rfl), View.mem_set_unit_zero zeros6 inb_S128x384_S128x384_0_0 y⟩),
    View.canon_cons_unit_zero zeros6]

set_option maxHeartbeats 1000000 in
theorem sound_kernel6_A (c : Dev nD) (E : Set ℕ) (i : grid6.Coords)
    (arg1 : Memref sig .tc .vmem S2000x128 .f32) (harg1 : arg1.IsWhole) (arg2 : Memref sig .tc .vmem S2000x384 .f32) (harg2 : arg2.IsWhole)
    (arg3 : Memref sig .tc .vmem S128x384 .f32) (harg3 : arg3.IsWhole) (arg4 : Memref sig .tc .vmem S128x384 .f32) (harg4 : arg4.IsWhole)
    (hc1 : cond6_1 i) (hc2 : ¬cond6_2 i)
    (x0 : Vec F S2000x128 .f32) (x1 : Vec F S2000x384 .f32) (R : sProp 𝕄) (K : PUnit → sProp 𝕄) :
    iprop(owns (c : Thread nD τ) arg1 fullShare x0 ∗ owns (c : Thread nD τ) arg2 fullShare x1 ∗ R ∗ (∃ d, owns (c : Thread nD τ) arg4 fullShare d)
        ∗ (iprop(owns (c : Thread nD τ) arg1 fullShare x0 ∗ owns (c : Thread nD τ) arg2 fullShare x1 ∗ R
            ∗ owns (c : Thread nD τ) arg4 fullShare (k6_pay2 x0 x1 (k6_pay1 (F := F)))) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, HR, ⟨%ds, %fs, -, HS⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HR]; · iexact HR
  iexists _; isplitr
  swap; · iexact HS
  ipureintro
  sl_unfold_run_names
  rw [read_writes_r6]
  simp only [View.readAt_eq_ld, View.ld_unit_zero (S := S2000x128) zeros6, View.ld_unit_zero (S := S2000x384) zeros6,
    View.readCov_unit_zero (S := S128x384) _ zeros6]

set_option maxHeartbeats 1000000 in
theorem sound_kernel6_B (c : Dev nD) (E : Set ℕ) (i : grid6.Coords)
    (arg1 : Memref sig .tc .vmem S2000x128 .f32) (harg1 : arg1.IsWhole) (arg2 : Memref sig .tc .vmem S2000x384 .f32) (harg2 : arg2.IsWhole)
    (arg3 : Memref sig .tc .vmem S128x384 .f32) (harg3 : arg3.IsWhole) (arg4 : Memref sig .tc .vmem S128x384 .f32) (harg4 : arg4.IsWhole)
    (hc1 : ¬cond6_1 i) (hc2 : ¬cond6_2 i)
    (x0 : Vec F S2000x128 .f32) (x1 : Vec F S2000x384 .f32) (xs : Vec F S128x384 .f32) (R : sProp 𝕄) (K : PUnit → sProp 𝕄) :
    iprop(owns (c : Thread nD τ) arg1 fullShare x0 ∗ owns (c : Thread nD τ) arg2 fullShare x1 ∗ R ∗ owns (c : Thread nD τ) arg4 fullShare xs
        ∗ (iprop(owns (c : Thread nD τ) arg1 fullShare x0 ∗ owns (c : Thread nD τ) arg2 fullShare x1 ∗ R
            ∗ owns (c : Thread nD τ) arg4 fullShare (k6_pay2 x0 x1 xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, HR, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HR]; · iexact HR
  iexists _; isplitr
  swap; · iexact HS
  ipureintro
  sl_unfold_run_names
  rw [read_writes_r6]
  simp only [View.readAt_eq_ld, View.ld_unit_zero (S := S2000x128) zeros6, View.ld_unit_zero (S := S2000x384) zeros6,
    View.ld_unit_zero (S := S128x384) zeros6]

set_option maxHeartbeats 1000000 in
theorem sound_kernel6_C (c : Dev nD) (E : Set ℕ) (i : grid6.Coords)
    (arg1 : Memref sig .tc .vmem S2000x128 .f32) (harg1 : arg1.IsWhole) (arg2 : Memref sig .tc .vmem S2000x384 .f32) (harg2 : arg2.IsWhole)
    (arg3 : Memref sig .tc .vmem S128x384 .f32) (harg3 : arg3.IsWhole) (arg4 : Memref sig .tc .vmem S128x384 .f32) (harg4 : arg4.IsWhole)
    (hc1 : ¬cond6_1 i) (hc2 : cond6_2 i)
    (x0 : Vec F S2000x128 .f32) (x1 : Vec F S2000x384 .f32) (xs : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k6_pay2 x0 x1 xs)
            ∗ owns (c : Thread nD τ) arg4 fullShare (k6_pay2 x0 x1 xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_r6]
    simp only [View.readAt_eq_ld, View.ld_unit_zero (S := S2000x128) zeros6, View.ld_unit_zero (S := S2000x384) zeros6,
      View.ld_unit_zero (S := S128x384) zeros6, View.readCov_unit_zero (S := S128x384) _ zeros6]
  iexists _; isplitr
  swap; · iexact HS
  ipureintro
  sl_unfold_run_names
  rw [read_writes_r6]
  simp only [View.readAt_eq_ld, View.ld_unit_zero (S := S2000x128) zeros6, View.ld_unit_zero (S := S2000x384) zeros6,
    View.ld_unit_zero (S := S128x384) zeros6]

abbrev scM6 : Memref sig .tc .vmem S128x384 .f32 := Memref.whole cc6_scratch0

abbrev rest6 (c : Dev nD) : sProp 𝕄 :=
  Pipeline.scopedRestBut (Ix := Unit) (Name := ℕ) (U := UR sig nD τ) (Lvl := ℕ) (Val := Elt F) spec6 c [cc6_scratch0]

theorem PhiA6_eq (c : Dev nD) :
    (Pipeline.ΦA spec6 c : sProp 𝕄)
      = iprop(iprop((∃ d, owns (c : Thread nD τ) scM6 fullShare d) ∗ rest6 (F := F) c) ∗ (∃ r, prngReg c r)) := by
  unfold Pipeline.ΦA; rw [scopedRest6_split]; simp only [scM6, owns_whole]; try rfl

def PhiS6 (c : Dev nD) : ℕ → sProp 𝕄
  | 0 => Pipeline.ΦA spec6 c
  | n + 1 => iprop(iprop(owns (c : Thread nD τ) scM6 fullShare (acc6 V c n) ∗ rest6 (F := F) c) ∗ (∃ r, prngReg c r))

theorem PhiS6_zero (c : Dev nD) (n : ℕ) (hz : n = 0) : PhiS6 V c n = Pipeline.ΦA spec6 c := by
  subst hz; rfl

theorem PhiS6_succ (c : Dev nD) (n : ℕ) :
    PhiS6 V c (n + 1) = iprop(iprop(owns (c : Thread nD τ) scM6 fullShare (acc6 V c n) ∗ rest6 (F := F) c) ∗ (∃ r, prngReg c r)) := rfl

theorem PhiS6_pos (c : Dev nD) (n : ℕ) (hz : n ≠ 0) :
    PhiS6 V c n = iprop(iprop(owns (c : Thread nD τ) scM6 fullShare (acc6 V c (n - 1)) ∗ rest6 (F := F) c) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val
  Φ t := PhiS6 V c t.val
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) : (dat6 V c).Φ t.castSucc = PhiS6 V c t.val := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) from rfl, PhiS6_succ, PhiS6_castSucc]
  rw [show (dat6 V c).leavesExact 0 t = owns (c : Thread nD τ) (st6_0 t) fullShare ((dat6 V c).after 0 t) from by
      unfold Dat.leavesExact; rw [liveAt6_0 t], after6_0]
  rw [show (dat6 V c).leavesExact 1 t = owns (c : Thread nD τ) (st6_1 t) fullShare ((dat6 V c).after 1 t) from by
      unfold Dat.leavesExact; rw [liveAt6_1 t], after6_1]
  have hN : t.val < 25 := lt_of_lt_of_eq t.isLt (show cfg6.N = 25 from N_6)
  by_cases h2 : t.val % 25 = 24
  · have hz : t.val ≠ 0 := by omega
    have h1 : ¬t.val % 25 = 0 := by omega
    rw [show (dat6 V c).leavesExact 2 t = owns (c : Thread nD τ) (st6_2 t) fullShare ((dat6 V c).after 2 t) from by
      unfold Dat.leavesExact; rw [liveAt6_2 t h2], after6_2]
    rw [PhiS6_pos V c _ hz, acc6_later V c t hz]
    iintro ⟨⟨⟨HS, Hr⟩, Hg⟩, Ho, ⟨%d0, H0⟩, ⟨%d1, H1⟩, ⟨%d2, H2⟩⟩
    iapply (sound_kernel6_C c Set.univ (grid6.coords t) _ _ _ _ _ _ _ _ (fun h => h1 ((hcond6_1 t).mp h)) ((hcond6_2 t).mpr h2)
      (iblk6 V c 0 t) (iblk6 V c 1 t) (acc6 V c (t.val - 1)) _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat6 V c) 2 t (idleAt6_2 t h2) (noFlush6_2 t h2)]
    by_cases h1 : t.val % 25 = 0
    · have hz : t.val = 0 := by omega
      rw [PhiS6_zero V c _ hz, PhiA6_eq, acc6_first V c t hz]
      iintro ⟨⟨⟨HS, Hr⟩, Hg⟩, Ho, ⟨%d0, H0⟩, ⟨%d1, H1⟩, H2⟩
      iapply (sound_kernel6_A c Set.univ (grid6.coords t) _ _ _ _ _ _ _ _ ((hcond6_1 t).mpr h1) (fun h => h2 ((hcond6_2 t).mp h))
        (iblk6 V c 0 t) (iblk6 V c 1 t)
        (iprop(∃ d, owns (c : Thread nD τ) (st6_2 t) fullShare ((dat6 V c).before 2 t d))) _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hz : t.val ≠ 0 := by omega
      rw [PhiS6_pos V c _ hz, acc6_later V c t hz]
      iintro ⟨⟨⟨HS, Hr⟩, Hg⟩, Ho, ⟨%d0, H0⟩, ⟨%d1, H1⟩, H2⟩
      iapply (sound_kernel6_B c Set.univ (grid6.coords t) _ _ _ _ _ _ _ _ (fun h => h1 ((hcond6_1 t).mp h)) (fun h => h2 ((hcond6_2 t).mp h))
        (iblk6 V c 0 t) (iblk6 V c 1 t) (acc6 V c (t.val - 1))
        (iprop(∃ d, owns (c : Thread nD τ) (st6_2 t) fullShare ((dat6 V c).before 2 t d))) _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2

/-- At every grid point the body adds the product of the transposed left block with the right block to the accumulator, which the last point copies out. -/
theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 from rfl, PhiS6_zero V c 0 rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val from rfl, PhiS6_pos V c _ ht, PhiA6_eq]
  iintro ⟨⟨HS, Hr⟩, Hg⟩
  isplitl [HS Hr]
  · isplitl [HS]
    · iexists _; iexact HS
    iexact Hr
  iexact Hg

theorem hout6 (c : Dev nD) : (dat6 V c).Φ (Fin.last cfg6.N) ⊢ Pipeline.ΦA spec6 c :=
  Phi_out6 V c _ (by rw [Fin.val_last]; have : cfg6.N = 25 := N_6; omega)

theorem idx6_2 : ∀ t : Fin cfg6.N, win6_2.index t (0 : Fin 2) = 0 ∧ win6_2.index t (1 : Fin 2) = 0 :=
  (by decide +kernel : ∀ t : Fin grid6.N, win6_2.index t (0 : Fin 2) = 0 ∧ win6_2.index t (1 : Fin 2) = 0)

theorem emb6_2 (t : Fin cfg6.N) (j : S128x384.Idx) : ((cfg6.win 2).blk t).view.emb j = j := by
  obtain ⟨e0, e1⟩ := idx6_2 t
  funext a; apply Fin.ext
  match a with
  | ⟨0, _⟩ => show win6_2.index t (0 : Fin 2) * 128 + 1 * (j 0).val = (j 0).val; omega
  | ⟨1, _⟩ => show win6_2.index t (1 : Fin 2) * 384 + 1 * (j 1).val = (j 1).val; omega

theorem mem_blk6_2 (t : Fin cfg6.N) (i : S128x384.Idx) : i ∈ ((cfg6.win 2).blk t).view.set := by
  have h : i ∈ ((View.whole main_v88).slice (win6_2.rect t)).set ↔
      ∀ a : Fin 2, win6_2.index t a * S128x384.size a ≤ (i a).val ∧ (i a).val < win6_2.index t a * S128x384.size a + S128x384.size a := by
    rw [View.set_slice_whole, Rect.mem_set_unit]
    exact Iff.rfl
  refine h.mpr fun a => ?_
  obtain ⟨e0, e1⟩ := idx6_2 t
  match a with
  | ⟨0, _⟩ => show win6_2.index t (0 : Fin 2) * 128 ≤ (i 0).val ∧ (i 0).val < win6_2.index t (0 : Fin 2) * 128 + 128; have hi : (i 0).val < 128 := (i 0).isLt; omega
  | ⟨1, _⟩ => show win6_2.index t (1 : Fin 2) * 384 ≤ (i 1).val ∧ (i 1).val < win6_2.index t (1 : Fin 2) * 384 + 384; have hi : (i 1).val < 384 := (i 1).isLt; omega

theorem arr6_out (c : Dev nD) : (dat6 V c).arrAt 2 cfg6.N = acc6 V c 24 := by
  refine (dat6 V c).arrAt_eq_of_cover 2 (acc6 V c 24) (fun t hf => ?_)
    (fun i => ⟨pt6 24, (flush6_2 (pt6 24)).mpr (by rw [pt6_val 24 (by omega)]), mem_blk6_2 (pt6 24) i⟩)
  have hN : t.val < 25 := lt_of_lt_of_eq t.isLt (show cfg6.N = 25 from N_6)
  have ht : t.val = 24 := by have := (flush6_2 t).mp hf; omega
  show (cfg6.win 2).cut (grid6.coords t) ((dat6 V c).after 2 t) = _
  rw [after6_2, ht]
  funext j
  show acc6 V c 24 j = acc6 V c 24 (((cfg6.win 2).blk t).view.emb j)
  rw [emb6_2]

end Cert.KernelIdeal.Calls

end
-- ==== Proof.Data.lean ====
import proofs.«426581_j30013231464613_1_alg».proof.Proof.Gen.KernelIdeal.Regions
import proofs.«426581_j30013231464613_1_alg».proof.Proof.Region0
import proofs.«426581_j30013231464613_1_alg».proof.Proof.Region1
import proofs.«426581_j30013231464613_1_alg».proof.Proof.Region2
import proofs.«426581_j30013231464613_1_alg».proof.Proof.Region3
import proofs.«426581_j30013231464613_1_alg».proof.Proof.Region4
import proofs.«426581_j30013231464613_1_alg».proof.Proof.Region5
import proofs.«426581_j30013231464613_1_alg».proof.Proof.Region6

set_option maxRecDepth 16384

noncomputable section

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
local notation "𝕄" => MT nD τ sig Unit (Elt F) ℕ (UR sig nD τ) ℕ

abbrev noLevels : GSem nD τ sig → Finset Unit := fun _ => ∅
abbrev noLevel : GSem nD τ sig → Unit → ℕ := fun _ _ => 0

abbrev rest (c : Dev nD) : sProp 𝕄 := iprop((∃ r, prngReg c r) ∗ ∃ W, owes (c : Thread nD τ) (0 : CellTallies nD τ sig Unit) W)

abbrev pipe0 : Fin 7 := 0
abbrev pipe1 : Fin 7 := 1
abbrev pipe2 : Fin 7 := 2
abbrev pipe3 : Fin 7 := 3
abbrev pipe4 : Fin 7 := 4
abbrev pipe5 : Fin 7 := 5
abbrev pipe6 : Fin 7 := 6

variable (m : (ℓ : Loc nD τ sig) → Buf (Elt F) ℓ)

abbrev atTc (B : Dev nD → Valuation τ sig (Elt F)) : (c : Dev nD) → (b : Ref sig .tc) → Buf (Elt F) ((c : Thread nD τ).loc b) :=
  fun c b => B c b

abbrev B3 (c : Dev nD) : Valuation τ sig (Elt F) := Gen.V3 m c

def B4 (c : Dev nD) : Valuation τ sig (Elt F) :=
  Function.update (B3 m c) main_v30 ((dat0 (atTc (B3 m)) c).arrAt 2 cfg0.N)

abbrev B5 (c : Dev nD) : Valuation τ sig (Elt F) := StableHlo.after hostOps1 (B4 m c)

def B6 (c : Dev nD) : Valuation τ sig (Elt F) :=
  Function.update (B5 m c) main_v45 ((dat1 (atTc (B5 m)) c).arrAt 2 cfg1.N)

def B7 (c : Dev nD) : Valuation τ sig (Elt F) :=
  Function.update (B6 m c) main_v46 ((dat2 (atTc (B6 m)) c).arrAt 2 cfg2.N)

abbrev B8 (c : Dev nD) : Valuation τ sig (Elt F) := StableHlo.after hostOps3 (B7 m c)

def B9 (c : Dev nD) : Valuation τ sig (Elt F) :=
  Function.update (B8 m c) main_v61 ((dat3 (atTc (B8 m)) c).arrAt 2 cfg3.N)

def B10 (c : Dev nD) : Valuation τ sig (Elt F) :=
  Function.update (B9 m c) main_v62 ((dat4 (atTc (B9 m)) c).arrAt 2 cfg4.N)

abbrev B11 (c : Dev nD) : Valuation τ sig (Elt F) := StableHlo.after hostOps5 (B10 m c)

def B12 (c : Dev nD) : Valuation τ sig (Elt F) :=
  Function.update (B11 m c) main_v77 ((dat5 (atTc (B11 m)) c).arrAt 2 cfg5.N)

abbrev B13 (c : Dev nD) : Valuation τ sig (Elt F) := StableHlo.after hostOps6 (B12 m c)

def B14 (c : Dev nD) : Valuation τ sig (Elt F) :=
  Function.update (B13 m c) main_v88 ((dat6 (atTc (B13 m)) c).arrAt 2 cfg6.N)

abbrev B15 (c : Dev nD) : Valuation τ sig (Elt F) := StableHlo.after hostOps7 (B14 m c)

/-- What each region leaves, boundary by boundary. -/
def outs : Gen.Outs (F := F) := fun n r c =>
  match n with
  | 4 => B4 m c r | 6 => B6 m c r | 7 => B7 m c r | 9 => B9 m c r | 10 => B10 m c r | 12 => B12 m c r | 14 => B14 m c r
  | _ => B3 m c r

theorem V4_eq (c : Dev nD) : Gen.V4 m (outs m) c = B4 m c := by
  show Function.update (Gen.V3 m c) main_v30 (B4 m c main_v30) = B4 m c
  unfold B4; rw [Function.update_self]
theorem V5_eq (c : Dev nD) : Gen.V5 m (outs m) c = B5 m c := by
  show StableHlo.after hostOps1 (Gen.V4 m (outs m) c) = _
  rw [V4_eq]
theorem V6_eq (c : Dev nD) : Gen.V6 m (outs m) c = B6 m c := by
  show Function.update (Gen.V5 m (outs m) c) main_v45 (B6 m c main_v45) = B6 m c
  rw [V5_eq]; unfold B6; rw [Function.update_self]
theorem V7_eq (c : Dev nD) : Gen.V7 m (outs m) c = B7 m c := by
  show Function.update (Gen.V6 m (outs m) c) main_v46 (B7 m c main_v46) = B7 m c
  rw [V6_eq]; unfold B7; rw [Function.update_self]
theorem V8_eq (c : Dev nD) : Gen.V8 m (outs m) c = B8 m c := by
  show StableHlo.after hostOps3 (Gen.V7 m (outs m) c) = _
  rw [V7_eq]
theorem V9_eq (c : Dev nD) : Gen.V9 m (outs m) c = B9 m c := by
  show Function.update (Gen.V8 m (outs m) c) main_v61 (B9 m c main_v61) = B9 m c
  rw [V8_eq]; unfold B9; rw [Function.update_self]
theorem V10_eq (c : Dev nD) : Gen.V10 m (outs m) c = B10 m c := by
  show Function.update (Gen.V9 m (outs m) c) main_v62 (B10 m c main_v62) = B10 m c
  rw [V9_eq]; unfold B10; rw [Function.update_self]
theorem V11_eq (c : Dev nD) : Gen.V11 m (outs m) c = B11 m c := by
  show StableHlo.after hostOps5 (Gen.V10 m (outs m) c) = _
  rw [V10_eq]
theorem V12_eq (c : Dev nD) : Gen.V12 m (outs m) c = B12 m c := by
  show Function.update (Gen.V11 m (outs m) c) main_v77 (B12 m c main_v77) = B12 m c
  rw [V11_eq]; unfold B12; rw [Function.update_self]
theorem V13_eq (c : Dev nD) : Gen.V13 m (outs m) c = B13 m c := by
  show StableHlo.after hostOps6 (Gen.V12 m (outs m) c) = _
  rw [V12_eq]
theorem V14_eq (c : Dev nD) : Gen.V14 m (outs m) c = B14 m c := by
  show Function.update (Gen.V13 m (outs m) c) main_v88 (B14 m c main_v88) = B14 m c
  rw [V13_eq]; unfold B14; rw [Function.update_self]
theorem V15_eq (c : Dev nD) : Gen.V15 m (outs m) c = B15 m c := by
  show StableHlo.after hostOps7 (Gen.V14 m (outs m) c) = _
  rw [V14_eq]

/-- Each region's proof data, at the contents the region is entered with. -/
def pdats : (p : Fin 7) → (c : Dev nD) → Dat τ (Elt F) Unit ℕ (UR sig nD τ) ℕ (cfgs p) c
  | ⟨0, _⟩ => fun c => dat0 (atTc (B3 m)) c
  | ⟨1, _⟩ => fun c => dat1 (atTc (B5 m)) c
  | ⟨2, _⟩ => fun c => dat2 (atTc (B6 m)) c
  | ⟨3, _⟩ => fun c => dat3 (atTc (B8 m)) c
  | ⟨4, _⟩ => fun c => dat4 (atTc (B9 m)) c
  | ⟨5, _⟩ => fun c => dat5 (atTc (B11 m)) c
  | ⟨6, _⟩ => fun c => dat6 (atTc (B13 m)) c

theorem hinP6 (c : Dev nD) : Pipeline.ΦA spec6 c ⊢ (pdats m pipe6 c).Φ 0 := hin6 (atTc (B13 m)) c
theorem houtP6 (c : Dev nD) : (pdats m pipe6 c).Φ (Fin.last cfg6.N) ⊢ Pipeline.ΦA spec6 c := hout6 (atTc (B13 m)) c

theorem B4_out (c : Dev nD) : B4 m c main_v30 = (dat0 (atTc (B3 m)) c).arrAt 2 cfg0.N := by
  unfold B4; rw [Function.update_self]
theorem B6_out (c : Dev nD) : B6 m c main_v45 = (dat1 (atTc (B5 m)) c).arrAt 2 cfg1.N := by
  unfold B6; rw [Function.update_self]
theorem B7_out (c : Dev nD) : B7 m c main_v46 = (dat2 (atTc (B6 m)) c).arrAt 2 cfg2.N := by
  unfold B7; rw [Function.update_self]
theorem B9_out (c : Dev nD) : B9 m c main_v61 = (dat3 (atTc (B8 m)) c).arrAt 2 cfg3.N := by
  unfold B9; rw [Function.update_self]
theorem B10_out (c : Dev nD) : B10 m c main_v62 = (dat4 (atTc (B9 m)) c).arrAt 2 cfg4.N := by
  unfold B10; rw [Function.update_self]
theorem B12_out (c : Dev nD) : B12 m c main_v77 = (dat5 (atTc (B11 m)) c).arrAt 2 cfg5.N := by
  unfold B12; rw [Function.update_self]
theorem B14_out (c : Dev nD) : B14 m c main_v88 = (dat6 (atTc (B13 m)) c).arrAt 2 cfg6.N := by
  unfold B14; rw [Function.update_self]

theorem B4_of_ne (c : Dev nD) (r : Ref sig .tc) (h : r ≠ main_v30) : B4 m c r = B3 m c r := by
  unfold B4; rw [Function.update_of_ne (StableHlo.devRef_ne_of_ne h)]
theorem B6_of_ne (c : Dev nD) (r : Ref sig .tc) (h : r ≠ main_v45) : B6 m c r = B5 m c r := by
  unfold B6; rw [Function.update_of_ne (StableHlo.devRef_ne_of_ne h)]
theorem B7_of_ne (c : Dev nD) (r : Ref sig .tc) (h : r ≠ main_v46) : B7 m c r = B6 m c r := by
  unfold B7; rw [Function.update_of_ne (StableHlo.devRef_ne_of_ne h)]
theorem B9_of_ne (c : Dev nD) (r : Ref sig .tc) (h : r ≠ main_v61) : B9 m c r = B8 m c r := by
  unfold B9; rw [Function.update_of_ne (StableHlo.devRef_ne_of_ne h)]
theorem B10_of_ne (c : Dev nD) (r : Ref sig .tc) (h : r ≠ main_v62) : B10 m c r = B9 m c r := by
  unfold B10; rw [Function.update_of_ne (StableHlo.devRef_ne_of_ne h)]
theorem B12_of_ne (c : Dev nD) (r : Ref sig .tc) (h : r ≠ main_v77) : B12 m c r = B11 m c r := by
  unfold B12; rw [Function.update_of_ne (StableHlo.devRef_ne_of_ne h)]
theorem B14_of_ne (c : Dev nD) (r : Ref sig .tc) (h : r ≠ main_v88) : B14 m c r = B13 m c r := by
  unfold B14; rw [Function.update_of_ne (StableHlo.devRef_ne_of_ne h)]

end Cert.KernelIdeal.Calls

end
-- ==== Proof.RegOf.lean ====
import proofs.«426581_j30013231464613_1_alg».proof.Proof.Data

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The type of region p's segment. -/
abbrev RSeg (p : Fin 7) := Pipeline.RegionSeg (pcfgs (F := F)) adm (pdats m) () defs₀ Variants.none noLevels noLevel p

set_option backward.isDefEq.respectTransparency.types false in
/-- A region of the main program as a segment from the boundary contents Bi to the contents Bo. -/
def regOf (p : Fin 7) (L : Pipeline.LaunchFacts (nD := nD) (τ := τ) cfgs p) (Bi Bo : Dev nD → Valuation τ sig (Elt F))
    (hB : ∀ c, BodyObligation (pdats m p c) (defs₀ (F := F)) Variants.none () Set.univ)
    (hA : ∀ c w, (pdats m p c).A w = atTc Bi c (Pipeline.arrRef (cfgs p).spec w))
    (hshare : ∀ c w, (pdats m p c).share w = fullShare)
    (howed : ∀ c t, (pdats m p c).owed t = 0) (hrec : ∀ c x, x ∈ (pdats m p c).recorded 0)
    (hI : ∀ c, Pipeline.ΦA (cfgs p).spec c ⊢ (pdats m p c).Φ 0)
    (hO : ∀ c, (pdats m p c).Φ (Fin.last (cfgs p).N) ⊢ Pipeline.ΦA (cfgs p).spec c)
    (hF : ∀ c w, (pdats m p c).arrAt w (cfgs p).N = atTc Bo c (Pipeline.arrRef (cfgs p).spec w))
    (hrest : ∀ c b, b ∉ Finset.univ.image (Pipeline.arrRef (cfgs p).spec) → atTc Bo c b = atTc Bi c b) :
    RSeg m p where
  win := L.win.to₀
  block_pos := L.block_pos
  stage_whole := L.stage_whole
  K := PEmpty
  osem k := k.elim
  ho := Pipeline.OwnSemFacts.none _
  hbody c := (hB c).loose
  hwaits := Pipeline.hwaits_of_owed_zero _ _ _ _ noLevels noLevel p howed
  pre c := iprop(StableHlo.held (c : Thread nD τ) (Pipeline.ucRefs τ sig) (Bi c) ∗ rest c)
  post c := iprop(StableHlo.held (c : Thread nD τ) (Pipeline.ucRefs τ sig) (Bo c) ∗ rest c)
  X c := iprop(∃ r, prngReg c r)
  Y c := iprop(∃ r, prngReg c r)
  Z c := Pipeline.unscopedRest (Ix := Unit) (Name := ℕ) (U := UR sig nD τ) (Lvl := ℕ) (cfgs p).spec c (atTc Bi c)
  hentry c := by
    rw [Pipeline.ownSems0_none]
    have hsplit := Pipeline.arrays_of_unscopedBufs (p := p) (pcfgs (F := F)) adm (pdats m) L.win L.arr_whole c
      (hshare c) (atTc Bi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c _)
      iexact HO
    isplitl [Hp]; · iexact Hp
    iexact Hrest
  hin c := by
    have h := hI c
    unfold Pipeline.ΦA at h
    iintro ⟨Hp, -, Hr⟩
    iapply h
    isplitl [Hr]; · iexact Hr
    iexact Hp
  hout c := by
    rw [Pipeline.ownSems0_none]
    have h := hO c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m) (hshare c)
      (atTc Bi c) (atTc Bo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

end Cert.KernelIdeal.Calls

end
-- ==== Proof.Regs.lean ====
import proofs.«426581_j30013231464613_1_alg».proof.Proof.RegOf

set_option maxRecDepth 16384
set_option maxHeartbeats 4000000

noncomputable section

namespace Cert.KernelIdeal.Calls

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

theorem hF0 (c : Dev nD) (w : Fin cfg0.W) :
    (pdats m pipe0 c).arrAt w cfg0.N = atTc (B4 m) c (Pipeline.arrRef spec0 w) := by
  match w with
  | ⟨0, _⟩ => exact ((pdats m pipe0 c).arrAt_in 0 rfl _).trans ((A_eq0 (atTc (B3 m)) c 0).trans (B4_of_ne m c _ (by decide)).symm)
  | ⟨1, _⟩ => exact ((pdats m pipe0 c).arrAt_in 1 rfl _).trans ((A_eq0 (atTc (B3 m)) c 1).trans (B4_of_ne m c _ (by decide)).symm)
  | ⟨2, _⟩ => exact (B4_out m c).symm

def reg0 : RSeg m pipe0 :=
  regOf m pipe0 launch0 (B3 m) (B4 m) (fun c => body_obligation0 (atTc (B3 m)) c) (fun _ _ => rfl)
    (fun c => (pdats m pipe0 c).share_full fun _ => rfl) (fun _ _ => rfl) (fun _ _ => trivial) (fun _ => .rfl) (fun _ => .rfl) (hF0 m)
    fun c b hb => B4_of_ne m c b (by rintro rfl; exact hb (Finset.mem_image.mpr ⟨2, Finset.mem_univ _, rfl⟩))

theorem hF1 (c : Dev nD) (w : Fin cfg1.W) :
    (pdats m pipe1 c).arrAt w cfg1.N = atTc (B6 m) c (Pipeline.arrRef spec1 w) := by
  match w with
  | ⟨0, _⟩ => exact ((pdats m pipe1 c).arrAt_in 0 rfl _).trans ((A_eq1 (atTc (B5 m)) c 0).trans (B6_of_ne m c _ (by decide)).symm)
  | ⟨1, _⟩ => exact ((pdats m pipe1 c).arrAt_in 1 rfl _).trans ((A_eq1 (atTc (B5 m)) c 1).trans (B6_of_ne m c _ (by decide)).symm)
  | ⟨2, _⟩ => exact (B6_out m c).symm

def reg1 : RSeg m pipe1 :=
  regOf m pipe1 launch1 (B5 m) (B6 m) (fun c => body_obligation1 (atTc (B5 m)) c) (fun _ _ => rfl)
    (fun c => (pdats m pipe1 c).share_full fun _ => rfl) (fun _ _ => rfl) (fun _ _ => trivial) (fun _ => .rfl) (fun _ => .rfl) (hF1 m)
    fun c b hb => B6_of_ne m c b (by rintro rfl; exact hb (Finset.mem_image.mpr ⟨2, Finset.mem_univ _, rfl⟩))

theorem hF2 (c : Dev nD) (w : Fin cfg2.W) :
    (pdats m pipe2 c).arrAt w cfg2.N = atTc (B7 m) c (Pipeline.arrRef spec2 w) := by
  match w with
  | ⟨0, _⟩ => exact ((pdats m pipe2 c).arrAt_in 0 rfl _).trans ((A_eq2 (atTc (B6 m)) c 0).trans (B7_of_ne m c _ (by decide)).symm)
  | ⟨1, _⟩ => exact ((pdats m pipe2 c).arrAt_in 1 rfl _).trans ((A_eq2 (atTc (B6 m)) c 1).trans (B7_of_ne m c _ (by decide)).symm)
  | ⟨2, _⟩ => exact (B7_out m c).symm

def reg2 : RSeg m pipe2 :=
  regOf m pipe2 launch2 (B6 m) (B7 m) (fun c => body_obligation2 (atTc (B6 m)) c) (fun _ _ => rfl)
    (fun c => (pdats m pipe2 c).share_full fun _ => rfl) (fun _ _ => rfl) (fun _ _ => trivial) (fun _ => .rfl) (fun _ => .rfl) (hF2 m)
    fun c b hb => B7_of_ne m c b (by rintro rfl; exact hb (Finset.mem_image.mpr ⟨2, Finset.mem_univ _, rfl⟩))

theorem hF3 (c : Dev nD) (w : Fin cfg3.W) :
    (pdats m pipe3 c).arrAt w cfg3.N = atTc (B9 m) c (Pipeline.arrRef spec3 w) := by
  match w with
  | ⟨0, _⟩ => exact ((pdats m pipe3 c).arrAt_in 0 rfl _).trans ((A_eq3 (atTc (B8 m)) c 0).trans (B9_of_ne m c _ (by decide)).symm)
  | ⟨1, _⟩ => exact ((pdats m pipe3 c).arrAt_in 1 rfl _).trans ((A_eq3 (atTc (B8 m)) c 1).trans (B9_of_ne m c _ (by decide)).symm)
  | ⟨2, _⟩ => exact (B9_out m c).symm

def reg3 : RSeg m pipe3 :=
  regOf m pipe3 launch3 (B8 m) (B9 m) (fun c => body_obligation3 (atTc (B8 m)) c) (fun _ _ => rfl)
    (fun c => (pdats m pipe3 c).share_full fun _ => rfl) (fun _ _ => rfl) (fun _ _ => trivial) (fun _ => .rfl) (fun _ => .rfl) (hF3 m)
    fun c b hb => B9_of_ne m c b (by rintro rfl; exact hb (Finset.mem_image.mpr ⟨2, Finset.mem_univ _, rfl⟩))

theorem hF4 (c : Dev nD) (w : Fin cfg4.W) :
    (pdats m pipe4 c).arrAt w cfg4.N = atTc (B10 m) c (Pipeline.arrRef spec4 w) := by
  match w with
  | ⟨0, _⟩ => exact ((pdats m pipe4 c).arrAt_in 0 rfl _).trans ((A_eq4 (atTc (B9 m)) c 0).trans (B10_of_ne m c _ (by decide)).symm)
  | ⟨1, _⟩ => exact ((pdats m pipe4 c).arrAt_in 1 rfl _).trans ((A_eq4 (atTc (B9 m)) c 1).trans (B10_of_ne m c _ (by decide)).symm)
  | ⟨2, _⟩ => exact (B10_out m c).symm

def reg4 : RSeg m pipe4 :=
  regOf m pipe4 launch4 (B9 m) (B10 m) (fun c => body_obligation4 (atTc (B9 m)) c) (fun _ _ => rfl)
    (fun c => (pdats m pipe4 c).share_full fun _ => rfl) (fun _ _ => rfl) (fun _ _ => trivial) (fun _ => .rfl) (fun _ => .rfl) (hF4 m)
    fun c b hb => B10_of_ne m c b (by rintro rfl; exact hb (Finset.mem_image.mpr ⟨2, Finset.mem_univ _, rfl⟩))

theorem hF5 (c : Dev nD) (w : Fin cfg5.W) :
    (pdats m pipe5 c).arrAt w cfg5.N = atTc (B12 m) c (Pipeline.arrRef spec5 w) := by
  match w with
  | ⟨0, _⟩ => exact ((pdats m pipe5 c).arrAt_in 0 rfl _).trans ((A_eq5 (atTc (B11 m)) c 0).trans (B12_of_ne m c _ (by decide)).symm)
  | ⟨1, _⟩ => exact ((pdats m pipe5 c).arrAt_in 1 rfl _).trans ((A_eq5 (atTc (B11 m)) c 1).trans (B12_of_ne m c _ (by decide)).symm)
  | ⟨2, _⟩ => exact (B12_out m c).symm

def reg5 : RSeg m pipe5 :=
  regOf m pipe5 launch5 (B11 m) (B12 m) (fun c => body_obligation5 (atTc (B11 m)) c) (fun _ _ => rfl)
    (fun c => (pdats m pipe5 c).share_full fun _ => rfl) (fun _ _ => rfl) (fun _ _ => trivial) (fun _ => .rfl) (fun _ => .rfl) (hF5 m)
    fun c b hb => B12_of_ne m c b (by rintro rfl; exact hb (Finset.mem_image.mpr ⟨2, Finset.mem_univ _, rfl⟩))

theorem hF6 (c : Dev nD) (w : Fin cfg6.W) :
    (pdats m pipe6 c).arrAt w cfg6.N = atTc (B14 m) c (Pipeline.arrRef spec6 w) := by
  match w with
  | ⟨0, _⟩ => exact ((pdats m pipe6 c).arrAt_in 0 rfl _).trans ((A_eq6 (atTc (B13 m)) c 0).trans (B14_of_ne m c _ (by decide)).symm)
  | ⟨1, _⟩ => exact ((pdats m pipe6 c).arrAt_in 1 rfl _).trans ((A_eq6 (atTc (B13 m)) c 1).trans (B14_of_ne m c _ (by decide)).symm)
  | ⟨2, _⟩ => exact (B14_out m c).symm

def reg6 : RSeg m pipe6 :=
  regOf m pipe6 launch6 (B13 m) (B14 m) (fun c => body_obligation6 (atTc (B13 m)) c) (fun _ _ => rfl)
    (fun c => (pdats m pipe6 c).share_full fun _ => rfl) (fun _ _ => rfl) (fun _ _ => trivial) (hinP6 m) (houtP6 m) (hF6 m)
    fun c b hb => B14_of_ne m c b (by rintro rfl; exact hb (Finset.mem_image.mpr ⟨2, Finset.mem_univ _, rfl⟩))

end Cert.KernelIdeal.Calls

end
-- ==== Proof.Launch.lean ====
import proofs.«426581_j30013231464613_1_alg».proof.Proof.Regs

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem held_congr (c : Dev nD) {W W' : Valuation τ sig (Elt F)} (h : W = W') (R : sProp 𝕄) :
    iprop(StableHlo.held (c : Thread nD τ) (Pipeline.ucRefs τ sig) W ∗ R)
      ⊢ iprop(StableHlo.held (c : Thread nD τ) (Pipeline.ucRefs τ sig) W' ∗ R) := by
  subst h; exact .rfl

abbrev rests : Fin 8 → Dev nD → sProp 𝕄 := fun _ c => rest c

abbrev items (c : Dev nD) :=
  Gen.segs m (outs m) Variants.none noLevels noLevel (rests (F := F)) () (pdats m) (reg0 m) (reg1 m) (reg2 m) (reg3 m) (reg4 m) (reg5 m) (reg6 m) c

set_option backward.isDefEq.respectTransparency.types false in
/-- Every weakly fair execution of the main program terminates, every buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B15 m c b) := by
  refine Pipeline.θ_run_regions_kit_dev (pcfgs (F := F)) adm (pdats m) () cellOf_inj emb₁ defs₀ Variants.none noLevels noLevel m ρ main
    (items m)
    (fun c Q => by
      rewrite [main_chain c, Seg.run_eq_chain,
        show (items m c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [items, Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => StableHlo.held (c : Thread nD τ) (Pipeline.ucRefs τ sig) (B15 m c))
    (hch := fun c => ⟨.rfl, .rfl, .rfl, .rfl,
      held_congr c (V4_eq m c).symm _, held_congr c (V5_eq m c) _,
      .rfl,
      held_congr c (V7_eq m c).symm _, held_congr c (V8_eq m c) _,
      .rfl,
      held_congr c (V10_eq m c).symm _, held_congr c (V11_eq m c) _,
      held_congr c (V12_eq m c).symm _, held_congr c (V13_eq m c) _,
      held_congr c (V14_eq m c).symm _,
      (held_congr c (V15_eq m c) _).trans (sep_mono .rfl (by iintro ⟨-, HO⟩; iexact HO))⟩)
    (hinit := ?_)
    (QY := fun c s => ∀ b ∈ Pipeline.ucRefs τ sig, s.mem (((c : Thread nD τ)).1, b) = B15 m c b)
    (hfin := fun c s' => ?_) (hQ := fun _ h => h)
  ·
    refine Pipeline.initEach noLevels noLevel fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    iintro ⟨Hh, HSI⟩
    unfold StableHlo.held
    imodintro
    iapply (pointsTo_read_all (Pipeline.ucRefs τ sig) (fun b => (((c : Thread nD τ)).1, b)) (B15 m c) s')
    isplitl [Hh] <;> iassumption

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem B15_eq (c : Dev nD) : B15 m c = Gen.V15 m (outs m) c := (V15_eq m c).symm

/-- The arguments, which no item writes, end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans ((congrFun (B15_eq m c) _).trans (Gen.V15_main_arg0 m (outs m) c)),
    (h c _ (mem_uc main_arg1 (by decide))).trans ((congrFun (B15_eq m c) _).trans (Gen.V15_main_arg1 m (outs m) c)),
    (h c _ (mem_uc main_arg2 (by decide))).trans ((congrFun (B15_eq m c) _).trans (Gen.V15_main_arg2 m (outs m) c)),
    (h c _ (mem_uc main_arg3 (by decide))).trans ((congrFun (B15_eq m c) _).trans (Gen.V15_main_arg3 m (outs m) c)),
    (h c _ (mem_uc main_arg4 (by decide))).trans ((congrFun (B15_eq m c) _).trans (Gen.V15_main_arg4 m (outs m) c)),
    (h c _ (mem_uc main_arg5 (by decide))).trans ((congrFun (B15_eq m c) _).trans (Gen.V15_main_arg5 m (outs m) c)),
    (h c _ (mem_uc main_arg6 (by decide))).trans ((congrFun (B15_eq m c) _).trans (Gen.V15_main_arg6 m (outs m) c)),
    (h c _ (mem_uc main_arg7 (by decide))).trans ((congrFun (B15_eq m c) _).trans (Gen.V15_main_arg7 m (outs m) c)),
    (h c _ (mem_uc main_arg8 (by decide))).trans ((congrFun (B15_eq m c) _).trans (Gen.V15_main_arg8 m (outs m) c))⟩)
    (run_all m ρ)

end Cert.KernelIdeal.Calls

end
-- ==== Proof.ChainK.lean ====
import proofs.«426581_j30013231464613_1_alg».proof.Proof.Data
import Idealize.ShloMosaic.Lib.StableHlo.Run

set_option maxRecDepth 16384

noncomputable section

namespace Cert.KernelIdeal.Calls

open Cert.KernelIdeal Cert.KernelIdeal.Gen
open Idealize.ShloMosaic Idealize.ShloMosaic.TcCoe Idealize.ShloMosaic.StableHlo

variable {F : FTy → Type} [FloatOps F]

def kSrc (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

def kDst (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

def kDeg (dst : IVec S850000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32))

def kInvSqrt (pos : IVec S50000 1) (rs : FVec F S50000 .f32) (zero : FVec F S_ .f32) : FVec F S50000 .f32 :=
  select pos rs (broadcastInDim S50000 ![] bcast_S_S50000 zero)

def kWrap (idx : IVec S850000 32) : IVec S850000x1 32 :=
  broadcastInDim S850000x1 ![0] bcast_S850000_S850000x1_0
    (select (cmpi .slt idx (broadcastInDim S850000 ![] bcast_S_S850000 (constantI S_ 32 0#32)))
      (addi idx (broadcastInDim S850000 ![] bcast_S_S850000 (constantI S_ 32 50000#32))) idx)

def kNormOf (dinv : FVec F S50000 .f32) (src dst : IVec S850000 32) : FVec F S850000 .f32 :=
  mulf (Host.gather gather_S50000_S850000x1_S850000_n_0_n_n_0_1_1 dinv (kWrap src))
    (Host.gather gather_S50000_S850000x1_S850000_n_0_n_n_0_1_1 dinv (kWrap dst))

def kNorm (ei : IVec S2x800000 32) : FVec F S850000 .f32 :=
  kNormOf (kInvSqrt (cmpf .ogt (kDeg (F := F) (kDst ei)) (broadcastInDim S50000 ![] bcast_S_S50000 (constant S_ .f32 0x00000000#32)))
      (Host.rsqrt (kDeg (F := F) (kDst ei))) (constant S_ .f32 0x00000000#32))
    (kSrc ei) (kDst ei)

def kLayer (hlin : FVec F S50000x128 .f32) (src dst : IVec S850000 32) (norm : FVec F S850000 .f32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst)
    (mulf (Host.gather gather_S50000x128_S850000x1_S850000x128_1_0_n_n_0_1_1128 hlin (kWrap src))
      (broadcastInDim S850000x128 ![0, 1] bcast_S850000x1_S850000x128_0_1 (broadcastInDim S850000x1 ![0] bcast_S850000_S850000x1_0 norm)))

def kBias (b : FVec F S128 .f32) : FVec F S1x128 .f32 := shapeCast S1x128 b shapeCasts_S128_S1x128

def kOnehot (batch : IVec S50000 32) : FVec F S50000x128 .f32 :=
  uitofp .f32 (cmpi .eq
    (broadcastInDim S50000x128 ![0, 1] bcast_S50000x1_S50000x128_0_1 (broadcastInDim S50000x1 ![0] bcast_S50000_S50000x1_0 batch))
    (broadcastInDim S50000x128 ![0, 1] bcast_S1x128_S50000x128_0_1 (iotaInDim S1x128 32 1)))

def kCounts (batch : IVec S50000 32) : FVec F S128 .f32 :=
  maximumf (Host.reduceAdd (kOnehot (F := F) batch) (constant S_ .f32 0x00000000#32) reducesTo_S50000x128_S128_d0 h_S_)
    (broadcastInDim S128 ![] bcast_S_S128 (constant S_ .f32 0x3F800000#32))

def kConcat (h1 h2 h3 : FVec F S50000x128 .f32) : FVec F S50000x384 .f32 :=
  concatenate S50000x384 1 [⟨S50000x128, h1⟩, ⟨S50000x128, h2⟩, ⟨S50000x128, h3⟩] concatenates_S50000x128_S50000x128_S50000x128_S50000x384_d1

def kDiv (p : FVec F S128x384 .f32) (cnt : FVec F S128 .f32) : FVec F S128x384 .f32 :=
  Host.divf p (broadcastInDim S128x384 ![0, 1] bcast_S128x1_S128x384_0_1 (broadcastInDim S128x1 ![0] bcast_S128_S128x1_0 cnt))

section Stretches
variable (W : Valuation τ sig (Elt F))

theorem ops0_v3 : after hostOps0 W main_v3 = kSrc (W main_arg1) := by after_results_simp <;> rfl
theorem ops0_v6 : after hostOps0 W main_v6 = kDst (W main_arg1) := by after_results_simp <;> rfl
theorem ops0_v12 : after hostOps0 W main_v12 = cmpf .ogt (kDeg (F := F) (kDst (W main_arg1))) (broadcastInDim S50000 ![] bcast_S_S50000 (constant S_ .f32 0x00000000#32)) := by
  after_results_simp <;> rfl
theorem ops0_v13 : after hostOps0 W main_v13 = Host.rsqrt (kDeg (F := F) (kDst (W main_arg1))) := by after_results_simp <;> rfl
theorem ops0_cst_2 : after hostOps0 W main_cst_2 = constant (F := F) S_ .f32 0x00000000#32 := by after_results_simp <;> rfl
theorem ops0_1_v14 : after hostOps0_1 W main_v14 = kInvSqrt (W main_v12) (W main_v13) (W main_cst_2) := by after_results_simp <;> rfl
theorem ops0_2_v29 : after hostOps0_2 W main_v29 = kNormOf (W main_v14) (W main_v3) (W main_v6) := by after_results_simp <;> rfl

theorem ops1_v43 : after hostOps1 W main_v43 = kLayer (W main_v30) (W main_v3) (W main_v6) (W main_v29) := by after_results_simp <;> rfl
theorem ops1_v44 : after hostOps1 W main_v44 = kBias (W main_arg4) := by after_results_simp <;> rfl
theorem ops3_v59 : after hostOps3 W main_v59 = kLayer (W main_v46) (W main_v3) (W main_v6) (W main_v29) := by after_results_simp <;> rfl
theorem ops3_v60 : after hostOps3 W main_v60 = kBias (W main_arg6) := by after_results_simp <;> rfl
theorem ops5_v75 : after hostOps5 W main_v75 = kLayer (W main_v62) (W main_v3) (W main_v6) (W main_v29) := by after_results_simp <;> rfl
theorem ops5_v76 : after hostOps5 W main_v76 = kBias (W main_arg8) := by after_results_simp <;> rfl
theorem ops6_v78 : after hostOps6 W main_v78 = kConcat (W main_v45) (W main_v61) (W main_v77) := by after_results_simp <;> rfl
theorem ops6_v84 : after hostOps6 W main_v84 = kOnehot (W main_arg2) := by after_results_simp <;> rfl
theorem ops6_v87 : after hostOps6 W main_v87 = kCounts (W main_arg2) := by after_results_simp <;> rfl
theorem ops7_v91 : after hostOps7 W main_v91 = kDiv (W main_v88) (W main_v87) := by after_results_simp <;> rfl

end Stretches

section Boundaries
variable (m : (ℓ : Loc nD τ sig) → Buf (Elt F) ℓ) (c : Dev nD)

theorem B5_of (r : Ref sig .tc) (h : r ∉ hostOps1_W) : B5 m c r = B4 m c r := after_of_writes_sub hostOps1 _ hostOps1_writes h
theorem B8_of (r : Ref sig .tc) (h : r ∉ hostOps3_W) : B8 m c r = B7 m c r := after_of_writes_sub hostOps3 _ hostOps3_writes h
theorem B11_of (r : Ref sig .tc) (h : r ∉ hostOps5_W) : B11 m c r = B10 m c r := after_of_writes_sub hostOps5 _ hostOps5_writes h
theorem B13_of (r : Ref sig .tc) (h : r ∉ hostOps6_W) : B13 m c r = B12 m c r := after_of_writes_sub hostOps6 _ hostOps6_writes h
theorem B15_of (r : Ref sig .tc) (h : r ∉ hostOps7_W) : B15 m c r = B14 m c r := after_of_writes_sub hostOps7 _ hostOps7_writes h

abbrev KeptTo3 (r : Ref sig .tc) : Prop := r ∉ hostOps0_W ∧ r ∉ hostOps0_1_W ∧ r ∉ hostOps0_2_W

abbrev KeptFrom3 (r : Ref sig .tc) : Prop :=
  r ≠ main_v30 ∧ r ∉ hostOps1_W ∧ r ≠ main_v45 ∧ r ≠ main_v46 ∧ r ∉ hostOps3_W ∧ r ≠ main_v61 ∧ r ≠ main_v62 ∧ r ∉ hostOps5_W
    ∧ r ≠ main_v77 ∧ r ∉ hostOps6_W ∧ r ≠ main_v88 ∧ r ∉ hostOps7_W

theorem B3_launch (r : Ref sig .tc) (h : KeptTo3 r) : B3 m c r = m ((c.tc : Thread nD τ).loc r) :=
  (V3_of m c r h.2.2).trans <| (V2_of m c r h.2.1).trans <| (V1_of m c r h.1).trans rfl

theorem B4_eq_B3 (r : Ref sig .tc) (h : KeptFrom3 r) : B4 m c r = B3 m c r := B4_of_ne m c r h.1
theorem B5_eq_B3 (r : Ref sig .tc) (h : KeptFrom3 r) : B5 m c r = B3 m c r := (B5_of m c r h.2.1).trans (B4_eq_B3 m c r h)
theorem B6_eq_B3 (r : Ref sig .tc) (h : KeptFrom3 r) : B6 m c r = B3 m c r := (B6_of_ne m c r h.2.2.1).trans (B5_eq_B3 m c r h)
theorem B7_eq_B3 (r : Ref sig .tc) (h : KeptFrom3 r) : B7 m c r = B3 m c r := (B7_of_ne m c r h.2.2.2.1).trans (B6_eq_B3 m c r h)
theorem B8_eq_B3 (r : Ref sig .tc) (h : KeptFrom3 r) : B8 m c r = B3 m c r := (B8_of m c r h.2.2.2.2.1).trans (B7_eq_B3 m c r h)
theorem B9_eq_B3 (r : Ref sig .tc) (h : KeptFrom3 r) : B9 m c r = B3 m c r := (B9_of_ne m c r h.2.2.2.2.2.1).trans (B8_eq_B3 m c r h)
theorem B10_eq_B3 (r : Ref sig .tc) (h : KeptFrom3 r) : B10 m c r = B3 m c r := (B10_of_ne m c r h.2.2.2.2.2.2.1).trans (B9_eq_B3 m c r h)
theorem B11_eq_B3 (r : Ref sig .tc) (h : KeptFrom3 r) : B11 m c r = B3 m c r := (B11_of m c r h.2.2.2.2.2.2.2.1).trans (B10_eq_B3 m c r h)
theorem B12_eq_B3 (r : Ref sig .tc) (h : KeptFrom3 r) : B12 m c r = B3 m c r := (B12_of_ne m c r h.2.2.2.2.2.2.2.2.1).trans (B11_eq_B3 m c r h)

theorem B3_arg0 : B3 m c main_arg0 = (m ((c.tc : Thread nD τ).loc main_arg0)) := B3_launch m c main_arg0 (by decide)
theorem B3_arg3 : B3 m c main_arg3 = (m ((c.tc : Thread nD τ).loc main_arg3)) := B3_launch m c main_arg3 (by decide)

theorem B3_v3 : B3 m c main_v3 = kSrc (m ((c.tc : Thread nD τ).loc main_arg1)) :=
  (V3_of m c main_v3 (by decide)).trans <| (V2_of m c main_v3 (by decide)).trans <| ops0_v3 (V0 m c)

theorem B3_v6 : B3 m c main_v6 = kDst (m ((c.tc : Thread nD τ).loc main_arg1)) :=
  (V3_of m c main_v6 (by decide)).trans <| (V2_of m c main_v6 (by decide)).trans <| ops0_v6 (V0 m c)

theorem B3_v29 : B3 m c main_v29 = kNorm (m ((c.tc : Thread nD τ).loc main_arg1)) := by
  show after hostOps0_2 (V2 m c) main_v29 = _
  rw [ops0_2_v29, V2_of m c main_v3 (by decide), V2_of m c main_v6 (by decide)]
  show kNormOf (after hostOps0_1 (V1 m c) main_v14) (after hostOps0 (V0 m c) main_v3) (after hostOps0 (V0 m c) main_v6) = _
  rw [ops0_1_v14, ops0_v3, ops0_v6]
  show kNormOf (kInvSqrt (after hostOps0 (V0 m c) main_v12) (after hostOps0 (V0 m c) main_v13) (after hostOps0 (V0 m c) main_cst_2)) _ _ = _
  rw [ops0_v12, ops0_v13, ops0_cst_2]
  rfl

theorem B4_launch (r : Ref sig .tc) (h3 : KeptTo3 r) (h : KeptFrom3 r) : B4 m c r = m ((c.tc : Thread nD τ).loc r) := (B4_eq_B3 m c r h).trans (B3_launch m c r h3)
theorem B6_launch (r : Ref sig .tc) (h3 : KeptTo3 r) (h : KeptFrom3 r) : B6 m c r = m ((c.tc : Thread nD τ).loc r) := (B6_eq_B3 m c r h).trans (B3_launch m c r h3)
theorem B7_launch (r : Ref sig .tc) (h3 : KeptTo3 r) (h : KeptFrom3 r) : B7 m c r = m ((c.tc : Thread nD τ).loc r) := (B7_eq_B3 m c r h).trans (B3_launch m c r h3)
theorem B9_launch (r : Ref sig .tc) (h3 : KeptTo3 r) (h : KeptFrom3 r) : B9 m c r = m ((c.tc : Thread nD τ).loc r) := (B9_eq_B3 m c r h).trans (B3_launch m c r h3)
theorem B10_launch (r : Ref sig .tc) (h3 : KeptTo3 r) (h : KeptFrom3 r) : B10 m c r = m ((c.tc : Thread nD τ).loc r) := (B10_eq_B3 m c r h).trans (B3_launch m c r h3)
theorem B12_launch (r : Ref sig .tc) (h3 : KeptTo3 r) (h : KeptFrom3 r) : B12 m c r = m ((c.tc : Thread nD τ).loc r) := (B12_eq_B3 m c r h).trans (B3_launch m c r h3)

theorem B5_v43 : B5 m c main_v43 = kLayer (B4 m c main_v30) (kSrc (m ((c.tc : Thread nD τ).loc main_arg1))) (kDst (m ((c.tc : Thread nD τ).loc main_arg1))) (kNorm (m ((c.tc : Thread nD τ).loc main_arg1))) := by
  rw [show B5 m c main_v43 = _ from ops1_v43 (B4 m c), B4_eq_B3 m c main_v3 (by decide), B4_eq_B3 m c main_v6 (by decide),
    B4_eq_B3 m c main_v29 (by decide), B3_v3, B3_v6, B3_v29]
theorem B5_v44 : B5 m c main_v44 = kBias (m ((c.tc : Thread nD τ).loc main_arg4)) :=
  (ops1_v44 (B4 m c)).trans (congrArg kBias (B4_launch m c main_arg4 (by decide) (by decide)))

theorem B6_arg5 : B6 m c main_arg5 = (m ((c.tc : Thread nD τ).loc main_arg5)) := B6_launch m c main_arg5 (by decide) (by decide)

theorem B8_v59 : B8 m c main_v59 = kLayer (B7 m c main_v46) (kSrc (m ((c.tc : Thread nD τ).loc main_arg1))) (kDst (m ((c.tc : Thread nD τ).loc main_arg1))) (kNorm (m ((c.tc : Thread nD τ).loc main_arg1))) := by
  rw [show B8 m c main_v59 = _ from ops3_v59 (B7 m c), B7_eq_B3 m c main_v3 (by decide), B7_eq_B3 m c main_v6 (by decide),
    B7_eq_B3 m c main_v29 (by decide), B3_v3, B3_v6, B3_v29]
theorem B8_v60 : B8 m c main_v60 = kBias (m ((c.tc : Thread nD τ).loc main_arg6)) :=
  (ops3_v60 (B7 m c)).trans (congrArg kBias (B7_launch m c main_arg6 (by decide) (by decide)))

theorem B9_arg7 : B9 m c main_arg7 = (m ((c.tc : Thread nD τ).loc main_arg7)) := B9_launch m c main_arg7 (by decide) (by decide)

theorem B11_v75 : B11 m c main_v75 = kLayer (B10 m c main_v62) (kSrc (m ((c.tc : Thread nD τ).loc main_arg1))) (kDst (m ((c.tc : Thread nD τ).loc main_arg1))) (kNorm (m ((c.tc : Thread nD τ).loc main_arg1))) := by
  rw [show B11 m c main_v75 = _ from ops5_v75 (B10 m c), B10_eq_B3 m c main_v3 (by decide), B10_eq_B3 m c main_v6 (by decide),
    B10_eq_B3 m c main_v29 (by decide), B3_v3, B3_v6, B3_v29]
theorem B11_v76 : B11 m c main_v76 = kBias (m ((c.tc : Thread nD τ).loc main_arg8)) :=
  (ops5_v76 (B10 m c)).trans (congrArg kBias (B10_launch m c main_arg8 (by decide) (by decide)))

theorem B12_v45 : B12 m c main_v45 = B6 m c main_v45 :=
  (B12_of_ne m c main_v45 (by decide)).trans <| (B11_of m c main_v45 (by decide)).trans <| (B10_of_ne m c main_v45 (by decide)).trans <|
    (B9_of_ne m c main_v45 (by decide)).trans <| (B8_of m c main_v45 (by decide)).trans (B7_of_ne m c main_v45 (by decide))

theorem B12_v61 : B12 m c main_v61 = B9 m c main_v61 :=
  (B12_of_ne m c main_v61 (by decide)).trans <| (B11_of m c main_v61 (by decide)).trans (B10_of_ne m c main_v61 (by decide))
theorem B13_v78 : B13 m c main_v78 = kConcat (B12 m c main_v45) (B12 m c main_v61) (B12 m c main_v77) := ops6_v78 (B12 m c)
theorem B13_v84 : B13 m c main_v84 = kOnehot (m ((c.tc : Thread nD τ).loc main_arg2)) :=
  (ops6_v84 (B12 m c)).trans (congrArg kOnehot (B12_launch m c main_arg2 (by decide) (by decide)))
theorem B13_v87 : B13 m c main_v87 = kCounts (m ((c.tc : Thread nD τ).loc main_arg2)) :=
  (ops6_v87 (B12 m c)).trans (congrArg kCounts (B12_launch m c main_arg2 (by decide) (by decide)))

theorem B15_v91 : B15 m c main_v91 = kDiv (B14 m c main_v88) (kCounts (m ((c.tc : Thread nD τ).loc main_arg2))) := by
  rw [show B15 m c main_v91 = _ from ops7_v91 (B14 m c), B14_of_ne m c main_v87 (by decide), B13_v87]
theorem B15_v78 : B15 m c main_v78 = B13 m c main_v78 :=
  (B15_of m c main_v78 (by decide)).trans (B14_of_ne m c main_v78 (by decide))

theorem in0_0 : atTc (B3 m) c (Pipeline.arrRef spec0 0) = B3 m c main_arg0 := rfl
theorem in0_1 : atTc (B3 m) c (Pipeline.arrRef spec0 1) = B3 m c main_arg3 := rfl
theorem in1_0 : atTc (B5 m) c (Pipeline.arrRef spec1 0) = B5 m c main_v43 := rfl
theorem in1_1 : atTc (B5 m) c (Pipeline.arrRef spec1 1) = B5 m c main_v44 := rfl
theorem in2_0 : atTc (B6 m) c (Pipeline.arrRef spec2 0) = B6 m c main_v45 := rfl
theorem in2_1 : atTc (B6 m) c (Pipeline.arrRef spec2 1) = B6 m c main_arg5 := rfl
theorem in3_0 : atTc (B8 m) c (Pipeline.arrRef spec3 0) = B8 m c main_v59 := rfl
theorem in3_1 : atTc (B8 m) c (Pipeline.arrRef spec3 1) = B8 m c main_v60 := rfl
theorem in4_0 : atTc (B9 m) c (Pipeline.arrRef spec4 0) = B9 m c main_v61 := rfl
theorem in4_1 : atTc (B9 m) c (Pipeline.arrRef spec4 1) = B9 m c main_arg7 := rfl
theorem in5_0 : atTc (B11 m) c (Pipeline.arrRef spec5 0) = B11 m c main_v75 := rfl
theorem in5_1 : atTc (B11 m) c (Pipeline.arrRef spec5 1) = B11 m c main_v76 := rfl
theorem in6_0 : atTc (B13 m) c (Pipeline.arrRef spec6 0) = B13 m c main_v84 := rfl
theorem in6_1 : atTc (B13 m) c (Pipeline.arrRef spec6 1) = B13 m c main_v78 := rfl

end Boundaries

end Cert.KernelIdeal.Calls

end
-- ==== Proof.Spec.lean ====
import proofs.«426581_j30013231464613_1_alg».proof.Proof.Gen.KernelIdeal
import Idealize.ShloMosaic.Lib.ValueIdx

noncomputable section

open scoped BigOperators

namespace Cert.KernelIdeal.Spec

open Idealize.ShloMosaic Idealize.ShloMosaic.ValueIdx Cert.KernelIdeal

/-- The matrix product of a 50000 x 128 array with a 128 x 128 array. -/
def mmArr (x : FVec Ideal S50000x128 .f32) (w : FVec Ideal S128x128 .f32) : FVec Ideal S50000x128 .f32 :=
  fun i => ∑ k : Fin 128, x (ix2 (i 0) k) * w (ix2 k (i 1))

theorem mmArr_apply (x : FVec Ideal S50000x128 .f32) (w : FVec Ideal S128x128 .f32) (r : Fin 50000) (c : Fin 128) :
    mmArr x w (ix2 r c) = ∑ k : Fin 128, x (ix2 r k) * w (ix2 k c) := rfl

/-- max(a + b, 0), the row b added to every row of a. -/
def brArr (a : FVec Ideal S50000x128 .f32) (b : FVec Ideal S1x128 .f32) : FVec Ideal S50000x128 .f32 :=
  fun i => max (a i + b (ix2 (0 : Fin 1) (i 1))) 0

theorem brArr_apply (a : FVec Ideal S50000x128 .f32) (b : FVec Ideal S1x128 .f32) (r : Fin 50000) (c : Fin 128) :
    brArr a b (ix2 r c) = max (a (ix2 r c) + b (ix2 (0 : Fin 1) c)) 0 := rfl

/-- Entry (g, c) is the sum over the rows n of oh(n, g) xs(n, c). -/
def poolArr (oh : FVec Ideal S50000x128 .f32) (xs : FVec Ideal S50000x384 .f32) : FVec Ideal S128x384 .f32 :=
  fun i => ∑ n : Fin 50000, oh (ix2 n (i 0)) * xs (ix2 n (i 1))

theorem poolArr_apply (oh : FVec Ideal S50000x128 .f32) (xs : FVec Ideal S50000x384 .f32) (g : Fin 128) (c : Fin 384) :
    poolArr oh xs (ix2 g c) = ∑ n : Fin 50000, oh (ix2 n g) * xs (ix2 n c) := rfl

end Cert.KernelIdeal.Spec

end
-- ==== Proof.MmPay.lean ====
import proofs.«426581_j30013231464613_1_alg».proof.Proof.Gen.KernelIdeal
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.Calls

open Cert.KernelIdeal Cert.KernelIdeal.Gen

open Idealize.ShloMosaic Idealize.ShloMosaic.TcCoe Idealize.ShloMosaic.ValueIdx

theorem mm_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem mm_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem mm_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem mm_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Over the extended reals the product of the rounded factors, accumulated from zero, is the plain matrix product. -/
theorem mm_apply (x : Vec Ideal S5000x128 .f32) (w : Vec Ideal S128x128 .f32) (r : Fin 5000) (c : Fin 128) :
    matmul (F := Ideal) dot_S5000x128_S128x128_S5000x128_1_0_0_1_n_n none (truncf .bf16 x bitsLt_bf16_f32) (truncf .bf16 w bitsLt_bf16_f32)
      (constant S5000x128 .f32 0x00000000#32) (ix2 r c) = ∑ n : Fin 128, x (ix2 r n) * w (ix2 n c) := by
  refine (Ideal.matmul_constant_zero_apply dot_S5000x128_S128x128_S5000x128_1_0_0_1_n_n none _ _ (ix2 r c)).trans ?_
  rw [← Equiv.sum_comp (contrEquiv1 dot_S5000x128_S128x128_S5000x128_1_0_0_1_n_n 128 rfl rfl).symm]
  refine Finset.sum_congr rfl fun n _ => ?_
  have hn := contrEquiv1_symm_val dot_S5000x128_S128x128_S5000x128_1_0_0_1_n_n 128 rfl rfl n
  have el : dot_S5000x128_S128x128_S5000x128_1_0_0_1_n_n.lhsIdx (ix2 r c) ((contrEquiv1 dot_S5000x128_S128x128_S5000x128_1_0_0_1_n_n 128 rfl rfl).symm n) = ix2 r n := funext fun a => Fin.ext (by
    match a with
    | ⟨0, _⟩ => exact mm_lhs_0 _ _
    | ⟨1, _⟩ => exact (mm_lhs_1 _ _).trans hn)
  have er : dot_S5000x128_S128x128_S5000x128_1_0_0_1_n_n.rhsIdx (ix2 r c) ((contrEquiv1 dot_S5000x128_S128x128_S5000x128_1_0_0_1_n_n 128 rfl rfl).symm n) = ix2 n c := funext fun a => Fin.ext (by
    match a with
    | ⟨0, _⟩ => exact (mm_rhs_0 _ _).trans hn
    | ⟨1, _⟩ => exact mm_rhs_1 _ _)
  rw [el, er]
  rfl

end Cert.KernelIdeal.Calls

end
-- ==== Proof.Arr0.lean ====
import proofs.«426581_j30013231464613_1_alg».proof.Proof.Region0
import proofs.«426581_j30013231464613_1_alg».proof.Proof.Spec
import proofs.«426581_j30013231464613_1_alg».proof.Proof.MmPay
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.Calls

open Cert.KernelIdeal Cert.KernelIdeal.Gen Cert.KernelIdeal.Spec

open Idealize.ShloMosaic Idealize.ShloMosaic.TcCoe Idealize.ShloMosaic.ValueIdx
open Idealize.ShloMosaic.Pipeline (Dat)

theorem k0_pay1_apply (x : Vec Ideal S5000x128 .f32) (w : Vec Ideal S128x128 .f32) (r : Fin 5000) (c : Fin 128) :
    k0_pay1 (F := Ideal) x w (ix2 r c) = ∑ n : Fin 128, x (ix2 r n) * w (ix2 n c) := by
  unfold k0_pay1
  try simp only [shapeCast_self]
  exact mm_apply x w r c

variable (V : (c : Dev nD) → (b : Ref sig .tc) → Buf (Elt Ideal) ((c : Thread nD τ).loc b))

theorem rows0_hz : (![0, 0] : Fin 2 → Nat) = fun _ => 0 := funext fun a => by fin_cases a <;> rfl

theorem out0_2_apply (x : Vec Ideal S5000x128 .f32) (w : Vec Ideal S128x128 .f32) (r : Fin 5000) (c : Fin 128) :
    out0_2 (F := Ideal) x w (ix2 r c) = ∑ n : Fin 128, x (ix2 r n) * w (ix2 n c) := by
  unfold out0_2
  rw [View.canon_unit_zero rows0_hz]
  simp only [View.ld_unit_zero (S := S5000x128) rows0_hz, View.ld_unit_zero (S := S128x128) rows0_hz]
  exact k0_pay1_apply x w r c

theorem rows0_idx : ∀ t : Fin cfg0.N, (cfg0.win 0).index t (0 : Fin 2) = t.val ∧ (cfg0.win 0).index t (1 : Fin 2) = 0
    ∧ (cfg0.win 1).index t (0 : Fin 2) = 0 ∧ (cfg0.win 1).index t (1 : Fin 2) = 0
    ∧ (cfg0.win 2).index t (0 : Fin 2) = t.val ∧ (cfg0.win 2).index t (1 : Fin 2) = 0
    ∧ (cfg0.win 2).flush t = true :=
  (by decide +kernel : ∀ t : Fin grid0.N, _)

theorem blk0_0_apply (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c (Pipeline.arrRef spec0 0) : Vec Ideal S50000x128 .f32) i := by
  obtain ⟨e0, e1, -⟩ := rows0_idx t
  unfold iblk0
  rw [View.read_apply]
  show (V c (Pipeline.arrRef spec0 0) : Vec Ideal S50000x128 .f32) _ = (V c (Pipeline.arrRef spec0 0) : Vec Ideal S50000x128 .f32) _
  congr 1
  funext a
  apply Fin.ext
  match a with
  | ⟨0, _⟩ => show (cfg0.win 0).index t (0 : Fin 2) * 5000 + 1 * (y 0).val = (i 0).val; rw [e0, h0]; omega
  | ⟨1, _⟩ => show (cfg0.win 0).index t (1 : Fin 2) * 128 + 1 * (y 1).val = (i 1).val; rw [e1, h1]; omega

theorem blk0_1_apply (c : Dev nD) (t : Fin cfg0.N) (y : S128x128.Idx) :
    (iblk0 V c 1 t : Vec Ideal S128x128 .f32) y = (V c (Pipeline.arrRef spec0 1) : Vec Ideal S128x128 .f32) y := by
  obtain ⟨-, -, e0, e1, -⟩ := rows0_idx t
  unfold iblk0
  rw [View.read_apply]
  show (V c (Pipeline.arrRef spec0 1) : Vec Ideal S128x128 .f32) _ = (V c (Pipeline.arrRef spec0 1) : Vec Ideal S128x128 .f32) _
  congr 1
  funext a
  apply Fin.ext
  match a with
  | ⟨0, _⟩ => show (cfg0.win 1).index t (0 : Fin 2) * 128 + 1 * (y 0).val = (y 0).val; rw [e0]; omega
  | ⟨1, _⟩ => show (cfg0.win 1).index t (1 : Fin 2) * 128 + 1 * (y 1).val = (y 1).val; rw [e1]; omega

theorem blk0_2_emb (t : Fin cfg0.N) (y : S5000x128.Idx) :
    (((((cfg0.win 2).blk t).view.emb y : S50000x128.Idx) 0).val = 5000 * t.val + (y 0).val)
    ∧ (((((cfg0.win 2).blk t).view.emb y : S50000x128.Idx) 1).val = (y 1).val) := by
  obtain ⟨-, -, -, -, e0, e1, -⟩ := rows0_idx t
  constructor
  · show (cfg0.win 2).index t (0 : Fin 2) * 5000 + 1 * (y 0).val = _; rw [e0]; omega
  · show (cfg0.win 2).index t (1 : Fin 2) * 128 + 1 * (y 1).val = _; rw [e1]; omega

theorem flushed0_eq (c : Dev nD) (t : Fin cfg0.N) :
    (dat0 (F := Ideal) V c).flushed 2 t
      = ((cfg0.win 2).blk t).view.read (Elt Ideal) (mmArr (V c (Pipeline.arrRef spec0 0)) (V c (Pipeline.arrRef spec0 1))) := by
  show (cfg0.win 2).cut (grid0.coords t) ((dat0 V c).after 2 t) = _
  rw [after0_2]
  funext j
  obtain ⟨r, q, rfl⟩ : ∃ (r : Fin 5000) (q : Fin 128), j = ix2 r q := ⟨j 0, j 1, eq_ix2 j⟩
  obtain ⟨hr, hq⟩ := blk0_2_emb t (ix2 r q)
  show out0_2 (F := Ideal) (iblk0 V c 0 t) (iblk0 V c 1 t) (ix2 r q)
    = mmArr (V c (Pipeline.arrRef spec0 0)) (V c (Pipeline.arrRef spec0 1)) (((cfg0.win 2).blk t).view.emb (ix2 r q))
  refine (out0_2_apply (iblk0 V c 0 t) (iblk0 V c 1 t) r q).trans ?_
  unfold mmArr
  refine Finset.sum_congr rfl fun n _ => ?_
  congr 1
  · exact blk0_0_apply V c t (ix2 r n) _ hr rfl
  · exact (blk0_1_apply V c t (ix2 n q)).trans (congrArg _ (funext fun a => Fin.ext (by
      match a with
      | ⟨0, _⟩ => rfl
      | ⟨1, _⟩ => exact hq.symm)))

theorem blk0_2_mem (t : Fin cfg0.N) (i : S50000x128.Idx) :
    i ∈ ((cfg0.win 2).blk t).view.set ↔ ∀ a : Fin 2, (cfg0.win 2).index t a * S5000x128.size a ≤ (i a).val ∧ (i a).val < (cfg0.win 2).index t a * S5000x128.size a + S5000x128.size a := by
  show i ∈ ((View.whole (Pipeline.arrRef spec0 2)).slice ((cfg0.win 2).rect t)).set ↔ _
  rw [View.set_slice_whole, Rect.mem_set_unit]
  exact Iff.rfl

theorem cover_rows0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨-, -, -, -, e0, e1, hf⟩ := rows0_idx t
  refine ⟨t, hf, ?_⟩
  rw [blk0_2_mem]
  intro a
  match a with
  | ⟨0, _⟩ => show (cfg0.win 2).index t (0 : Fin 2) * 5000 ≤ (i 0).val ∧ (i 0).val < (cfg0.win 2).index t (0 : Fin 2) * 5000 + 5000; rw [e0]; show (i 0).val / 5000 * 5000 ≤ (i 0).val ∧ (i 0).val < (i 0).val / 5000 * 5000 + 5000; omega
  | ⟨1, _⟩ => show (cfg0.win 2).index t (1 : Fin 2) * 128 ≤ (i 1).val ∧ (i 1).val < (cfg0.win 2).index t (1 : Fin 2) * 128 + 128; rw [e1]; omega

/-- The row blocks cover the array, so the region's result is the whole matrix product of its operands. -/
theorem arr0_eq (c : Dev nD) :
    (dat0 (F := Ideal) V c).arrAt 2 cfg0.N = Spec.mmArr (V c (Pipeline.arrRef spec0 0)) (V c (Pipeline.arrRef spec0 1)) :=
  (dat0 (F := Ideal) V c).arrAt_eq_of_cover 2 (Spec.mmArr (V c (Pipeline.arrRef spec0 0)) (V c (Pipeline.arrRef spec0 1)))
    (fun t _ => flushed0_eq V c t) (cover_rows0)

end Cert.KernelIdeal.Calls

end
-- ==== Proof.Arr1.lean ====
import proofs.«426581_j30013231464613_1_alg».proof.Proof.Region1
import proofs.«426581_j30013231464613_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Calls

open Cert.KernelIdeal Cert.KernelIdeal.Gen Cert.KernelIdeal.Spec

open Idealize.ShloMosaic Idealize.ShloMosaic.TcCoe Idealize.ShloMosaic.ValueIdx
open Idealize.ShloMosaic.Pipeline (Dat)

theorem k1_pay1_apply (x : Vec Ideal S5000x128 .f32) (b : Vec Ideal S1x128 .f32) (r : Fin 5000) (c : Fin 128) :
    k1_pay1 (F := Ideal) x b (ix2 r c) = max (x (ix2 r c) + b (ix2 (0 : Fin 1) c)) 0 := by
  unfold k1_pay1
  simp only [shapeCast_self]
  show max (x (ix2 r c) + broadcastTo S5000x128 b broadcasts_S1x128_S5000x128 (ix2 r c)) (Ideal.ofBits .f32 0x00000000#32) = _
  rw [Ideal.ofBits_zero_f32]
  exact congrArg (fun z => max (x (ix2 r c) + z) 0) (broadcastTo_1b_ab_apply b broadcasts_S1x128_S5000x128 r c)

variable (V : (c : Dev nD) → (b : Ref sig .tc) → Buf (Elt Ideal) ((c : Thread nD τ).loc b))

theorem rows1_hz : (![0, 0] : Fin 2 → Nat) = fun _ => 0 := funext fun a => by fin_cases a <;> rfl

theorem out1_2_apply (x : Vec Ideal S5000x128 .f32) (b : Vec Ideal S1x128 .f32) (r : Fin 5000) (c : Fin 128) :
    out1_2 (F := Ideal) x b (ix2 r c) = max (x (ix2 r c) + b (ix2 (0 : Fin 1) c)) 0 := by
  unfold out1_2
  rw [View.canon_unit_zero rows1_hz]
  simp only [View.ld_unit_zero (S := S5000x128) rows1_hz, View.ld_unit_zero (S := S1x128) rows1_hz]
  exact k1_pay1_apply x b r c

theorem rows1_idx : ∀ t : Fin cfg1.N, (cfg1.win 0).index t (0 : Fin 2) = t.val ∧ (cfg1.win 0).index t (1 : Fin 2) = 0
    ∧ (cfg1.win 1).index t (0 : Fin 2) = 0 ∧ (cfg1.win 1).index t (1 : Fin 2) = 0
    ∧ (cfg1.win 2).index t (0 : Fin 2) = t.val ∧ (cfg1.win 2).index t (1 : Fin 2) = 0
    ∧ (cfg1.win 2).flush t = true :=
  (by decide +kernel : ∀ t : Fin grid1.N, _)

theorem blk1_0_apply (c : Dev nD) (t : Fin cfg1.N) (y : S5000x128.Idx) (i : S50000x128.Idx)
    (h0 : (i 0).val = 5000 * t.val + (y 0).val) (h1 : (i 1).val = (y 1).val) :
    (iblk1 V c 0 t : Vec Ideal S5000x128 .f32) y = (V c (Pipeline.arrRef spec1 0) : Vec Ideal S50000x128 .f32) i := by
  obtain ⟨e0, e1, -⟩ := rows1_idx t
  unfold iblk1
  rw [View.read_apply]
  show (V c (Pipeline.arrRef spec1 0) : Vec Ideal S50000x128 .f32) _ = (V c (Pipeline.arrRef spec1 0) : Vec Ideal S50000x128 .f32) _
  congr 1
  funext a
  apply Fin.ext
  match a with
  | ⟨0, _⟩ => show (cfg1.win 0).index t (0 : Fin 2) * 5000 + 1 * (y 0).val = (i 0).val; rw [e0, h0]; omega
  | ⟨1, _⟩ => show (cfg1.win 0).index t (1 : Fin 2) * 128 + 1 * (y 1).val = (i 1).val; rw [e1, h1]; omega

theorem blk1_1_apply (c : Dev nD) (t : Fin cfg1.N) (y : S1x128.Idx) :
    (iblk1 V c 1 t : Vec Ideal S1x128 .f32) y = (V c (Pipeline.arrRef spec1 1) : Vec Ideal S1x128 .f32) y := by
  obtain ⟨-, -, e0, e1, -⟩ := rows1_idx t
  unfold iblk1
  rw [View.read_apply]
  show (V c (Pipeline.arrRef spec1 1) : Vec Ideal S1x128 .f32) _ = (V c (Pipeline.arrRef spec1 1) : Vec Ideal S1x128 .f32) _
  congr 1
  funext a
  apply Fin.ext
  match a with
  | ⟨0, _⟩ => show (cfg1.win 1).index t (0 : Fin 2) * 1 + 1 * (y 0).val = (y 0).val; rw [e0]; omega
  | ⟨1, _⟩ => show (cfg1.win 1).index t (1 : Fin 2) * 128 + 1 * (y 1).val = (y 1).val; rw [e1]; omega

theorem blk1_2_emb (t : Fin cfg1.N) (y : S5000x128.Idx) :
    (((((cfg1.win 2).blk t).view.emb y : S50000x128.Idx) 0).val = 5000 * t.val + (y 0).val)
    ∧ (((((cfg1.win 2).blk t).view.emb y : S50000x128.Idx) 1).val = (y 1).val) := by
  obtain ⟨-, -, -, -, e0, e1, -⟩ := rows1_idx t
  constructor
  · show (cfg1.win 2).index t (0 : Fin 2) * 5000 + 1 * (y 0).val = _; rw [e0]; omega
  · show (cfg1.win 2).index t (1 : Fin 2) * 128 + 1 * (y 1).val = _; rw [e1]; omega

theorem flushed1_eq (c : Dev nD) (t : Fin cfg1.N) :
    (dat1 (F := Ideal) V c).flushed 2 t
      = ((cfg1.win 2).blk t).view.read (Elt Ideal) (brArr (V c (Pipeline.arrRef spec1 0)) (V c (Pipeline.arrRef spec1 1))) := by
  show (cfg1.win 2).cut (grid1.coords t) ((dat1 V c).after 2 t) = _
  rw [after1_2]
  funext j
  obtain ⟨r, q, rfl⟩ : ∃ (r : Fin 5000) (q : Fin 128), j = ix2 r q := ⟨j 0, j 1, eq_ix2 j⟩
  obtain ⟨hr, hq⟩ := blk1_2_emb t (ix2 r q)
  show out1_2 (F := Ideal) (iblk1 V c 0 t) (iblk1 V c 1 t) (ix2 r q)
    = brArr (V c (Pipeline.arrRef spec1 0)) (V c (Pipeline.arrRef spec1 1)) (((cfg1.win 2).blk t).view.emb (ix2 r q))
  refine (out1_2_apply (iblk1 V c 0 t) (iblk1 V c 1 t) r q).trans ?_
  unfold brArr
  refine congrArg₂ max (congrArg₂ (· + ·) ?_ ?_) rfl
  · exact blk1_0_apply V c t (ix2 r q) _ hr hq
  · exact (blk1_1_apply V c t (ix2 (0 : Fin 1) q)).trans (congrArg _ (funext fun a => Fin.ext (by
      match a with
      | ⟨0, _⟩ => rfl
      | ⟨1, _⟩ => exact hq.symm)))

theorem blk1_2_mem (t : Fin cfg1.N) (i : S50000x128.Idx) :
    i ∈ ((cfg1.win 2).blk t).view.set ↔ ∀ a : Fin 2, (cfg1.win 2).index t a * S5000x128.size a ≤ (i a).val ∧ (i a).val < (cfg1.win 2).index t a * S5000x128.size a + S5000x128.size a := by
  show i ∈ ((View.whole (Pipeline.arrRef spec1 2)).slice ((cfg1.win 2).rect t)).set ↔ _
  rw [View.set_slice_whole, Rect.mem_set_unit]
  exact Iff.rfl

theorem cover_rows1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨-, -, -, -, e0, e1, hf⟩ := rows1_idx t
  refine ⟨t, hf, ?_⟩
  rw [blk1_2_mem]
  intro a
  match a with
  | ⟨0, _⟩ => show (cfg1.win 2).index t (0 : Fin 2) * 5000 ≤ (i 0).val ∧ (i 0).val < (cfg1.win 2).index t (0 : Fin 2) * 5000 + 5000; rw [e0]; show (i 0).val / 5000 * 5000 ≤ (i 0).val ∧ (i 0).val < (i 0).val / 5000 * 5000 + 5000; omega
  | ⟨1, _⟩ => show (cfg1.win 2).index t (1 : Fin 2) * 128 ≤ (i 1).val ∧ (i 1).val < (cfg1.win 2).index t (1 : Fin 2) * 128 + 128; rw [e1]; omega

/-- The row blocks cover the array, so the region's result is max(a + b, 0) of its operands. -/
theorem arr1_eq (c : Dev nD) :
    (dat1 (F := Ideal) V c).arrAt 2 cfg1.N = Spec.brArr (V c (Pipeline.arrRef spec1 0)) (V c (Pipeline.arrRef spec1 1)) :=
  (dat1 (F := Ideal) V c).arrAt_eq_of_cover 2 (Spec.brArr (V c (Pipeline.arrRef spec1 0)) (V c (Pipeline.arrRef spec1 1)))
    (fun t _ => flushed1_eq V c t) (cover_rows1)

end Cert.KernelIdeal.Calls

end
-- ==== Proof.Arr2.lean ====
import proofs.«426581_j30013231464613_1_alg».proof.Proof.Region2
import proofs.«426581_j30013231464613_1_alg».proof.Proof.Spec
import proofs.«426581_j30013231464613_1_alg».proof.Proof.MmPay
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.Calls

open Cert.KernelIdeal Cert.KernelIdeal.Gen Cert.KernelIdeal.Spec

open Idealize.ShloMosaic Idealize.ShloMosaic.TcCoe Idealize.ShloMosaic.ValueIdx
open Idealize.ShloMosaic.Pipeline (Dat)

theorem k2_pay1_apply (x : Vec Ideal S5000x128 .f32) (w : Vec Ideal S128x128 .f32) (r : Fin 5000) (c : Fin 128) :
    k2_pay1 (F := Ideal) x w (ix2 r c) = ∑ n : Fin 128, x (ix2 r n) * w (ix2 n c) := by
  unfold k2_pay1
  try simp only [shapeCast_self]
  exact mm_apply x w r c

variable (V : (c : Dev nD) → (b : Ref sig .tc) → Buf (Elt Ideal) ((c : Thread nD τ).loc b))

theorem rows2_hz : (![0, 0] : Fin 2 → Nat) = fun _ => 0 := funext fun a => by fin_cases a <;> rfl

theorem out2_2_apply (x : Vec Ideal S5000x128 .f32) (w : Vec Ideal S128x128 .f32) (r : Fin 5000) (c : Fin 128) :
    out2_2 (F := Ideal) x w (ix2 r c) = ∑ n : Fin 128, x (ix2 r n) * w (ix2 n c) := by
  unfold out2_2
  rw [View.canon_unit_zero rows2_hz]
  simp only [View.ld_unit_zero (S := S5000x128) rows2_hz, View.ld_unit_zero (S := S128x128) rows2_hz]
  exact k2_pay1_apply x w r c

theorem rows2_idx : ∀ t : Fin cfg2.N, (cfg2.win 0).index t (0 : Fin 2) = t.val ∧ (cfg2.win 0).index t (1 : Fin 2) = 0
    ∧ (cfg2.win 1).index t (0 : Fin 2) = 0 ∧ (cfg2.win 1).index t (1 : Fin 2) = 0
    ∧ (cfg2.win 2).index t (0 : Fin 2) = t.val ∧ (cfg2.win 2).index t (1 : Fin 2) = 0
    ∧ (cfg2.win 2).flush t = true :=
  (by decide +kernel : ∀ t : Fin grid2.N, _)

theorem blk2_0_apply (c : Dev nD) (t : Fin cfg2.N) (y : S5000x128.Idx) (i : S50000x128.Idx)
    (h0 : (i 0).val = 5000 * t.val + (y 0).val) (h1 : (i 1).val = (y 1).val) :
    (iblk2 V c 0 t : Vec Ideal S5000x128 .f32) y = (V c (Pipeline.arrRef spec2 0) : Vec Ideal S50000x128 .f32) i := by
  obtain ⟨e0, e1, -⟩ := rows2_idx t
  unfold iblk2
  rw [View.read_apply]
  show (V c (Pipeline.arrRef spec2 0) : Vec Ideal S50000x128 .f32) _ = (V c (Pipeline.arrRef spec2 0) : Vec Ideal S50000x128 .f32) _
  congr 1
  funext a
  apply Fin.ext
  match a with
  | ⟨0, _⟩ => show (cfg2.win 0).index t (0 : Fin 2) * 5000 + 1 * (y 0).val = (i 0).val; rw [e0, h0]; omega
  | ⟨1, _⟩ => show (cfg2.win 0).index t (1 : Fin 2) * 128 + 1 * (y 1).val = (i 1).val; rw [e1, h1]; omega

theorem blk2_1_apply (c : Dev nD) (t : Fin cfg2.N) (y : S128x128.Idx) :
    (iblk2 V c 1 t : Vec Ideal S128x128 .f32) y = (V c (Pipeline.arrRef spec2 1) : Vec Ideal S128x128 .f32) y := by
  obtain ⟨-, -, e0, e1, -⟩ := rows2_idx t
  unfold iblk2
  rw [View.read_apply]
  show (V c (Pipeline.arrRef spec2 1) : Vec Ideal S128x128 .f32) _ = (V c (Pipeline.arrRef spec2 1) : Vec Ideal S128x128 .f32) _
  congr 1
  funext a
  apply Fin.ext
  match a with
  | ⟨0, _⟩ => show (cfg2.win 1).index t (0 : Fin 2) * 128 + 1 * (y 0).val = (y 0).val; rw [e0]; omega
  | ⟨1, _⟩ => show (cfg2.win 1).index t (1 : Fin 2) * 128 + 1 * (y 1).val = (y 1).val; rw [e1]; omega

theorem blk2_2_emb (t : Fin cfg2.N) (y : S5000x128.Idx) :
    (((((cfg2.win 2).blk t).view.emb y : S50000x128.Idx) 0).val = 5000 * t.val + (y 0).val)
    ∧ (((((cfg2.win 2).blk t).view.emb y : S50000x128.Idx) 1).val = (y 1).val) := by
  obtain ⟨-, -, -, -, e0, e1, -⟩ := rows2_idx t
  constructor
  · show (cfg2.win 2).index t (0 : Fin 2) * 5000 + 1 * (y 0).val = _; rw [e0]; omega
  · show (cfg2.win 2).index t (1 : Fin 2) * 128 + 1 * (y 1).val = _; rw [e1]; omega

theorem flushed2_eq (c : Dev nD) (t : Fin cfg2.N) :
    (dat2 (F := Ideal) V c).flushed 2 t
      = ((cfg2.win 2).blk t).view.read (Elt Ideal) (mmArr (V c (Pipeline.arrRef spec2 0)) (V c (Pipeline.arrRef spec2 1))) := by
  show (cfg2.win 2).cut (grid2.coords t) ((dat2 V c).after 2 t) = _
  rw [after2_2]
  funext j
  obtain ⟨r, q, rfl⟩ : ∃ (r : Fin 5000) (q : Fin 128), j = ix2 r q := ⟨j 0, j 1, eq_ix2 j⟩
  obtain ⟨hr, hq⟩ := blk2_2_emb t (ix2 r q)
  show out2_2 (F := Ideal) (iblk2 V c 0 t) (iblk2 V c 1 t) (ix2 r q)
    = mmArr (V c (Pipeline.arrRef spec2 0)) (V c (Pipeline.arrRef spec2 1)) (((cfg2.win 2).blk t).view.emb (ix2 r q))
  refine (out2_2_apply (iblk2 V c 0 t) (iblk2 V c 1 t) r q).trans ?_
  unfold mmArr
  refine Finset.sum_congr rfl fun n _ => ?_
  congr 1
  · exact blk2_0_apply V c t (ix2 r n) _ hr rfl
  · exact (blk2_1_apply V c t (ix2 n q)).trans (congrArg _ (funext fun a => Fin.ext (by
      match a with
      | ⟨0, _⟩ => rfl
      | ⟨1, _⟩ => exact hq.symm)))

theorem blk2_2_mem (t : Fin cfg2.N) (i : S50000x128.Idx) :
    i ∈ ((cfg2.win 2).blk t).view.set ↔ ∀ a : Fin 2, (cfg2.win 2).index t a * S5000x128.size a ≤ (i a).val ∧ (i a).val < (cfg2.win 2).index t a * S5000x128.size a + S5000x128.size a := by
  show i ∈ ((View.whole (Pipeline.arrRef spec2 2)).slice ((cfg2.win 2).rect t)).set ↔ _
  rw [View.set_slice_whole, Rect.mem_set_unit]
  exact Iff.rfl

theorem cover_rows2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  obtain ⟨-, -, -, -, e0, e1, hf⟩ := rows2_idx t
  refine ⟨t, hf, ?_⟩
  rw [blk2_2_mem]
  intro a
  match a with
  | ⟨0, _⟩ => show (cfg2.win 2).index t (0 : Fin 2) * 5000 ≤ (i 0).val ∧ (i 0).val < (cfg2.win 2).index t (0 : Fin 2) * 5000 + 5000; rw [e0]; show (i 0).val / 5000 * 5000 ≤ (i 0).val ∧ (i 0).val < (i 0).val / 5000 * 5000 + 5000; omega
  | ⟨1, _⟩ => show (cfg2.win 2).index t (1 : Fin 2) * 128 ≤ (i 1).val ∧ (i 1).val < (cfg2.win 2).index t (1 : Fin 2) * 128 + 128; rw [e1]; omega

/-- The row blocks cover the array, so the region's result is the whole matrix product of its operands. -/
theorem arr2_eq (c : Dev nD) :
    (dat2 (F := Ideal) V c).arrAt 2 cfg2.N = Spec.mmArr (V c (Pipeline.arrRef spec2 0)) (V c (Pipeline.arrRef spec2 1)) :=
  (dat2 (F := Ideal) V c).arrAt_eq_of_cover 2 (Spec.mmArr (V c (Pipeline.arrRef spec2 0)) (V c (Pipeline.arrRef spec2 1)))
    (fun t _ => flushed2_eq V c t) (cover_rows2)

end Cert.KernelIdeal.Calls

end
-- ==== Proof.Arr3.lean ====
import proofs.«426581_j30013231464613_1_alg».proof.Proof.Region3
import proofs.«426581_j30013231464613_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Calls

open Cert.KernelIdeal Cert.KernelIdeal.Gen Cert.KernelIdeal.Spec

open Idealize.ShloMosaic Idealize.ShloMosaic.TcCoe Idealize.ShloMosaic.ValueIdx
open Idealize.ShloMosaic.Pipeline (Dat)

theorem k3_pay1_apply (x : Vec Ideal S5000x128 .f32) (b : Vec Ideal S1x128 .f32) (r : Fin 5000) (c : Fin 128) :
    k3_pay1 (F := Ideal) x b (ix2 r c) = max (x (ix2 r c) + b (ix2 (0 : Fin 1) c)) 0 := by
  unfold k3_pay1
  simp only [shapeCast_self]
  show max (x (ix2 r c) + broadcastTo S5000x128 b broadcasts_S1x128_S5000x128 (ix2 r c)) (Ideal.ofBits .f32 0x00000000#32) = _
  rw [Ideal.ofBits_zero_f32]
  exact congrArg (fun z => max (x (ix2 r c) + z) 0) (broadcastTo_1b_ab_apply b broadcasts_S1x128_S5000x128 r c)

variable (V : (c : Dev nD) → (b : Ref sig .tc) → Buf (Elt Ideal) ((c : Thread nD τ).loc b))

theorem rows3_hz : (![0, 0] : Fin 2 → Nat) = fun _ => 0 := funext fun a => by fin_cases a <;> rfl

theorem out3_2_apply (x : Vec Ideal S5000x128 .f32) (b : Vec Ideal S1x128 .f32) (r : Fin 5000) (c : Fin 128) :
    out3_2 (F := Ideal) x b (ix2 r c) = max (x (ix2 r c) + b (ix2 (0 : Fin 1) c)) 0 := by
  unfold out3_2
  rw [View.canon_unit_zero rows3_hz]
  simp only [View.ld_unit_zero (S := S5000x128) rows3_hz, View.ld_unit_zero (S := S1x128) rows3_hz]
  exact k3_pay1_apply x b r c

theorem rows3_idx : ∀ t : Fin cfg3.N, (cfg3.win 0).index t (0 : Fin 2) = t.val ∧ (cfg3.win 0).index t (1 : Fin 2) = 0
    ∧ (cfg3.win 1).index t (0 : Fin 2) = 0 ∧ (cfg3.win 1).index t (1 : Fin 2) = 0
    ∧ (cfg3.win 2).index t (0 : Fin 2) = t.val ∧ (cfg3.win 2).index t (1 : Fin 2) = 0
    ∧ (cfg3.win 2).flush t = true :=
  (by decide +kernel : ∀ t : Fin grid3.N, _)

theorem blk3_0_apply (c : Dev nD) (t : Fin cfg3.N) (y : S5000x128.Idx) (i : S50000x128.Idx)
    (h0 : (i 0).val = 5000 * t.val + (y 0).val) (h1 : (i 1).val = (y 1).val) :
    (iblk3 V c 0 t : Vec Ideal S5000x128 .f32) y = (V c (Pipeline.arrRef spec3 0) : Vec Ideal S50000x128 .f32) i := by
  obtain ⟨e0, e1, -⟩ := rows3_idx t
  unfold iblk3
  rw [View.read_apply]
  show (V c (Pipeline.arrRef spec3 0) : Vec Ideal S50000x128 .f32) _ = (V c (Pipeline.arrRef spec3 0) : Vec Ideal S50000x128 .f32) _
  congr 1
  funext a
  apply Fin.ext
  match a with
  | ⟨0, _⟩ => show (cfg3.win 0).index t (0 : Fin 2) * 5000 + 1 * (y 0).val = (i 0).val; rw [e0, h0]; omega
  | ⟨1, _⟩ => show (cfg3.win 0).index t (1 : Fin 2) * 128 + 1 * (y 1).val = (i 1).val; rw [e1, h1]; omega

theorem blk3_1_apply (c : Dev nD) (t : Fin cfg3.N) (y : S1x128.Idx) :
    (iblk3 V c 1 t : Vec Ideal S1x128 .f32) y = (V c (Pipeline.arrRef spec3 1) : Vec Ideal S1x128 .f32) y := by
  obtain ⟨-, -, e0, e1, -⟩ := rows3_idx t
  unfold iblk3
  rw [View.read_apply]
  show (V c (Pipeline.arrRef spec3 1) : Vec Ideal S1x128 .f32) _ = (V c (Pipeline.arrRef spec3 1) : Vec Ideal S1x128 .f32) _
  congr 1
  funext a
  apply Fin.ext
  match a with
  | ⟨0, _⟩ => show (cfg3.win 1).index t (0 : Fin 2) * 1 + 1 * (y 0).val = (y 0).val; rw [e0]; omega
  | ⟨1, _⟩ => show (cfg3.win 1).index t (1 : Fin 2) * 128 + 1 * (y 1).val = (y 1).val; rw [e1]; omega

theorem blk3_2_emb (t : Fin cfg3.N) (y : S5000x128.Idx) :
    (((((cfg3.win 2).blk t).view.emb y : S50000x128.Idx) 0).val = 5000 * t.val + (y 0).val)
    ∧ (((((cfg3.win 2).blk t).view.emb y : S50000x128.Idx) 1).val = (y 1).val) := by
  obtain ⟨-, -, -, -, e0, e1, -⟩ := rows3_idx t
  constructor
  · show (cfg3.win 2).index t (0 : Fin 2) * 5000 + 1 * (y 0).val = _; rw [e0]; omega
  · show (cfg3.win 2).index t (1 : Fin 2) * 128 + 1 * (y 1).val = _; rw [e1]; omega

theorem flushed3_eq (c : Dev nD) (t : Fin cfg3.N) :
    (dat3 (F := Ideal) V c).flushed 2 t
      = ((cfg3.win 2).blk t).view.read (Elt Ideal) (brArr (V c (Pipeline.arrRef spec3 0)) (V c (Pipeline.arrRef spec3 1))) := by
  show (cfg3.win 2).cut (grid3.coords t) ((dat3 V c).after 2 t) = _
  rw [after3_2]
  funext j
  obtain ⟨r, q, rfl⟩ : ∃ (r : Fin 5000) (q : Fin 128), j = ix2 r q := ⟨j 0, j 1, eq_ix2 j⟩
  obtain ⟨hr, hq⟩ := blk3_2_emb t (ix2 r q)
  show out3_2 (F := Ideal) (iblk3 V c 0 t) (iblk3 V c 1 t) (ix2 r q)
    = brArr (V c (Pipeline.arrRef spec3 0)) (V c (Pipeline.arrRef spec3 1)) (((cfg3.win 2).blk t).view.emb (ix2 r q))
  refine (out3_2_apply (iblk3 V c 0 t) (iblk3 V c 1 t) r q).trans ?_
  unfold brArr
  refine congrArg₂ max (congrArg₂ (· + ·) ?_ ?_) rfl
  · exact blk3_0_apply V c t (ix2 r q) _ hr hq
  · exact (blk3_1_apply V c t (ix2 (0 : Fin 1) q)).trans (congrArg _ (funext fun a => Fin.ext (by
      match a with
      | ⟨0, _⟩ => rfl
      | ⟨1, _⟩ => exact hq.symm)))

theorem blk3_2_mem (t : Fin cfg3.N) (i : S50000x128.Idx) :
    i ∈ ((cfg3.win 2).blk t).view.set ↔ ∀ a : Fin 2, (cfg3.win 2).index t a * S5000x128.size a ≤ (i a).val ∧ (i a).val < (cfg3.win 2).index t a * S5000x128.size a + S5000x128.size a := by
  show i ∈ ((View.whole (Pipeline.arrRef spec3 2)).slice ((cfg3.win 2).rect t)).set ↔ _
  rw [View.set_slice_whole, Rect.mem_set_unit]
  exact Iff.rfl

theorem cover_rows3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  let t : Fin cfg3.N := ⟨(i 0).val / 5000, by show (i 0).val / 5000 < grid3.N; omega⟩
  obtain ⟨-, -, -, -, e0, e1, hf⟩ := rows3_idx t
  refine ⟨t, hf, ?_⟩
  rw [blk3_2_mem]
  intro a
  match a with
  | ⟨0, _⟩ => show (cfg3.win 2).index t (0 : Fin 2) * 5000 ≤ (i 0).val ∧ (i 0).val < (cfg3.win 2).index t (0 : Fin 2) * 5000 + 5000; rw [e0]; show (i 0).val / 5000 * 5000 ≤ (i 0).val ∧ (i 0).val < (i 0).val / 5000 * 5000 + 5000; omega
  | ⟨1, _⟩ => show (cfg3.win 2).index t (1 : Fin 2) * 128 ≤ (i 1).val ∧ (i 1).val < (cfg3.win 2).index t (1 : Fin 2) * 128 + 128; rw [e1]; omega

/-- The row blocks cover the array, so the region's result is max(a + b, 0) of its operands. -/
theorem arr3_eq (c : Dev nD) :
    (dat3 (F := Ideal) V c).arrAt 2 cfg3.N = Spec.brArr (V c (Pipeline.arrRef spec3 0)) (V c (Pipeline.arrRef spec3 1)) :=
  (dat3 (F := Ideal) V c).arrAt_eq_of_cover 2 (Spec.brArr (V c (Pipeline.arrRef spec3 0)) (V c (Pipeline.arrRef spec3 1)))
    (fun t _ => flushed3_eq V c t) (cover_rows3)

end Cert.KernelIdeal.Calls

end
-- ==== Proof.Arr4.lean ====
import proofs.«426581_j30013231464613_1_alg».proof.Proof.Region4
import proofs.«426581_j30013231464613_1_alg».proof.Proof.Spec
import proofs.«426581_j30013231464613_1_alg».proof.Proof.MmPay
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.Calls

open Cert.KernelIdeal Cert.KernelIdeal.Gen Cert.KernelIdeal.Spec

open Idealize.ShloMosaic Idealize.ShloMosaic.TcCoe Idealize.ShloMosaic.ValueIdx
open Idealize.ShloMosaic.Pipeline (Dat)

theorem k4_pay1_apply (x : Vec Ideal S5000x128 .f32) (w : Vec Ideal S128x128 .f32) (r : Fin 5000) (c : Fin 128) :
    k4_pay1 (F := Ideal) x w (ix2 r c) = ∑ n : Fin 128, x (ix2 r n) * w (ix2 n c) := by
  unfold k4_pay1
  try simp only [shapeCast_self]
  exact mm_apply x w r c

variable (V : (c : Dev nD) → (b : Ref sig .tc) → Buf (Elt Ideal) ((c : Thread nD τ).loc b))

theorem rows4_hz : (![0, 0] : Fin 2 → Nat) = fun _ => 0 := funext fun a => by fin_cases a <;> rfl

theorem out4_2_apply (x : Vec Ideal S5000x128 .f32) (w : Vec Ideal S128x128 .f32) (r : Fin 5000) (c : Fin 128) :
    out4_2 (F := Ideal) x w (ix2 r c) = ∑ n : Fin 128, x (ix2 r n) * w (ix2 n c) := by
  unfold out4_2
  rw [View.canon_unit_zero rows4_hz]
  simp only [View.ld_unit_zero (S := S5000x128) rows4_hz, View.ld_unit_zero (S := S128x128) rows4_hz]
  exact k4_pay1_apply x w r c

theorem rows4_idx : ∀ t : Fin cfg4.N, (cfg4.win 0).index t (0 : Fin 2) = t.val ∧ (cfg4.win 0).index t (1 : Fin 2) = 0
    ∧ (cfg4.win 1).index t (0 : Fin 2) = 0 ∧ (cfg4.win 1).index t (1 : Fin 2) = 0
    ∧ (cfg4.win 2).index t (0 : Fin 2) = t.val ∧ (cfg4.win 2).index t (1 : Fin 2) = 0
    ∧ (cfg4.win 2).flush t = true :=
  (by decide +kernel : ∀ t : Fin grid4.N, _)

theorem blk4_0_apply (c : Dev nD) (t : Fin cfg4.N) (y : S5000x128.Idx) (i : S50000x128.Idx)
    (h0 : (i 0).val = 5000 * t.val + (y 0).val) (h1 : (i 1).val = (y 1).val) :
    (iblk4 V c 0 t : Vec Ideal S5000x128 .f32) y = (V c (Pipeline.arrRef spec4 0) : Vec Ideal S50000x128 .f32) i := by
  obtain ⟨e0, e1, -⟩ := rows4_idx t
  unfold iblk4
  rw [View.read_apply]
  show (V c (Pipeline.arrRef spec4 0) : Vec Ideal S50000x128 .f32) _ = (V c (Pipeline.arrRef spec4 0) : Vec Ideal S50000x128 .f32) _
  congr 1
  funext a
  apply Fin.ext
  match a with
  | ⟨0, _⟩ => show (cfg4.win 0).index t (0 : Fin 2) * 5000 + 1 * (y 0).val = (i 0).val; rw [e0, h0]; omega
  | ⟨1, _⟩ => show (cfg4.win 0).index t (1 : Fin 2) * 128 + 1 * (y 1).val = (i 1).val; rw [e1, h1]; omega

theorem blk4_1_apply (c : Dev nD) (t : Fin cfg4.N) (y : S128x128.Idx) :
    (iblk4 V c 1 t : Vec Ideal S128x128 .f32) y = (V c (Pipeline.arrRef spec4 1) : Vec Ideal S128x128 .f32) y := by
  obtain ⟨-, -, e0, e1, -⟩ := rows4_idx t
  unfold iblk4
  rw [View.read_apply]
  show (V c (Pipeline.arrRef spec4 1) : Vec Ideal S128x128 .f32) _ = (V c (Pipeline.arrRef spec4 1) : Vec Ideal S128x128 .f32) _
  congr 1
  funext a
  apply Fin.ext
  match a with
  | ⟨0, _⟩ => show (cfg4.win 1).index t (0 : Fin 2) * 128 + 1 * (y 0).val = (y 0).val; rw [e0]; omega
  | ⟨1, _⟩ => show (cfg4.win 1).index t (1 : Fin 2) * 128 + 1 * (y 1).val = (y 1).val; rw [e1]; omega

theorem blk4_2_emb (t : Fin cfg4.N) (y : S5000x128.Idx) :
    (((((cfg4.win 2).blk t).view.emb y : S50000x128.Idx) 0).val = 5000 * t.val + (y 0).val)
    ∧ (((((cfg4.win 2).blk t).view.emb y : S50000x128.Idx) 1).val = (y 1).val) := by
  obtain ⟨-, -, -, -, e0, e1, -⟩ := rows4_idx t
  constructor
  · show (cfg4.win 2).index t (0 : Fin 2) * 5000 + 1 * (y 0).val = _; rw [e0]; omega
  · show (cfg4.win 2).index t (1 : Fin 2) * 128 + 1 * (y 1).val = _; rw [e1]; omega

theorem flushed4_eq (c : Dev nD) (t : Fin cfg4.N) :
    (dat4 (F := Ideal) V c).flushed 2 t
      = ((cfg4.win 2).blk t).view.read (Elt Ideal) (mmArr (V c (Pipeline.arrRef spec4 0)) (V c (Pipeline.arrRef spec4 1))) := by
  show (cfg4.win 2).cut (grid4.coords t) ((dat4 V c).after 2 t) = _
  rw [after4_2]
  funext j
  obtain ⟨r, q, rfl⟩ : ∃ (r : Fin 5000) (q : Fin 128), j = ix2 r q := ⟨j 0, j 1, eq_ix2 j⟩
  obtain ⟨hr, hq⟩ := blk4_2_emb t (ix2 r q)
  show out4_2 (F := Ideal) (iblk4 V c 0 t) (iblk4 V c 1 t) (ix2 r q)
    = mmArr (V c (Pipeline.arrRef spec4 0)) (V c (Pipeline.arrRef spec4 1)) (((cfg4.win 2).blk t).view.emb (ix2 r q))
  refine (out4_2_apply (iblk4 V c 0 t) (iblk4 V c 1 t) r q).trans ?_
  unfold mmArr
  refine Finset.sum_congr rfl fun n _ => ?_
  congr 1
  · exact blk4_0_apply V c t (ix2 r n) _ hr rfl
  · exact (blk4_1_apply V c t (ix2 n q)).trans (congrArg _ (funext fun a => Fin.ext (by
      match a with
      | ⟨0, _⟩ => rfl
      | ⟨1, _⟩ => exact hq.symm)))

theorem blk4_2_mem (t : Fin cfg4.N) (i : S50000x128.Idx) :
    i ∈ ((cfg4.win 2).blk t).view.set ↔ ∀ a : Fin 2, (cfg4.win 2).index t a * S5000x128.size a ≤ (i a).val ∧ (i a).val < (cfg4.win 2).index t a * S5000x128.size a + S5000x128.size a := by
  show i ∈ ((View.whole (Pipeline.arrRef spec4 2)).slice ((cfg4.win 2).rect t)).set ↔ _
  rw [View.set_slice_whole, Rect.mem_set_unit]
  exact Iff.rfl

theorem cover_rows4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : grid4.N = 10 := N_4
  let t : Fin cfg4.N := ⟨(i 0).val / 5000, by show (i 0).val / 5000 < grid4.N; omega⟩
  obtain ⟨-, -, -, -, e0, e1, hf⟩ := rows4_idx t
  refine ⟨t, hf, ?_⟩
  rw [blk4_2_mem]
  intro a
  match a with
  | ⟨0, _⟩ => show (cfg4.win 2).index t (0 : Fin 2) * 5000 ≤ (i 0).val ∧ (i 0).val < (cfg4.win 2).index t (0 : Fin 2) * 5000 + 5000; rw [e0]; show (i 0).val / 5000 * 5000 ≤ (i 0).val ∧ (i 0).val < (i 0).val / 5000 * 5000 + 5000; omega
  | ⟨1, _⟩ => show (cfg4.win 2).index t (1 : Fin 2) * 128 ≤ (i 1).val ∧ (i 1).val < (cfg4.win 2).index t (1 : Fin 2) * 128 + 128; rw [e1]; omega

/-- The row blocks cover the array, so the region's result is the whole matrix product of its operands. -/
theorem arr4_eq (c : Dev nD) :
    (dat4 (F := Ideal) V c).arrAt 2 cfg4.N = Spec.mmArr (V c (Pipeline.arrRef spec4 0)) (V c (Pipeline.arrRef spec4 1)) :=
  (dat4 (F := Ideal) V c).arrAt_eq_of_cover 2 (Spec.mmArr (V c (Pipeline.arrRef spec4 0)) (V c (Pipeline.arrRef spec4 1)))
    (fun t _ => flushed4_eq V c t) (cover_rows4)

end Cert.KernelIdeal.Calls

end
-- ==== Proof.Arr5.lean ====
import proofs.«426581_j30013231464613_1_alg».proof.Proof.Region5
import proofs.«426581_j30013231464613_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Calls

open Cert.KernelIdeal Cert.KernelIdeal.Gen Cert.KernelIdeal.Spec

open Idealize.ShloMosaic Idealize.ShloMosaic.TcCoe Idealize.ShloMosaic.ValueIdx
open Idealize.ShloMosaic.Pipeline (Dat)

theorem k5_pay1_apply (x : Vec Ideal S5000x128 .f32) (b : Vec Ideal S1x128 .f32) (r : Fin 5000) (c : Fin 128) :
    k5_pay1 (F := Ideal) x b (ix2 r c) = max (x (ix2 r c) + b (ix2 (0 : Fin 1) c)) 0 := by
  unfold k5_pay1
  simp only [shapeCast_self]
  show max (x (ix2 r c) + broadcastTo S5000x128 b broadcasts_S1x128_S5000x128 (ix2 r c)) (Ideal.ofBits .f32 0x00000000#32) = _
  rw [Ideal.ofBits_zero_f32]
  exact congrArg (fun z => max (x (ix2 r c) + z) 0) (broadcastTo_1b_ab_apply b broadcasts_S1x128_S5000x128 r c)

variable (V : (c : Dev nD) → (b : Ref sig .tc) → Buf (Elt Ideal) ((c : Thread nD τ).loc b))

theorem rows5_hz : (![0, 0] : Fin 2 → Nat) = fun _ => 0 := funext fun a => by fin_cases a <;> rfl

theorem out5_2_apply (x : Vec Ideal S5000x128 .f32) (b : Vec Ideal S1x128 .f32) (r : Fin 5000) (c : Fin 128) :
    out5_2 (F := Ideal) x b (ix2 r c) = max (x (ix2 r c) + b (ix2 (0 : Fin 1) c)) 0 := by
  unfold out5_2
  rw [View.canon_unit_zero rows5_hz]
  simp only [View.ld_unit_zero (S := S5000x128) rows5_hz, View.ld_unit_zero (S := S1x128) rows5_hz]
  exact k5_pay1_apply x b r c

theorem rows5_idx : ∀ t : Fin cfg5.N, (cfg5.win 0).index t (0 : Fin 2) = t.val ∧ (cfg5.win 0).index t (1 : Fin 2) = 0
    ∧ (cfg5.win 1).index t (0 : Fin 2) = 0 ∧ (cfg5.win 1).index t (1 : Fin 2) = 0
    ∧ (cfg5.win 2).index t (0 : Fin 2) = t.val ∧ (cfg5.win 2).index t (1 : Fin 2) = 0
    ∧ (cfg5.win 2).flush t = true :=
  (by decide +kernel : ∀ t : Fin grid5.N, _)

theorem blk5_0_apply (c : Dev nD) (t : Fin cfg5.N) (y : S5000x128.Idx) (i : S50000x128.Idx)
    (h0 : (i 0).val = 5000 * t.val + (y 0).val) (h1 : (i 1).val = (y 1).val) :
    (iblk5 V c 0 t : Vec Ideal S5000x128 .f32) y = (V c (Pipeline.arrRef spec5 0) : Vec Ideal S50000x128 .f32) i := by
  obtain ⟨e0, e1, -⟩ := rows5_idx t
  unfold iblk5
  rw [View.read_apply]
  show (V c (Pipeline.arrRef spec5 0) : Vec Ideal S50000x128 .f32) _ = (V c (Pipeline.arrRef spec5 0) : Vec Ideal S50000x128 .f32) _
  congr 1
  funext a
  apply Fin.ext
  match a with
  | ⟨0, _⟩ => show (cfg5.win 0).index t (0 : Fin 2) * 5000 + 1 * (y 0).val = (i 0).val; rw [e0, h0]; omega
  | ⟨1, _⟩ => show (cfg5.win 0).index t (1 : Fin 2) * 128 + 1 * (y 1).val = (i 1).val; rw [e1, h1]; omega

theorem blk5_1_apply (c : Dev nD) (t : Fin cfg5.N) (y : S1x128.Idx) :
    (iblk5 V c 1 t : Vec Ideal S1x128 .f32) y = (V c (Pipeline.arrRef spec5 1) : Vec Ideal S1x128 .f32) y := by
  obtain ⟨-, -, e0, e1, -⟩ := rows5_idx t
  unfold iblk5
  rw [View.read_apply]
  show (V c (Pipeline.arrRef spec5 1) : Vec Ideal S1x128 .f32) _ = (V c (Pipeline.arrRef spec5 1) : Vec Ideal S1x128 .f32) _
  congr 1
  funext a
  apply Fin.ext
  match a with
  | ⟨0, _⟩ => show (cfg5.win 1).index t (0 : Fin 2) * 1 + 1 * (y 0).val = (y 0).val; rw [e0]; omega
  | ⟨1, _⟩ => show (cfg5.win 1).index t (1 : Fin 2) * 128 + 1 * (y 1).val = (y 1).val; rw [e1]; omega

theorem blk5_2_emb (t : Fin cfg5.N) (y : S5000x128.Idx) :
    (((((cfg5.win 2).blk t).view.emb y : S50000x128.Idx) 0).val = 5000 * t.val + (y 0).val)
    ∧ (((((cfg5.win 2).blk t).view.emb y : S50000x128.Idx) 1).val = (y 1).val) := by
  obtain ⟨-, -, -, -, e0, e1, -⟩ := rows5_idx t
  constructor
  · show (cfg5.win 2).index t (0 : Fin 2) * 5000 + 1 * (y 0).val = _; rw [e0]; omega
  · show (cfg5.win 2).index t (1 : Fin 2) * 128 + 1 * (y 1).val = _; rw [e1]; omega

theorem flushed5_eq (c : Dev nD) (t : Fin cfg5.N) :
    (dat5 (F := Ideal) V c).flushed 2 t
      = ((cfg5.win 2).blk t).view.read (Elt Ideal) (brArr (V c (Pipeline.arrRef spec5 0)) (V c (Pipeline.arrRef spec5 1))) := by
  show (cfg5.win 2).cut (grid5.coords t) ((dat5 V c).after 2 t) = _
  rw [after5_2]
  funext j
  obtain ⟨r, q, rfl⟩ : ∃ (r : Fin 5000) (q : Fin 128), j = ix2 r q := ⟨j 0, j 1, eq_ix2 j⟩
  obtain ⟨hr, hq⟩ := blk5_2_emb t (ix2 r q)
  show out5_2 (F := Ideal) (iblk5 V c 0 t) (iblk5 V c 1 t) (ix2 r q)
    = brArr (V c (Pipeline.arrRef spec5 0)) (V c (Pipeline.arrRef spec5 1)) (((cfg5.win 2).blk t).view.emb (ix2 r q))
  refine (out5_2_apply (iblk5 V c 0 t) (iblk5 V c 1 t) r q).trans ?_
  unfold brArr
  refine congrArg₂ max (congrArg₂ (· + ·) ?_ ?_) rfl
  · exact blk5_0_apply V c t (ix2 r q) _ hr hq
  · exact (blk5_1_apply V c t (ix2 (0 : Fin 1) q)).trans (congrArg _ (funext fun a => Fin.ext (by
      match a with
      | ⟨0, _⟩ => rfl
      | ⟨1, _⟩ => exact hq.symm)))

theorem blk5_2_mem (t : Fin cfg5.N) (i : S50000x128.Idx) :
    i ∈ ((cfg5.win 2).blk t).view.set ↔ ∀ a : Fin 2, (cfg5.win 2).index t a * S5000x128.size a ≤ (i a).val ∧ (i a).val < (cfg5.win 2).index t a * S5000x128.size a + S5000x128.size a := by
  show i ∈ ((View.whole (Pipeline.arrRef spec5 2)).slice ((cfg5.win 2).rect t)).set ↔ _
  rw [View.set_slice_whole, Rect.mem_set_unit]
  exact Iff.rfl

theorem cover_rows5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : grid5.N = 10 := N_5
  let t : Fin cfg5.N := ⟨(i 0).val / 5000, by show (i 0).val / 5000 < grid5.N; omega⟩
  obtain ⟨-, -, -, -, e0, e1, hf⟩ := rows5_idx t
  refine ⟨t, hf, ?_⟩
  rw [blk5_2_mem]
  intro a
  match a with
  | ⟨0, _⟩ => show (cfg5.win 2).index t (0 : Fin 2) * 5000 ≤ (i 0).val ∧ (i 0).val < (cfg5.win 2).index t (0 : Fin 2) * 5000 + 5000; rw [e0]; show (i 0).val / 5000 * 5000 ≤ (i 0).val ∧ (i 0).val < (i 0).val / 5000 * 5000 + 5000; omega
  | ⟨1, _⟩ => show (cfg5.win 2).index t (1 : Fin 2) * 128 ≤ (i 1).val ∧ (i 1).val < (cfg5.win 2).index t (1 : Fin 2) * 128 + 128; rw [e1]; omega

/-- The row blocks cover the array, so the region's result is max(a + b, 0) of its operands. -/
theorem arr5_eq (c : Dev nD) :
    (dat5 (F := Ideal) V c).arrAt 2 cfg5.N = Spec.brArr (V c (Pipeline.arrRef spec5 0)) (V c (Pipeline.arrRef spec5 1)) :=
  (dat5 (F := Ideal) V c).arrAt_eq_of_cover 2 (Spec.brArr (V c (Pipeline.arrRef spec5 0)) (V c (Pipeline.arrRef spec5 1)))
    (fun t _ => flushed5_eq V c t) (cover_rows5)

end Cert.KernelIdeal.Calls

end
-- ==== Proof.RefStages.lean ====
import proofs.«426581_j30013231464613_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S50000x128, .f32⟩ : BufTy).Contents (Elt F)) (x1 : (⟨S2x800000, .i32⟩ : BufTy).Contents (Elt F)) (x2 : (⟨S50000, .i32⟩ : BufTy).Contents (Elt F))
  (x3 : (⟨S128x128, .f32⟩ : BufTy).Contents (Elt F)) (x4 : (⟨S128, .f32⟩ : BufTy).Contents (Elt F)) (x5 : (⟨S128x128, .f32⟩ : BufTy).Contents (Elt F))
  (x6 : (⟨S128, .f32⟩ : BufTy).Contents (Elt F)) (x7 : (⟨S128x128, .f32⟩ : BufTy).Contents (Elt F)) (x8 : (⟨S128, .f32⟩ : BufTy).Contents (Elt F))

def val_main_v0 : (⟨S50000, .i32⟩ : BufTy).Contents (Elt F) :=
  iotaInDim S50000 32 0

def val_main_v1 : (⟨S1x800000, .i32⟩ : BufTy).Contents (Elt F) :=
  extractStridedSlice S1x800000 ![0, 0] (x1) slices_S2x800000_S1x800000_0_0

def val_main_v2 : (⟨S800000, .i32⟩ : BufTy).Contents (Elt F) :=
  shapeCast _ (val_main_v1 (F := F) x1) shapeCasts_S1x800000_S800000

def val_main_v3 : (⟨S850000, .i32⟩ : BufTy).Contents (Elt F) :=
  concatenate S850000 0 [⟨S800000, (val_main_v2 (F := F) x1)⟩, ⟨S50000, (val_main_v0 (F := F))⟩] concatenates_S800000_S50000_S850000_d0

def val_main_v4 : (⟨S1x800000, .i32⟩ : BufTy).Contents (Elt F) :=
  extractStridedSlice S1x800000 ![1, 0] (x1) slices_S2x800000_S1x800000_1_0

def val_main_v5 : (⟨S800000, .i32⟩ : BufTy).Contents (Elt F) :=
  shapeCast _ (val_main_v4 (F := F) x1) shapeCasts_S1x800000_S800000

def val_main_v6 : (⟨S850000, .i32⟩ : BufTy).Contents (Elt F) :=
  concatenate S850000 0 [⟨S800000, (val_main_v5 (F := F) x1)⟩, ⟨S50000, (val_main_v0 (F := F))⟩] concatenates_S800000_S50000_S850000_d0

def val_main_cst : (⟨S_, .f32⟩ : BufTy).Contents (Elt F) :=
  constant S_ .f32 0x3F800000#32

def val_main_v7 : (⟨S850000, .f32⟩ : BufTy).Contents (Elt F) :=
  broadcastInDim S850000 ![] bcast_S_S850000 (val_main_cst (F := F))

def val_main_cst_0 : (⟨S_, .f32⟩ : BufTy).Contents (Elt F) :=
  constant S_ .f32 0x00000000#32

def val_main_v8 : (⟨S50000, .f32⟩ : BufTy).Contents (Elt F) :=
  broadcastInDim S50000 ![] bcast_S_S50000 (val_main_cst_0 (F := F))

def val_main_v9 : (⟨S850000x1, .i32⟩ : BufTy).Contents (Elt F) :=
  broadcastInDim S850000x1 ![0] bcast_S850000_S850000x1_0 (val_main_v6 (F := F) x1)

def val_main_v10 : (⟨S50000, .f32⟩ : BufTy).Contents (Elt F) :=
  Host.scatterAdd scatter_S50000_S850000x1_S850000_n_0_0_1 (val_main_v8 (F := F)) (val_main_v9 (F := F) x1) (val_main_v7 (F := F))

def val_main_cst_1 : (⟨S_, .f32⟩ : BufTy).Contents (Elt F) :=
  constant S_ .f32 0x00000000#32

def val_main_v11 : (⟨S50000, .f32⟩ : BufTy).Contents (Elt F) :=
  broadcastInDim S50000 ![] bcast_S_S50000 (val_main_cst_1 (F := F))

def val_main_v12 : (⟨S50000, .i1⟩ : BufTy).Contents (Elt F) :=
  cmpf (F := F) .ogt (val_main_v10 (F := F) x1) (val_main_v11 (F := F))

def val_main_v13 : (⟨S50000, .f32⟩ : BufTy).Contents (Elt F) :=
  Host.rsqrt (val_main_v10 (F := F) x1)

def val_main_cst_2 : (⟨S_, .f32⟩ : BufTy).Contents (Elt F) :=
  constant S_ .f32 0x00000000#32

def val_main_call0_v0 : (⟨S_, .f32⟩ : BufTy).Contents (Elt F) :=
  id (val_main_cst_2 (F := F))

def val_main_call0_v1 : (⟨S50000, .f32⟩ : BufTy).Contents (Elt F) :=
  broadcastInDim S50000 ![] bcast_S_S50000 (val_main_call0_v0 (F := F))

def val_main_v14 : (⟨S50000, .f32⟩ : BufTy).Contents (Elt F) :=
  select (val_main_v12 (F := F) x1) (val_main_v13 (F := F) x1) (val_main_call0_v1 (F := F))

def val_main_c : (⟨S_, .i32⟩ : BufTy).Contents (Elt F) :=
  constantI S_ 32 0#32

def val_main_v15 : (⟨S850000, .i32⟩ : BufTy).Contents (Elt F) :=
  broadcastInDim S850000 ![] bcast_S_S850000 (val_main_c (F := F))

def val_main_v16 : (⟨S850000, .i1⟩ : BufTy).Contents (Elt F) :=
  cmpi .slt (val_main_v3 (F := F) x1) (val_main_v15 (F := F))

def val_main_c_3 : (⟨S_, .i32⟩ : BufTy).Contents (Elt F) :=
  constantI S_ 32 50000#32

def val_main_v17 : (⟨S850000, .i32⟩ : BufTy).Contents (Elt F) :=
  broadcastInDim S850000 ![] bcast_S_S850000 (val_main_c_3 (F := F))

def val_main_v18 : (⟨S850000, .i32⟩ : BufTy).Contents (Elt F) :=
  addi (val_main_v3 (F := F) x1) (val_main_v17 (F := F))

def val_main_v19 : (⟨S850000, .i32⟩ : BufTy).Contents (Elt F) :=
  select (val_main_v16 (F := F) x1) (val_main_v18 (F := F) x1) (val_main_v3 (F := F) x1)

def val_main_v20 : (⟨S850000x1, .i32⟩ : BufTy).Contents (Elt F) :=
  broadcastInDim S850000x1 ![0] bcast_S850000_S850000x1_0 (val_main_v19 (F := F) x1)

def val_main_v21 : (⟨S850000, .f32⟩ : BufTy).Contents (Elt F) :=
  Host.gather gather_S50000_S850000x1_S850000_n_0_n_n_0_1_1 (val_main_v14 (F := F) x1) (val_main_v20 (F := F) x1)

def val_main_c_4 : (⟨S_, .i32⟩ : BufTy).Contents (Elt F) :=
  constantI S_ 32 0#32

def val_main_v22 : (⟨S850000, .i32⟩ : BufTy).Contents (Elt F) :=
  broadcastInDim S850000 ![] bcast_S_S850000 (val_main_c_4 (F := F))

def val_main_v23 : (⟨S850000, .i1⟩ : BufTy).Contents (Elt F) :=
  cmpi .slt (val_main_v6 (F := F) x1) (val_main_v22 (F := F))

def val_main_c_5 : (⟨S_, .i32⟩ : BufTy).Contents (Elt F) :=
  constantI S_ 32 50000#32

def val_main_v24 : (⟨S850000, .i32⟩ : BufTy).Contents (Elt F) :=
  broadcastInDim S850000 ![] bcast_S_S850000 (val_main_c_5 (F := F))

def val_main_v25 : (⟨S850000, .i32⟩ : BufTy).Contents (Elt F) :=
  addi (val_main_v6 (F := F) x1) (val_main_v24 (F := F))

def val_main_v26 : (⟨S850000, .i32⟩ : BufTy).Contents (Elt F) :=
  select (val_main_v23 (F := F) x1) (val_main_v25 (F := F) x1) (val_main_v6 (F := F) x1)

def val_main_v27 : (⟨S850000x1, .i32⟩ : BufTy).Contents (Elt F) :=
  broadcastInDim S850000x1 ![0] bcast_S850000_S850000x1_0 (val_main_v26 (F := F) x1)

def val_main_v28 : (⟨S850000, .f32⟩ : BufTy).Contents (Elt F) :=
  Host.gather gather_S50000_S850000x1_S850000_n_0_n_n_0_1_1 (val_main_v14 (F := F) x1) (val_main_v27 (F := F) x1)

def val_main_v29 : (⟨S850000, .f32⟩ : BufTy).Contents (Elt F) :=
  mulf (val_main_v21 (F := F) x1) (val_main_v28 (F := F) x1)

def val_main_v30 : (⟨S50000x128, .f32⟩ : BufTy).Contents (Elt F) :=
  Host.dotGeneral dot_S50000x128_S128x128_S50000x128_1_0_0_1_n_n none (x0) (x3)

def val_main_c_6 : (⟨S_, .i32⟩ : BufTy).Contents (Elt F) :=
  constantI S_ 32 0#32

def val_main_v31 : (⟨S850000, .i32⟩ : BufTy).Contents (Elt F) :=
  broadcastInDim S850000 ![] bcast_S_S850000 (val_main_c_6 (F := F))

def val_main_v32 : (⟨S850000, .i1⟩ : BufTy).Contents (Elt F) :=
  cmpi .slt (val_main_v3 (F := F) x1) (val_main_v31 (F := F))

def val_main_c_7 : (⟨S_, .i32⟩ : BufTy).Contents (Elt F) :=
  constantI S_ 32 50000#32

def val_main_v33 : (⟨S850000, .i32⟩ : BufTy).Contents (Elt F) :=
  broadcastInDim S850000 ![] bcast_S_S850000 (val_main_c_7 (F := F))

def val_main_v34 : (⟨S850000, .i32⟩ : BufTy).Contents (Elt F) :=
  addi (val_main_v3 (F := F) x1) (val_main_v33 (F := F))

def val_main_v35 : (⟨S850000, .i32⟩ : BufTy).Contents (Elt F) :=
  select (val_main_v32 (F := F) x1) (val_main_v34 (F := F) x1) (val_main_v3 (F := F) x1)

def val_main_v36 : (⟨S850000x1, .i32⟩ : BufTy).Contents (Elt F) :=
  broadcastInDim S850000x1 ![0] bcast_S850000_S850000x1_0 (val_main_v35 (F := F) x1)

def val_main_v37 : (⟨S850000x128, .f32⟩ : BufTy).Contents (Elt F) :=
  Host.gather gather_S50000x128_S850000x1_S850000x128_1_0_n_n_0_1_1128 (val_main_v30 (F := F) x0 x3) (val_main_v36 (F := F) x1)

def val_main_v38 : (⟨S850000x1, .f32⟩ : BufTy).Contents (Elt F) :=
  broadcastInDim S850000x1 ![0] bcast_S850000_S850000x1_0 (val_main_v29 (F := F) x1)

def val_main_v39 : (⟨S850000x128, .f32⟩ : BufTy).Contents (Elt F) :=
  broadcastInDim S850000x128 ![0, 1] bcast_S850000x1_S850000x128_0_1 (val_main_v38 (F := F) x1)

def val_main_v40 : (⟨S850000x128, .f32⟩ : BufTy).Contents (Elt F) :=
  mulf (val_main_v37 (F := F) x0 x1 x3) (val_main_v39 (F := F) x1)

def val_main_cst_8 : (⟨S_, .f32⟩ : BufTy).Contents (Elt F) :=
  constant S_ .f32 0x00000000#32

def val_main_v41 : (⟨S50000x128, .f32⟩ : BufTy).Contents (Elt F) :=
  broadcastInDim S50000x128 ![] bcast_S_S50000x128 (val_main_cst_8 (F := F))

def val_main_v42 : (⟨S850000x1, .i32⟩ : BufTy).Contents (Elt F) :=
  broadcastInDim S850000x1 ![0] bcast_S850000_S850000x1_0 (val_main_v6 (F := F) x1)

def val_main_v43 : (⟨S50000x128, .f32⟩ : BufTy).Contents (Elt F) :=
  Host.scatterAdd scatter_S50000x128_S850000x1_S850000x128_1_0_0_1 (val_main_v41 (F := F)) (val_main_v42 (F := F) x1) (val_main_v40 (F := F) x0 x1 x3)

def val_main_v44 : (⟨S1x128, .f32⟩ : BufTy).Contents (Elt F) :=
  broadcastInDim S1x128 ![1] bcast_S128_S1x128_1 (x4)

def val_main_v45 : (⟨S50000x128, .f32⟩ : BufTy).Contents (Elt F) :=
  broadcastInDim S50000x128 ![0, 1] bcast_S1x128_S50000x128_0_1 (val_main_v44 (F := F) x4)

def val_main_v46 : (⟨S50000x128, .f32⟩ : BufTy).Contents (Elt F) :=
  addf (val_main_v43 (F := F) x0 x1 x3) (val_main_v45 (F := F) x4)

def val_main_call1_cst : (⟨S_, .f32⟩ : BufTy).Contents (Elt F) :=
  constant S_ .f32 0x00000000#32

def val_main_call1_v0 : (⟨S50000x128, .f32⟩ : BufTy).Contents (Elt F) :=
  broadcastInDim S50000x128 ![] bcast_S_S50000x128 (val_main_call1_cst (F := F))

def val_main_v47 : (⟨S50000x128, .f32⟩ : BufTy).Contents (Elt F) :=
  maximumf (val_main_v46 (F := F) x0 x1 x3 x4) (val_main_call1_v0 (F := F))

def val_main_v48 : (⟨S50000x128, .f32⟩ : BufTy).Contents (Elt F) :=
  Host.dotGeneral dot_S50000x128_S128x128_S50000x128_1_0_0_1_n_n none (val_main_v47 (F := F) x0 x1 x3 x4) (x5)

def val_main_c_9 : (⟨S_, .i32⟩ : BufTy).Contents (Elt F) :=
  constantI S_ 32 0#32

def val_main_v49 : (⟨S850000, .i32⟩ : BufTy).Contents (Elt F) :=
  broadcastInDim S850000 ![] bcast_S_S850000 (val_main_c_9 (F := F))

def val_main_v50 : (⟨S850000, .i1⟩ : BufTy).Contents (Elt F) :=
  cmpi .slt (val_main_v3 (F := F) x1) (val_main_v49 (F := F))

def val_main_c_10 : (⟨S_, .i32⟩ : BufTy).Contents (Elt F) :=
  constantI S_ 32 50000#32

def val_main_v51 : (⟨S850000, .i32⟩ : BufTy).Contents (Elt F) :=
  broadcastInDim S850000 ![] bcast_S_S850000 (val_main_c_10 (F := F))

def val_main_v52 : (⟨S850000, .i32⟩ : BufTy).Contents (Elt F) :=
  addi (val_main_v3 (F := F) x1) (val_main_v51 (F := F))

def val_main_v53 : (⟨S850000, .i32⟩ : BufTy).Contents (Elt F) :=
  select (val_main_v50 (F := F) x1) (val_main_v52 (F := F) x1) (val_main_v3 (F := F) x1)

def val_main_v54 : (⟨S850000x1, .i32⟩ : BufTy).Contents (Elt F) :=
  broadcastInDim S850000x1 ![0] bcast_S850000_S850000x1_0 (val_main_v53 (F := F) x1)

def val_main_v55 : (⟨S850000x128, .f32⟩ : BufTy).Contents (Elt F) :=
  Host.gather gather_S50000x128_S850000x1_S850000x128_1_0_n_n_0_1_1128 (val_main_v48 (F := F) x0 x1 x3 x4 x5) (val_main_v54 (F := F) x1)

def val_main_v56 : (⟨S850000x1, .f32⟩ : BufTy).Contents (Elt F) :=
  broadcastInDim S850000x1 ![0] bcast_S850000_S850000x1_0 (val_main_v29 (F := F) x1)

def val_main_v57 : (⟨S850000x128, .f32⟩ : BufTy).Contents (Elt F) :=
  broadcastInDim S850000x128 ![0, 1] bcast_S850000x1_S850000x128_0_1 (val_main_v56 (F := F) x1)

def val_main_v58 : (⟨S850000x128, .f32⟩ : BufTy).Contents (Elt F) :=
  mulf (val_main_v55 (F := F) x0 x1 x3 x4 x5) (val_main_v57 (F := F) x1)

def val_main_cst_11 : (⟨S_, .f32⟩ : BufTy).Contents (Elt F) :=
  constant S_ .f32 0x00000000#32

def val_main_v59 : (⟨S50000x128, .f32⟩ : BufTy).Contents (Elt F) :=
  broadcastInDim S50000x128 ![] bcast_S_S50000x128 (val_main_cst_11 (F := F))

def val_main_v60 : (⟨S850000x1, .i32⟩ : BufTy).Contents (Elt F) :=
  broadcastInDim S850000x1 ![0] bcast_S850000_S850000x1_0 (val_main_v6 (F := F) x1)

def val_main_v61 : (⟨S50000x128, .f32⟩ : BufTy).Contents (Elt F) :=
  Host.scatterAdd scatter_S50000x128_S850000x1_S850000x128_1_0_0_1 (val_main_v59 (F := F)) (val_main_v60 (F := F) x1) (val_main_v58 (F := F) x0 x1 x3 x4 x5)

def val_main_v62 : (⟨S1x128, .f32⟩ : BufTy).Contents (Elt F) :=
  broadcastInDim S1x128 ![1] bcast_S128_S1x128_1 (x6)

def val_main_v63 : (⟨S50000x128, .f32⟩ : BufTy).Contents (Elt F) :=
  broadcastInDim S50000x128 ![0, 1] bcast_S1x128_S50000x128_0_1 (val_main_v62 (F := F) x6)

def val_main_v64 : (⟨S50000x128, .f32⟩ : BufTy).Contents (Elt F) :=
  addf (val_main_v61 (F := F) x0 x1 x3 x4 x5) (val_main_v63 (F := F) x6)

def val_main_call2_cst : (⟨S_, .f32⟩ : BufTy).Contents (Elt F) :=
  constant S_ .f32 0x00000000#32

def val_main_call2_v0 : (⟨S50000x128, .f32⟩ : BufTy).Contents (Elt F) :=
  broadcastInDim S50000x128 ![] bcast_S_S50000x128 (val_main_call2_cst (F := F))

def val_main_v65 : (⟨S50000x128, .f32⟩ : BufTy).Contents (Elt F) :=
  maximumf (val_main_v64 (F := F) x0 x1 x3 x4 x5 x6) (val_main_call2_v0 (F := F))

def val_main_v66 : (⟨S50000x128, .f32⟩ : BufTy).Contents (Elt F) :=
  Host.dotGeneral dot_S50000x128_S128x128_S50000x128_1_0_0_1_n_n none (val_main_v65 (F := F) x0 x1 x3 x4 x5 x6) (x7)

def val_main_c_12 : (⟨S_, .i32⟩ : BufTy).Contents (Elt F) :=
  constantI S_ 32 0#32

def val_main_v67 : (⟨S850000, .i32⟩ : BufTy).Contents (Elt F) :=
  broadcastInDim S850000 ![] bcast_S_S850000 (val_main_c_12 (F := F))

def val_main_v68 : (⟨S850000, .i1⟩ : BufTy).Contents (Elt F) :=
  cmpi .slt (val_main_v3 (F := F) x1) (val_main_v67 (F := F))

def val_main_c_13 : (⟨S_, .i32⟩ : BufTy).Contents (Elt F) :=
  constantI S_ 32 50000#32

def val_main_v69 : (⟨S850000, .i32⟩ : BufTy).Contents (Elt F) :=
  broadcastInDim S850000 ![] bcast_S_S850000 (val_main_c_13 (F := F))

def val_main_v70 : (⟨S850000, .i32⟩ : BufTy).Contents (Elt F) :=
  addi (val_main_v3 (F := F) x1) (val_main_v69 (F := F))

def val_main_v71 : (⟨S850000, .i32⟩ : BufTy).Contents (Elt F) :=
  select (val_main_v68 (F := F) x1) (val_main_v70 (F := F) x1) (val_main_v3 (F := F) x1)

def val_main_v72 : (⟨S850000x1, .i32⟩ : BufTy).Contents (Elt F) :=
  broadcastInDim S850000x1 ![0] bcast_S850000_S850000x1_0 (val_main_v71 (F := F) x1)

def val_main_v73 : (⟨S850000x128, .f32⟩ : BufTy).Contents (Elt F) :=
  Host.gather gather_S50000x128_S850000x1_S850000x128_1_0_n_n_0_1_1128 (val_main_v66 (F := F) x0 x1 x3 x4 x5 x6 x7) (val_main_v72 (F := F) x1)

def val_main_v74 : (⟨S850000x1, .f32⟩ : BufTy).Contents (Elt F) :=
  broadcastInDim S850000x1 ![0] bcast_S850000_S850000x1_0 (val_main_v29 (F := F) x1)

def val_main_v75 : (⟨S850000x128, .f32⟩ : BufTy).Contents (Elt F) :=
  broadcastInDim S850000x128 ![0, 1] bcast_S850000x1_S850000x128_0_1 (val_main_v74 (F := F) x1)

def val_main_v76 : (⟨S850000x128, .f32⟩ : BufTy).Contents (Elt F) :=
  mulf (val_main_v73 (F := F) x0 x1 x3 x4 x5 x6 x7) (val_main_v75 (F := F) x1)

def val_main_cst_14 : (⟨S_, .f32⟩ : BufTy).Contents (Elt F) :=
  constant S_ .f32 0x00000000#32

def val_main_v77 : (⟨S50000x128, .f32⟩ : BufTy).Contents (Elt F) :=
  broadcastInDim S50000x128 ![] bcast_S_S50000x128 (val_main_cst_14 (F := F))

def val_main_v78 : (⟨S850000x1, .i32⟩ : BufTy).Contents (Elt F) :=
  broadcastInDim S850000x1 ![0] bcast_S850000_S850000x1_0 (val_main_v6 (F := F) x1)

def val_main_v79 : (⟨S50000x128, .f32⟩ : BufTy).Contents (Elt F) :=
  Host.scatterAdd scatter_S50000x128_S850000x1_S850000x128_1_0_0_1 (val_main_v77 (F := F)) (val_main_v78 (F := F) x1) (val_main_v76 (F := F) x0 x1 x3 x4 x5 x6 x7)

def val_main_v80 : (⟨S1x128, .f32⟩ : BufTy).Contents (Elt F) :=
  broadcastInDim S1x128 ![1] bcast_S128_S1x128_1 (x8)

def val_main_v81 : (⟨S50000x128, .f32⟩ : BufTy).Contents (Elt F) :=
  broadcastInDim S50000x128 ![0, 1] bcast_S1x128_S50000x128_0_1 (val_main_v80 (F := F) x8)

def val_main_v82 : (⟨S50000x128, .f32⟩ : BufTy).Contents (Elt F) :=
  addf (val_main_v79 (F := F) x0 x1 x3 x4 x5 x6 x7) (val_main_v81 (F := F) x8)

def val_main_call3_cst : (⟨S_, .f32⟩ : BufTy).Contents (Elt F) :=
  constant S_ .f32 0x00000000#32

def val_main_call3_v0 : (⟨S50000x128, .f32⟩ : BufTy).Contents (Elt F) :=
  broadcastInDim S50000x128 ![] bcast_S_S50000x128 (val_main_call3_cst (F := F))

def val_main_v83 : (⟨S50000x128, .f32⟩ : BufTy).Contents (Elt F) :=
  maximumf (val_main_v82 (F := F) x0 x1 x3 x4 x5 x6 x7 x8) (val_main_call3_v0 (F := F))

def val_main_cst_15 : (⟨S_, .f32⟩ : BufTy).Contents (Elt F) :=
  constant S_ .f32 0x3F800000#32

def val_main_v84 : (⟨S50000, .f32⟩ : BufTy).Contents (Elt F) :=
  broadcastInDim S50000 ![] bcast_S_S50000 (val_main_cst_15 (F := F))

def val_main_cst_16 : (⟨S_, .f32⟩ : BufTy).Contents (Elt F) :=
  constant S_ .f32 0x00000000#32

def val_main_v85 : (⟨S128, .f32⟩ : BufTy).Contents (Elt F) :=
  broadcastInDim S128 ![] bcast_S_S128 (val_main_cst_16 (F := F))

def val_main_v86 : (⟨S50000x1, .i32⟩ : BufTy).Contents (Elt F) :=
  broadcastInDim S50000x1 ![0] bcast_S50000_S50000x1_0 (x2)

def val_main_v87 : (⟨S128, .f32⟩ : BufTy).Contents (Elt F) :=
  Host.scatterAdd scatter_S128_S50000x1_S50000_n_0_0_1 (val_main_v85 (F := F)) (val_main_v86 (F := F) x2) (val_main_v84 (F := F))

def val_main_cst_17 : (⟨S_, .f32⟩ : BufTy).Contents (Elt F) :=
  constant S_ .f32 0x3F800000#32

def val_main_v88 : (⟨S128, .f32⟩ : BufTy).Contents (Elt F) :=
  broadcastInDim S128 ![] bcast_S_S128 (val_main_cst_17 (F := F))

def val_main_v89 : (⟨S128, .f32⟩ : BufTy).Contents (Elt F) :=
  maximumf (val_main_v87 (F := F) x2) (val_main_v88 (F := F))

def val_main_v90 : (⟨S128x1, .f32⟩ : BufTy).Contents (Elt F) :=
  broadcastInDim S128x1 ![0] bcast_S128_S128x1_0 (val_main_v89 (F := F) x2)

def val_main_cst_18 : (⟨S_, .f32⟩ : BufTy).Contents (Elt F) :=
  constant S_ .f32 0x00000000#32

def val_main_v91 : (⟨S128x128, .f32⟩ : BufTy).Contents (Elt F) :=
  broadcastInDim S128x128 ![] bcast_S_S128x128 (val_main_cst_18 (F := F))

def val_main_v92 : (⟨S50000x1, .i32⟩ : BufTy).Contents (Elt F) :=
  broadcastInDim S50000x1 ![0] bcast_S50000_S50000x1_0 (x2)

def val_main_v93 : (⟨S128x128, .f32⟩ : BufTy).Contents (Elt F) :=
  Host.scatterAdd scatter_S128x128_S50000x1_S50000x128_1_0_0_1 (val_main_v91 (F := F)) (val_main_v92 (F := F) x2) (val_main_v47 (F := F) x0 x1 x3 x4)

def val_main_v94 : (⟨S128x128, .f32⟩ : BufTy).Contents (Elt F) :=
  broadcastInDim S128x128 ![0, 1] bcast_S128x1_S128x128_0_1 (val_main_v90 (F := F) x2)

def val_main_v95 : (⟨S128x128, .f32⟩ : BufTy).Contents (Elt F) :=
  Host.divf (val_main_v93 (F := F) x0 x1 x2 x3 x4) (val_main_v94 (F := F) x2)

def val_main_cst_19 : (⟨S_, .f32⟩ : BufTy).Contents (Elt F) :=
  constant S_ .f32 0x00000000#32

def val_main_v96 : (⟨S128x128, .f32⟩ : BufTy).Contents (Elt F) :=
  broadcastInDim S128x128 ![] bcast_S_S128x128 (val_main_cst_19 (F := F))

def val_main_v97 : (⟨S50000x1, .i32⟩ : BufTy).Contents (Elt F) :=
  broadcastInDim S50000x1 ![0] bcast_S50000_S50000x1_0 (x2)

def val_main_v98 : (⟨S128x128, .f32⟩ : BufTy).Contents (Elt F) :=
  Host.scatterAdd scatter_S128x128_S50000x1_S50000x128_1_0_0_1 (val_main_v96 (F := F)) (val_main_v97 (F := F) x2) (val_main_v65 (F := F) x0 x1 x3 x4 x5 x6)

def val_main_v99 : (⟨S128x128, .f32⟩ : BufTy).Contents (Elt F) :=
  broadcastInDim S128x128 ![0, 1] bcast_S128x1_S128x128_0_1 (val_main_v90 (F := F) x2)

def val_main_v100 : (⟨S128x128, .f32⟩ : BufTy).Contents (Elt F) :=
  Host.divf (val_main_v98 (F := F) x0 x1 x2 x3 x4 x5 x6) (val_main_v99 (F := F) x2)

def val_main_cst_20 : (⟨S_, .f32⟩ : BufTy).Contents (Elt F) :=
  constant S_ .f32 0x00000000#32

def val_main_v101 : (⟨S128x128, .f32⟩ : BufTy).Contents (Elt F) :=
  broadcastInDim S128x128 ![] bcast_S_S128x128 (val_main_cst_20 (F := F))

def val_main_v102 : (⟨S50000x1, .i32⟩ : BufTy).Contents (Elt F) :=
  broadcastInDim S50000x1 ![0] bcast_S50000_S50000x1_0 (x2)

def val_main_v103 : (⟨S128x128, .f32⟩ : BufTy).Contents (Elt F) :=
  Host.scatterAdd scatter_S128x128_S50000x1_S50000x128_1_0_0_1 (val_main_v101 (F := F)) (val_main_v102 (F := F) x2) (val_main_v83 (F := F) x0 x1 x3 x4 x5 x6 x7 x8)

def val_main_v104 : (⟨S128x128, .f32⟩ : BufTy).Contents (Elt F) :=
  broadcastInDim S128x128 ![0, 1] bcast_S128x1_S128x128_0_1 (val_main_v90 (F := F) x2)

def val_main_v105 : (⟨S128x128, .f32⟩ : BufTy).Contents (Elt F) :=
  Host.divf (val_main_v103 (F := F) x0 x1 x2 x3 x4 x5 x6 x7 x8) (val_main_v104 (F := F) x2)

def val_main_v106 : (⟨S128x384, .f32⟩ : BufTy).Contents (Elt F) :=
  concatenate S128x384 1 [⟨S128x128, (val_main_v95 (F := F) x0 x1 x2 x3 x4)⟩, ⟨S128x128, (val_main_v100 (F := F) x0 x1 x2 x3 x4 x5 x6)⟩, ⟨S128x128, (val_main_v105 (F := F) x0 x1 x2 x3 x4 x5 x6 x7 x8)⟩] concatenates_S128x128_S128x128_S128x128_S128x384_d1

def val_main_v107 : (⟨S50000x384, .f32⟩ : BufTy).Contents (Elt F) :=
  concatenate S50000x384 1 [⟨S50000x128, (val_main_v47 (F := F) x0 x1 x3 x4)⟩, ⟨S50000x128, (val_main_v65 (F := F) x0 x1 x3 x4 x5 x6)⟩, ⟨S50000x128, (val_main_v83 (F := F) x0 x1 x3 x4 x5 x6 x7 x8)⟩] concatenates_S50000x128_S50000x128_S50000x128_S50000x384_d1

end Cert.ReferenceIdeal.ReadP

end
-- ==== Proof.RefLemmas.lean ====
import proofs.«426581_j30013231464613_1_alg».proof.KernelIdeal
import proofs.«426581_j30013231464613_1_alg».proof.ReferenceIdeal
import proofs.«426581_j30013231464613_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefLemmas

open Idealize.ShloMosaic Idealize.ShloMosaic.ValueIdx

variable [Cert.ReferenceIdeal.Facts₀]

theorem lhs_dot_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch from List.not_mem_nil), dif_pos (show (0 : Fin Cert.ReferenceIdeal.S50000x128.rank) ∈ Cert.ReferenceIdeal.dot_S50000x128_S128x128_S50000x128_1_0_0_1_n_n.lhsNonContracting from List.mem_singleton.mpr rfl)]
  rfl

theorem lhs_dot_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, Nat.one_pos⟩).val :=
  Cert.ReferenceIdeal.dot_S50000x128_S128x128_S50000x128_1_0_0_1_n_n.lhsIdx_val_of_single rfl i q

theorem rhs_dot_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, Nat.one_pos⟩).val :=
  Cert.ReferenceIdeal.dot_S50000x128_S128x128_S50000x128_1_0_0_1_n_n.rhsIdx_val_of_single rfl i q

theorem rhs_dot_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch from List.not_mem_nil), dif_pos (show (1 : Fin Cert.ReferenceIdeal.S128x128.rank) ∈ Cert.ReferenceIdeal.dot_S50000x128_S128x128_S50000x128_1_0_0_1_n_n.rhsNonContracting from List.mem_singleton.mpr rfl)]
  rfl

theorem dot_eq_mmArr (x : FVec Ideal Cert.KernelIdeal.S50000x128 .f32) (w : FVec Ideal Cert.KernelIdeal.S128x128 .f32) :
    Host.dotGeneral (F := Ideal) Cert.ReferenceIdeal.dot_S50000x128_S128x128_S50000x128_1_0_0_1_n_n none x w = Cert.KernelIdeal.Spec.mmArr x w := by
  funext i
  obtain ⟨r, c, rfl⟩ : ∃ r c, i = ix2 r c := ⟨i 0, i 1, eq_ix2 i⟩
  rw [Cert.KernelIdeal.Spec.mmArr_apply]
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r c) ((contrEquiv1 Cert.ReferenceIdeal.dot_S50000x128_S128x128_S50000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : Cert.ReferenceIdeal.dot_S50000x128_S128x128_S50000x128_1_0_0_1_n_n.rhsIdx (ix2 r c) ((contrEquiv1 Cert.ReferenceIdeal.dot_S50000x128_S128x128_S50000x128_1_0_0_1_n_n 128 rfl rfl).symm k) = ix2 k c := funext fun a => Fin.ext (by
    match a with
    | ⟨0, _⟩ => exact (rhs_dot_0 _ _).trans hk
    | ⟨1, _⟩ => exact rhs_dot_1 _ _)
  rw [el, er]

theorem bias_rows_apply (b : FVec Ideal Cert.KernelIdeal.S128 .f32) (r : Fin 50000) (c : Fin 128) :
    broadcastInDim Cert.ReferenceIdeal.S50000x128 ![0, 1] Cert.ReferenceIdeal.Facts₀.bcast_S1x128_S50000x128_0_1
        (broadcastInDim Cert.ReferenceIdeal.S1x128 ![1] Cert.ReferenceIdeal.Facts₀.bcast_S128_S1x128_1 b) (ix2 r c) = b (ix1 c) := by
  refine (broadcastInDim_apply _ Cert.ReferenceIdeal.Facts₀.bcast_S1x128_S50000x128_0_1 _ (ix2 r c) (ix2 (0 : Fin 1) c) (fun ax => ?_)).trans ?_
  · match ax with
    | ⟨0, _⟩ => show 0 = if (1 : Nat) = 1 then 0 else r.val; rw [if_pos rfl]
    | ⟨1, _⟩ => show c.val = if (128 : Nat) = 1 then 0 else c.val; rw [if_neg (by decide)]
  · exact broadcastInDim_apply _ Cert.ReferenceIdeal.Facts₀.bcast_S128_S1x128_1 b (ix2 (0 : Fin 1) c) (ix1 c) (fun ax => by
      match ax with
      | ⟨0, _⟩ => show c.val = if (128 : Nat) = 1 then 0 else c.val; rw [if_neg (by decide)])

theorem zeros_apply (i : Cert.ReferenceIdeal.S50000x128.Idx) :
    broadcastInDim Cert.ReferenceIdeal.S50000x128 ![] Cert.ReferenceIdeal.Facts₀.bcast_S_S50000x128
        (constant (F := Ideal) Cert.ReferenceIdeal.S_ .f32 0x00000000#32) i = 0 := by
  rw [broadcastInDim_apply _ Cert.ReferenceIdeal.Facts₀.bcast_S_S50000x128 _ i ix0 (fun a => a.elim0), constant_apply,
    Ideal.ofBits_zero_f32]

theorem relu_eq_brArr (a : FVec Ideal Cert.KernelIdeal.S50000x128 .f32) (b : FVec Ideal Cert.KernelIdeal.S128 .f32) :
    maximumf (addf a (broadcastInDim Cert.ReferenceIdeal.S50000x128 ![0, 1] Cert.ReferenceIdeal.Facts₀.bcast_S1x128_S50000x128_0_1
          (broadcastInDim Cert.ReferenceIdeal.S1x128 ![1] Cert.ReferenceIdeal.Facts₀.bcast_S128_S1x128_1 b)))
        (broadcastInDim Cert.ReferenceIdeal.S50000x128 ![] Cert.ReferenceIdeal.Facts₀.bcast_S_S50000x128
          (constant (F := Ideal) Cert.ReferenceIdeal.S_ .f32 0x00000000#32))
      = Cert.KernelIdeal.Spec.brArr a (shapeCast Cert.KernelIdeal.S1x128 b Cert.KernelIdeal.Facts₀.shapeCasts_S128_S1x128) := by
  funext i
  obtain ⟨r, c, rfl⟩ : ∃ r c, i = ix2 r c := ⟨i 0, i 1, eq_ix2 i⟩
  rw [Cert.KernelIdeal.Spec.brArr_apply, maximumf_apply, addf_apply, bias_rows_apply, zeros_apply, shapeCast_a_1a_apply]

end Cert.RefLemmas

end
-- ==== Proof.ChainLayers.lean ====
import proofs.«426581_j30013231464613_1_alg».proof.Proof.ChainK
import proofs.«426581_j30013231464613_1_alg».proof.Proof.Arr0
import proofs.«426581_j30013231464613_1_alg».proof.Proof.Arr1
import proofs.«426581_j30013231464613_1_alg».proof.Proof.Arr2
import proofs.«426581_j30013231464613_1_alg».proof.Proof.Arr3
import proofs.«426581_j30013231464613_1_alg».proof.Proof.Arr4
import proofs.«426581_j30013231464613_1_alg».proof.Proof.Arr5
import proofs.«426581_j30013231464613_1_alg».proof.Proof.RefStages
import proofs.«426581_j30013231464613_1_alg».proof.Proof.RefLemmas

set_option maxRecDepth 16384

noncomputable section

namespace Cert.KernelIdeal.Calls

open Cert.KernelIdeal Cert.KernelIdeal.Gen
open Idealize.ShloMosaic Idealize.ShloMosaic.TcCoe

theorem kSrc_eq (x1 : IVec S2x800000 32) : kSrc x1 = Cert.ReferenceIdeal.ReadP.val_main_v3 (F := Ideal) x1 := rfl

theorem kDst_eq (x1 : IVec S2x800000 32) : kDst x1 = Cert.ReferenceIdeal.ReadP.val_main_v6 (F := Ideal) x1 := rfl

theorem kNorm_eq (x1 : IVec S2x800000 32) : kNorm (F := Ideal) x1 = Cert.ReferenceIdeal.ReadP.val_main_v29 (F := Ideal) x1 := rfl

theorem kLayer_v43 (x0 : FVec Ideal S50000x128 .f32) (x1 : IVec S2x800000 32) (x3 : FVec Ideal S128x128 .f32) :
    kLayer (F := Ideal) (Cert.ReferenceIdeal.ReadP.val_main_v30 (F := Ideal) x0 x3) (Cert.ReferenceIdeal.ReadP.val_main_v3 (F := Ideal) x1) (Cert.ReferenceIdeal.ReadP.val_main_v6 (F := Ideal) x1) (Cert.ReferenceIdeal.ReadP.val_main_v29 (F := Ideal) x1)
      = Cert.ReferenceIdeal.ReadP.val_main_v43 (F := Ideal) x0 x1 x3 := rfl

theorem kLayer_v61 (x0 : FVec Ideal S50000x128 .f32) (x1 : IVec S2x800000 32) (x3 : FVec Ideal S128x128 .f32) (x4 : FVec Ideal S128 .f32) (x5 : FVec Ideal S128x128 .f32) :
    kLayer (F := Ideal) (Cert.ReferenceIdeal.ReadP.val_main_v48 (F := Ideal) x0 x1 x3 x4 x5) (Cert.ReferenceIdeal.ReadP.val_main_v3 (F := Ideal) x1) (Cert.ReferenceIdeal.ReadP.val_main_v6 (F := Ideal) x1) (Cert.ReferenceIdeal.ReadP.val_main_v29 (F := Ideal) x1)
      = Cert.ReferenceIdeal.ReadP.val_main_v61 (F := Ideal) x0 x1 x3 x4 x5 := rfl

theorem kLayer_v79 (x0 : FVec Ideal S50000x128 .f32) (x1 : IVec S2x800000 32) (x3 : FVec Ideal S128x128 .f32) (x4 : FVec Ideal S128 .f32) (x5 : FVec Ideal S128x128 .f32) (x6 : FVec Ideal S128 .f32) (x7 : FVec Ideal S128x128 .f32) :
    kLayer (F := Ideal) (Cert.ReferenceIdeal.ReadP.val_main_v66 (F := Ideal) x0 x1 x3 x4 x5 x6 x7) (Cert.ReferenceIdeal.ReadP.val_main_v3 (F := Ideal) x1) (Cert.ReferenceIdeal.ReadP.val_main_v6 (F := Ideal) x1) (Cert.ReferenceIdeal.ReadP.val_main_v29 (F := Ideal) x1)
      = Cert.ReferenceIdeal.ReadP.val_main_v79 (F := Ideal) x0 x1 x3 x4 x5 x6 x7 := rfl

theorem kConcat_v107 (x0 : FVec Ideal S50000x128 .f32) (x1 : IVec S2x800000 32) (x3 : FVec Ideal S128x128 .f32) (x4 : FVec Ideal S128 .f32) (x5 : FVec Ideal S128x128 .f32) (x6 : FVec Ideal S128 .f32) (x7 : FVec Ideal S128x128 .f32) (x8 : FVec Ideal S128 .f32) :
    kConcat (F := Ideal) (Cert.ReferenceIdeal.ReadP.val_main_v47 (F := Ideal) x0 x1 x3 x4) (Cert.ReferenceIdeal.ReadP.val_main_v65 (F := Ideal) x0 x1 x3 x4 x5 x6) (Cert.ReferenceIdeal.ReadP.val_main_v83 (F := Ideal) x0 x1 x3 x4 x5 x6 x7 x8)
      = Cert.ReferenceIdeal.ReadP.val_main_v107 (F := Ideal) x0 x1 x3 x4 x5 x6 x7 x8 := rfl

theorem v47_of (x0 : FVec Ideal S50000x128 .f32) (x1 : IVec S2x800000 32) (x3 : FVec Ideal S128x128 .f32) (x4 : FVec Ideal S128 .f32) :
    Cert.ReferenceIdeal.ReadP.val_main_v47 (F := Ideal) x0 x1 x3 x4 = Spec.brArr (Cert.ReferenceIdeal.ReadP.val_main_v43 (F := Ideal) x0 x1 x3) (kBias (F := Ideal) x4) := by
  unfold Cert.ReferenceIdeal.ReadP.val_main_v47 Cert.ReferenceIdeal.ReadP.val_main_v46 Cert.ReferenceIdeal.ReadP.val_main_v45 Cert.ReferenceIdeal.ReadP.val_main_v44 Cert.ReferenceIdeal.ReadP.val_main_call1_v0 Cert.ReferenceIdeal.ReadP.val_main_call1_cst kBias
  exact Cert.RefLemmas.relu_eq_brArr _ x4

theorem v65_of (x0 : FVec Ideal S50000x128 .f32) (x1 : IVec S2x800000 32) (x3 : FVec Ideal S128x128 .f32) (x4 : FVec Ideal S128 .f32) (x5 : FVec Ideal S128x128 .f32) (x6 : FVec Ideal S128 .f32) :
    Cert.ReferenceIdeal.ReadP.val_main_v65 (F := Ideal) x0 x1 x3 x4 x5 x6 = Spec.brArr (Cert.ReferenceIdeal.ReadP.val_main_v61 (F := Ideal) x0 x1 x3 x4 x5) (kBias (F := Ideal) x6) := by
  unfold Cert.ReferenceIdeal.ReadP.val_main_v65 Cert.ReferenceIdeal.ReadP.val_main_v64 Cert.ReferenceIdeal.ReadP.val_main_v63 Cert.ReferenceIdeal.ReadP.val_main_v62 Cert.ReferenceIdeal.ReadP.val_main_call2_v0 Cert.ReferenceIdeal.ReadP.val_main_call2_cst kBias
  exact Cert.RefLemmas.relu_eq_brArr _ x6

theorem v83_of (x0 : FVec Ideal S50000x128 .f32) (x1 : IVec S2x800000 32) (x3 : FVec Ideal S128x128 .f32) (x4 : FVec Ideal S128 .f32) (x5 : FVec Ideal S128x128 .f32) (x6 : FVec Ideal S128 .f32) (x7 : FVec Ideal S128x128 .f32) (x8 : FVec Ideal S128 .f32) :
    Cert.ReferenceIdeal.ReadP.val_main_v83 (F := Ideal) x0 x1 x3 x4 x5 x6 x7 x8 = Spec.brArr (Cert.ReferenceIdeal.ReadP.val_main_v79 (F := Ideal) x0 x1 x3 x4 x5 x6 x7) (kBias (F := Ideal) x8) := by
  unfold Cert.ReferenceIdeal.ReadP.val_main_v83 Cert.ReferenceIdeal.ReadP.val_main_v82 Cert.ReferenceIdeal.ReadP.val_main_v81 Cert.ReferenceIdeal.ReadP.val_main_v80 Cert.ReferenceIdeal.ReadP.val_main_call3_v0 Cert.ReferenceIdeal.ReadP.val_main_call3_cst kBias
  exact Cert.RefLemmas.relu_eq_brArr _ x8

variable (m : (ℓ : Loc nD τ sig) → Buf (Elt Ideal) ℓ) (c : Dev nD)

theorem hlin1_eq : B4 m c main_v30 = Cert.ReferenceIdeal.ReadP.val_main_v30 (F := Ideal) (m ((c.tc : Thread nD τ).loc main_arg0)) (m ((c.tc : Thread nD τ).loc main_arg3)) := by
  rw [B4_out, arr0_eq (atTc (B3 m)) c, in0_0, in0_1, B3_arg0, B3_arg3]
  exact (Cert.RefLemmas.dot_eq_mmArr _ _).symm

theorem agg1_eq : B5 m c main_v43 = Cert.ReferenceIdeal.ReadP.val_main_v43 (F := Ideal) (m ((c.tc : Thread nD τ).loc main_arg0)) (m ((c.tc : Thread nD τ).loc main_arg1)) (m ((c.tc : Thread nD τ).loc main_arg3)) := by
  rw [B5_v43, hlin1_eq, kSrc_eq, kDst_eq, kNorm_eq, kLayer_v43]

theorem layer1_eq : B6 m c main_v45 = Cert.ReferenceIdeal.ReadP.val_main_v47 (F := Ideal) (m ((c.tc : Thread nD τ).loc main_arg0)) (m ((c.tc : Thread nD τ).loc main_arg1)) (m ((c.tc : Thread nD τ).loc main_arg3)) (m ((c.tc : Thread nD τ).loc main_arg4)) := by
  rw [B6_out, arr1_eq (atTc (B5 m)) c, in1_0, in1_1, agg1_eq, B5_v44]
  exact (v47_of _ _ _ _).symm

theorem hlin2_eq : B7 m c main_v46 = Cert.ReferenceIdeal.ReadP.val_main_v48 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  rw [B7_out, arr2_eq (atTc (B6 m)) c, in2_0, in2_1, layer1_eq, B6_arg5]
  exact (Cert.RefLemmas.dot_eq_mmArr _ _).symm

theorem agg2_eq : B8 m c main_v59 = Cert.ReferenceIdeal.ReadP.val_main_v61 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  rw [B8_v59, hlin2_eq, kSrc_eq, kDst_eq, kNorm_eq, kLayer_v61]

theorem layer2_eq : B9 m c main_v61 = Cert.ReferenceIdeal.ReadP.val_main_v65 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  rw [B9_out, arr3_eq (atTc (B8 m)) c, in3_0, in3_1, agg2_eq, B8_v60]
  exact (v65_of _ _ _ _ _ _).symm

theorem hlin3_eq : B10 m c main_v62 = Cert.ReferenceIdeal.ReadP.val_main_v66 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [B10_out, arr4_eq (atTc (B9 m)) c, in4_0, in4_1, layer2_eq, B9_arg7]
  exact (Cert.RefLemmas.dot_eq_mmArr _ _).symm

theorem agg3_eq : B11 m c main_v75 = Cert.ReferenceIdeal.ReadP.val_main_v79 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [B11_v75, hlin3_eq, kSrc_eq, kDst_eq, kNorm_eq, kLayer_v79]

theorem layer3_eq : B12 m c main_v77 = Cert.ReferenceIdeal.ReadP.val_main_v83 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [B12_out, arr5_eq (atTc (B11 m)) c, in5_0, in5_1, agg3_eq, B11_v76]
  exact (v83_of _ _ _ _ _ _ _ _).symm

/-- The second result is the reference's three layer outputs side by side. -/
theorem out1_eq : B15 m c main_v78 = Cert.ReferenceIdeal.ReadP.val_main_v107 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [B15_v78, B13_v78, B12_v45, B12_v61, layer1_eq, layer2_eq, layer3_eq, kConcat_v107]

end Cert.KernelIdeal.Calls

end
-- ==== Proof.PoolFold.lean ====
import proofs.«426581_j30013231464613_1_alg».proof.Proof.Gen.KernelIdeal.Skeleton
import proofs.«426581_j30013231464613_1_alg».proof.Proof.Spec
import Idealize.ShloMosaic.Lib.ValueIdx
import Idealize.ShloMosaic.PureOps.Ideal.Laws
import Idealize.ShloMosaic.Lib.Pipeline.Value
import Mathlib.Algebra.BigOperators.Fin
import Mathlib.Logic.Equiv.Fin.Basic

set_option maxRecDepth 16384

noncomputable section

open scoped BigOperators

namespace Cert.KernelIdeal.Calls

open Cert.KernelIdeal Cert.KernelIdeal.Gen Cert.KernelIdeal.Spec
open Idealize.ShloMosaic Idealize.ShloMosaic.ValueIdx

theorem lhs_pool_0 (i : S128x384.Idx) (q : dot_S2000x128_S2000x384_S128x384_0_0_1_1_n_n.contr.Idx) :
    (dot_S2000x128_S2000x384_S128x384_0_0_1_1_n_n.lhsIdx i q 0).val = (q ⟨0, by decide⟩).val :=
  dot_S2000x128_S2000x384_S128x384_0_0_1_1_n_n.lhsIdx_val_of_single rfl i q
theorem lhs_pool_1 (i : S128x384.Idx) (q : dot_S2000x128_S2000x384_S128x384_0_0_1_1_n_n.contr.Idx) :
    (dot_S2000x128_S2000x384_S128x384_0_0_1_1_n_n.lhsIdx i q 1).val = (i 0).val := by
  unfold DotDims.lhsIdx
  rw [dif_neg (show ¬(1 : Fin S2000x128.rank) ∈ dot_S2000x128_S2000x384_S128x384_0_0_1_1_n_n.lhsBatch by decide), dif_pos (show (1 : Fin S2000x128.rank) ∈ dot_S2000x128_S2000x384_S128x384_0_0_1_1_n_n.lhsNonContracting by decide)]
  rfl
theorem rhs_pool_0 (i : S128x384.Idx) (q : dot_S2000x128_S2000x384_S128x384_0_0_1_1_n_n.contr.Idx) :
    (dot_S2000x128_S2000x384_S128x384_0_0_1_1_n_n.rhsIdx i q 0).val = (q ⟨0, by decide⟩).val :=
  dot_S2000x128_S2000x384_S128x384_0_0_1_1_n_n.rhsIdx_val_of_single rfl i q
theorem rhs_pool_1 (i : S128x384.Idx) (q : dot_S2000x128_S2000x384_S128x384_0_0_1_1_n_n.contr.Idx) :
    (dot_S2000x128_S2000x384_S128x384_0_0_1_1_n_n.rhsIdx i q 1).val = (i 1).val := by
  unfold DotDims.rhsIdx
  rw [dif_neg (show ¬(1 : Fin S2000x384.rank) ∈ dot_S2000x128_S2000x384_S128x384_0_0_1_1_n_n.rhsBatch by decide), dif_pos (show (1 : Fin S2000x384.rank) ∈ dot_S2000x128_S2000x384_S128x384_0_0_1_1_n_n.rhsNonContracting by decide)]
  rfl

theorem pool_matmul_apply (l : FVec Ideal S2000x128 .bf16) (r : FVec Ideal S2000x384 .bf16) (g : Fin 128) (c : Fin 384) :
    matmul dot_S2000x128_S2000x384_S128x384_0_0_1_1_n_n none l r (constant (F := Ideal) S128x384 .f32 0x00000000#32) (ix2 g c)
      = ∑ k : Fin 2000, l (ix2 k g) * r (ix2 k c) := by
  simp only [matmul]
  rw [Ideal.matmul_constant_zero_apply, ← Equiv.sum_comp (contrEquiv1 dot_S2000x128_S2000x384_S128x384_0_0_1_1_n_n 2000 rfl rfl).symm]
  refine Finset.sum_congr rfl fun k _ => ?_
  have hk := contrEquiv1_symm_val dot_S2000x128_S2000x384_S128x384_0_0_1_1_n_n 2000 rfl rfl k
  have el : dot_S2000x128_S2000x384_S128x384_0_0_1_1_n_n.lhsIdx (ix2 g c) ((contrEquiv1 dot_S2000x128_S2000x384_S128x384_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x128_S2000x384_S128x384_0_0_1_1_n_n.rhsIdx (ix2 g c) ((contrEquiv1 dot_S2000x128_S2000x384_S128x384_0_0_1_1_n_n 2000 rfl rfl).symm k) = ix2 k c := funext fun a => Fin.ext (by
    match a with
    | ⟨0, _⟩ => exact (rhs_pool_0 _ _).trans hk
    | ⟨1, _⟩ => exact rhs_pool_1 _ _)
  rw [el, er]

theorem k6_pay1_apply (g : Fin 128) (c : Fin 384) : k6_pay1 (F := Ideal) (ix2 g c) = 0 := by
  unfold k6_pay1
  rw [shapeCast_self, broadcast_apply]
  exact Ideal.ofBits_zero_f32

theorem k6_pay2_apply (oh : Vec Ideal S2000x128 .f32) (xs : Vec Ideal S2000x384 .f32) (a : Vec Ideal S128x384 .f32)
    (g : Fin 128) (c : Fin 384) :
    k6_pay2 oh xs a (ix2 g c) = a (ix2 g c) + ∑ k : Fin 2000, oh (ix2 k g) * xs (ix2 k c) := by
  unfold k6_pay2
  rw [shapeCast_self, shapeCast_self, shapeCast_self, addf_apply, pool_matmul_apply]
  rfl

theorem pool_prefix (bo : ℕ → Vec Ideal S2000x128 .f32) (bx : ℕ → Vec Ideal S2000x384 .f32) (a : ℕ → Vec Ideal S128x384 .f32)
    (h0 : a 0 = k6_pay2 (bo 0) (bx 0) (k6_pay1 (F := Ideal))) (hs : ∀ n, a (n + 1) = k6_pay2 (bo (n + 1)) (bx (n + 1)) (a n))
    (g : Fin 128) (c : Fin 384) (n : ℕ) :
    a n (ix2 g c) = ∑ m ∈ Finset.range (n + 1), ∑ k : Fin 2000, bo m (ix2 k g) * bx m (ix2 k c) := by
  induction n with
  | zero => rw [h0, k6_pay2_apply, k6_pay1_apply, zero_add, Finset.sum_range_one]
  | succ n ih => rw [hs, k6_pay2_apply, ih, Finset.sum_range_succ _ (n + 1)]

theorem sum_rows_blocks (f : Fin 50000 → EReal) :
    ∑ n : Fin 50000, f n = ∑ m : Fin 25, ∑ k : Fin 2000, f ⟨2000 * m.val + k.val, by omega⟩ := by
  rw [← Equiv.sum_comp (finProdFinEquiv : Fin 25 × Fin 2000 ≃ Fin 50000) f, Fintype.sum_prod_type]
  refine Finset.sum_congr rfl fun m _ => Finset.sum_congr rfl fun k _ => congrArg f (Fin.ext ?_)
  show k.val + 2000 * m.val = 2000 * m.val + k.val
  omega

theorem pool_fold (OH : FVec Ideal S50000x128 .f32) (XS : FVec Ideal S50000x384 .f32)
    (bo : ℕ → Vec Ideal S2000x128 .f32) (bx : ℕ → Vec Ideal S2000x384 .f32) (a : ℕ → Vec Ideal S128x384 .f32)
    (hbo : ∀ (n : ℕ) (hn : n < 25) (k : Fin 2000) (g : Fin 128), bo n (ix2 k g) = OH (ix2 ⟨2000 * n + k.val, by omega⟩ g))
    (hbx : ∀ (n : ℕ) (hn : n < 25) (k : Fin 2000) (c : Fin 384), bx n (ix2 k c) = XS (ix2 ⟨2000 * n + k.val, by omega⟩ c))
    (h0 : a 0 = k6_pay2 (bo 0) (bx 0) (k6_pay1 (F := Ideal))) (hs : ∀ n, a (n + 1) = k6_pay2 (bo (n + 1)) (bx (n + 1)) (a n)) :
    a 24 = Spec.poolArr OH XS := by
  funext i
  obtain ⟨g, c, rfl⟩ : ∃ (g : Fin 128) (c : Fin 384), i = ix2 g c := ⟨i 0, i 1, eq_ix2 i⟩
  rw [pool_prefix bo bx a h0 hs g c 24, poolArr_apply, sum_rows_blocks, Finset.sum_range]
  refine Finset.sum_congr rfl fun m _ => Finset.sum_congr rfl fun k _ => ?_
  rw [hbo m.val m.isLt k g, hbx m.val m.isLt k c]

end Cert.KernelIdeal.Calls

end
-- ==== Proof.Arr6.lean ====
import proofs.«426581_j30013231464613_1_alg».proof.Proof.Region6
import proofs.«426581_j30013231464613_1_alg».proof.Proof.PoolFold

set_option maxRecDepth 16384

noncomputable section

namespace Cert.KernelIdeal.Calls

open Cert.KernelIdeal Cert.KernelIdeal.Gen Cert.KernelIdeal.Spec

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem idx_facts6 : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, win6_0.index t (0 : Fin 2) = t.val ∧ win6_0.index t (1 : Fin 2) = 0
    ∧ win6_1.index t (0 : Fin 2) = t.val ∧ win6_1.index t (1 : Fin 2) = 0)

theorem iblk6_0_apply (c : Dev nD) (n : ℕ) (hn : n < 25) (k : Fin 2000) (g : Fin 128) :
    iblk6 V c 0 (pt6 n) (ix2 k g) = V c (Pipeline.arrRef spec6 0) (ix2 ⟨2000 * n + k.val, by omega⟩ g) := by
  obtain ⟨e0, e1, -, -⟩ := idx_facts6 (pt6 n)
  have hp := pt6_val n hn
  show V c (Pipeline.arrRef spec6 0) (((cfg6.win 0).blk (pt6 n)).view.emb (ix2 k g)) = _
  refine congrArg _ (funext fun a => Fin.ext ?_)
  match a with
  | ⟨0, _⟩ => show win6_0.index (pt6 n) (0 : Fin 2) * 2000 + 1 * k.val = 2000 * n + k.val; omega
  | ⟨1, _⟩ => show win6_0.index (pt6 n) (1 : Fin 2) * 128 + 1 * g.val = g.val; omega

theorem iblk6_1_apply (c : Dev nD) (n : ℕ) (hn : n < 25) (k : Fin 2000) (c' : Fin 384) :
    iblk6 V c 1 (pt6 n) (ix2 k c') = V c (Pipeline.arrRef spec6 1) (ix2 ⟨2000 * n + k.val, by omega⟩ c') := by
  obtain ⟨-, -, e0, e1⟩ := idx_facts6 (pt6 n)
  have hp := pt6_val n hn
  show V c (Pipeline.arrRef spec6 1) (((cfg6.win 1).blk (pt6 n)).view.emb (ix2 k c')) = _
  refine congrArg _ (funext fun a => Fin.ext ?_)
  match a with
  | ⟨0, _⟩ => show win6_1.index (pt6 n) (0 : Fin 2) * 2000 + 1 * k.val = 2000 * n + k.val; omega
  | ⟨1, _⟩ => show win6_1.index (pt6 n) (1 : Fin 2) * 384 + 1 * c'.val = c'.val; omega

/-- The accumulator after the last point is the sum over all row blocks: the pooling product of the two operands. -/
theorem arr6_eq (c : Dev nD) :
    (dat6 (F := Ideal) V c).arrAt 2 cfg6.N = Spec.poolArr (V c (Pipeline.arrRef spec6 0)) (V c (Pipeline.arrRef spec6 1)) :=
  (arr6_out V c).trans
    (pool_fold (V c (Pipeline.arrRef spec6 0)) (V c (Pipeline.arrRef spec6 1))
      (fun n => iblk6 V c 0 (pt6 n)) (fun n => iblk6 V c 1 (pt6 n)) (acc6 V c)
      (fun n hn k g => iblk6_0_apply V c n hn k g) (fun n hn k c' => iblk6_1_apply V c n hn k c')
      (acc6_zero V c) (fun n => acc6_succ V c n))

end Cert.KernelIdeal.Calls

end
-- ==== Proof.LibGatherScatter.lean ====
import Idealize.ShloMosaic.PureOps.Ideal
import Idealize.ShloMosaic.PureOps.Ideal.Laws
import Idealize.ShloMosaic.Lib.ValueIdx
import Idealize.ShloMosaic.Lib.StableHlo.Predicate

open scoped BigOperators

namespace Cert.LibGatherScatter

open Idealize.ShloMosaic Idealize.ShloMosaic.ValueIdx Idealize.ShloMosaic.StableHlo.Predicate

theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show _ = (((d.start j idx a + (d.window j a : ℤ)).toNat : ℕ) : ℤ)
      omega
    · intro hi
      funext a
      apply Fin.ext
      have := hi a
      show (d.start j idx a + (d.window j a : ℤ)).toNat = (i a).val
      omega
  · next h =>
    constructor
    · intro hn; exact absurd hn (by simp)
    · intro hi
      exfalso
      apply h
      intro a
      have := hi a
      have := (i a).isLt
      omega

theorem scatter_rows_coords {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) :
    d.start (ix2 e j') idx 0 = (idx (ixP e)).toInt ∧ d.start (ix2 e j') idx 1 = 0
    ∧ d.window (ix2 e j') 0 = 0 ∧ d.window (ix2 e j') 1 = j'.val := by
  obtain ⟨uw, iw, sd, ivd, wf⟩ := d
  simp only at huw hiw hsd hivd
  subst huw hiw hsd hivd
  refine ⟨?_, rfl, rfl, rfl⟩
  unfold ScatterDims.start
  rw [dif_pos (List.mem_singleton.mpr rfl)]
  congr 2
  funext b
  match b with
  | ⟨0, _⟩ => rfl
  | ⟨1, _⟩ => rfl

theorem scatter_rows_resultIdx_iff {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) (c : Fin N) (j : Fin C) :
    d.resultIdx? (ix2 e j') idx = some (ix2 c j) ↔ j' = j ∧ (idx (ixP e)).toInt = (c.val : ℤ) := by
  obtain ⟨hs0, hs1, hw0, hw1⟩ := scatter_rows_coords d huw hiw hsd hivd idx e j'
  rw [resultIdx?_eq_some_iff]
  constructor
  · intro h
    have h0 := h 0
    have h1 := h 1
    rw [hs0, hw0] at h0
    rw [hs1, hw1] at h1
    have h0' : (idx (ixP e)).toInt + ((0 : ℕ) : ℤ) = (c.val : ℤ) := h0
    have h1' : (0 : ℤ) + (j'.val : ℤ) = (j.val : ℤ) := h1
    exact ⟨Fin.ext (by omega), by omega⟩
  · rintro ⟨rfl, hv⟩ a
    match a with
    | ⟨0, _⟩ =>
      show d.start (ix2 e j') idx 0 + (d.window (ix2 e j') 0 : ℤ) = (c.val : ℤ)
      rw [hs0, hw0]; omega
    | ⟨1, _⟩ =>
      show d.start (ix2 e j') idx 1 + (d.window (ix2 e j') 1 : ℤ) = (j'.val : ℤ)
      rw [hs1, hw1]; omega

/-- A row scatter-add read at an entry: the initial value plus the sum of the updates whose index names that row. -/
theorem scatterAdd_rows_apply {N C n w : Nat} {φ : FTy}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (c : Fin N) (j : Fin C) :
    Host.scatterAdd (F := Ideal) d x idx upd (ix2 c j)
      = x (ix2 c j) + ∑ e ∈ Finset.univ.filter (fun e : Fin n => (idx (ixP e)).toInt = (c.val : ℤ)), upd (ix2 e j) := by
  have hmem : ∀ i : (⟨2, ![n, C]⟩ : Shape).Idx,
      d.resultIdx? i idx = some (ix2 c j) ↔ i 1 = j ∧ (idx (ixP (i 0))).toInt = (c.val : ℤ) := fun i => by
    conv_lhs => rw [eq_ix2 i]
    exact scatter_rows_resultIdx_iff d huw hiw hsd hivd idx (i 0) (i 1) c j
  unfold Host.scatterAdd
  rw [Ideal.hostScatterAdd_def]
  unfold Ideal.hostScatterAdd
  congr 1
  refine Finset.sum_bij' (fun i _ => i 0) (fun e _ => ix2 e j) ?_ ?_ ?_ ?_ ?_
  · intro i hi
    exact Finset.mem_filter.2 ⟨Finset.mem_univ _, ((hmem i).1 (Finset.mem_filter.1 hi).2).2⟩
  · intro e he
    exact Finset.mem_filter.2 ⟨Finset.mem_univ _, (hmem (ix2 e j)).2 ⟨rfl, (Finset.mem_filter.1 he).2⟩⟩
  · intro i hi
    have h1 : i 1 = j := ((hmem i).1 (Finset.mem_filter.1 hi).2).1
    rw [← h1]; exact (eq_ix2 i).symm
  · intro e _; rfl
  · intro i hi
    have h1 : i 1 = j := ((hmem i).1 (Finset.mem_filter.1 hi).2).1
    rw [← h1]; exact congrArg upd (eq_ix2 i)

theorem scatter_vec_coords {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) :
    d.start (ix1 e) idx 0 = (idx (ixP e)).toInt ∧ d.window (ix1 e) 0 = 0 := by
  obtain ⟨uw, iw, sd, ivd, wf⟩ := d
  simp only at huw hiw hsd hivd
  subst huw hiw hsd hivd
  refine ⟨?_, rfl⟩
  unfold ScatterDims.start
  rw [dif_pos (List.mem_singleton.mpr rfl)]
  congr 2
  funext b
  match b with
  | ⟨0, _⟩ => rfl
  | ⟨1, _⟩ => rfl

theorem scatter_vec_resultIdx_iff {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (q : Fin G) :
    d.resultIdx? (ix1 e) idx = some (ix1 q) ↔ (idx (ixP e)).toInt = (q.val : ℤ) := by
  obtain ⟨hs0, hw0⟩ := scatter_vec_coords d huw hiw hsd hivd idx e
  rw [resultIdx?_eq_some_iff]
  constructor
  · intro h
    have h0 := h 0
    rw [hs0, hw0] at h0
    have h0' : (idx (ixP e)).toInt + ((0 : ℕ) : ℤ) = (q.val : ℤ) := h0
    omega
  · intro hv a
    match a with
    | ⟨0, _⟩ =>
      show d.start (ix1 e) idx 0 + (d.window (ix1 e) 0 : ℤ) = (q.val : ℤ)
      rw [hs0, hw0]; omega

/-- The same for a rank-1 table. -/
theorem scatterAdd_vec_apply {G n w : Nat} {φ : FTy}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![G]⟩ φ) (idx : IVec ⟨2, ![n, 1]⟩ w) (upd : FVec Ideal ⟨1, ![n]⟩ φ) (q : Fin G) :
    Host.scatterAdd (F := Ideal) d x idx upd (ix1 q)
      = x (ix1 q) + ∑ e ∈ Finset.univ.filter (fun e : Fin n => (idx (ixP e)).toInt = (q.val : ℤ)), upd (ix1 e) := by
  have hmem : ∀ i : (⟨1, ![n]⟩ : Shape).Idx,
      d.resultIdx? i idx = some (ix1 q) ↔ (idx (ixP (i 0))).toInt = (q.val : ℤ) := fun i => by
    conv_lhs => rw [eq_ix1 i]
    exact scatter_vec_resultIdx_iff d huw hiw hsd hivd idx (i 0) q
  unfold Host.scatterAdd
  rw [Ideal.hostScatterAdd_def]
  unfold Ideal.hostScatterAdd
  congr 1
  refine Finset.sum_bij' (fun i _ => i 0) (fun e _ => ix1 e) ?_ ?_ ?_ ?_ ?_
  · intro i hi
    exact Finset.mem_filter.2 ⟨Finset.mem_univ _, (hmem i).1 (Finset.mem_filter.1 hi).2⟩
  · intro e he
    exact Finset.mem_filter.2 ⟨Finset.mem_univ _, (hmem (ix1 e)).2 (Finset.mem_filter.1 he).2⟩
  · intro i _; exact (eq_ix1 i).symm
  · intro e _; rfl
  · intro i _; exact congrArg upd (eq_ix1 i)

theorem ofFin_eq_ix1 {n : Nat} (k : Fin n) : (Shape.Idx.ofFin k : (⟨1, ![n]⟩ : Shape).Idx) = ix1 k := by
  funext a
  match a with
  | ⟨0, _⟩ => rfl

end Cert.LibGatherScatter
-- ==== Proof.PoolBridge.lean ====
import proofs.«426581_j30013231464613_1_alg».proof.KernelIdeal
import proofs.«426581_j30013231464613_1_alg».proof.ReferenceIdeal
import proofs.«426581_j30013231464613_1_alg».proof.Proof.Spec
import proofs.«426581_j30013231464613_1_alg».proof.Proof.LibGatherScatter
import Idealize.ShloMosaic.Lib.ValueIdx
import Idealize.ShloMosaic.Lib.Pipeline.Value
import Idealize.ShloMosaic.PureOps.Ideal.Laws
import Idealize.ShloMosaic.Lib.StableHlo.Predicate
import Idealize.ShloMosaic.Lib.IdealHost

noncomputable section

open scoped BigOperators

namespace Cert.PoolBridge

open Idealize.ShloMosaic Idealize.ShloMosaic.ValueIdx Idealize.ShloMosaic.StableHlo.Predicate

theorem toInt_eq_iff (x : BitVec 32) (g : Nat) (hg : g < 2 ^ 31) : x.toInt = (g : ℤ) ↔ x = BitVec.ofNat 32 g := by
  constructor
  · intro h
    apply BitVec.eq_of_toInt_eq
    rw [h, toInt_ofNat_small g hg]
  · rintro rfl
    exact toInt_ofNat_small g hg

theorem ij_eq_ix2 {n m : Nat} (p : Fin n) (q : Fin m) : ij p q = ix2 p q := by
  funext a; match a with | ⟨0, _⟩ => rfl | ⟨1, _⟩ => rfl

theorem uitofp_cmpi_eq (x y : BitVec 32) :
    (FloatOps.uitofp (F := Ideal) .f32 (IntOp.cmpi .eq x y) : Ideal .f32) = if x = y then 1 else 0 := by
  by_cases h : x = y
  · rw [if_pos h, cmpi_eq_iff.mpr h]
    show (((1#1 : BitVec 1).toNat : ℝ) : EReal) = 1
    simp
  · rw [if_neg h, eq_zero_of_ne_one (mt cmpi_eq_iff.mp h)]
    show (((0#1 : BitVec 1).toNat : ℝ) : EReal) = 0
    simp

theorem onehot_apply {n m : Nat} (h₁ : (⟨1, ![n]⟩ : Shape).BroadcastsInDim ⟨2, ![n, 1]⟩ ![0])
    (h₂ : (⟨2, ![n, 1]⟩ : Shape).BroadcastsInDim ⟨2, ![n, m]⟩ ![0, 1])
    (h₃ : (⟨2, ![1, m]⟩ : Shape).BroadcastsInDim ⟨2, ![n, m]⟩ ![0, 1])
    (batch : IVec ⟨1, ![n]⟩ 32) (p : Fin n) (q : Fin m) :
    (uitofp (F := Ideal) .f32 (cmpi .eq (broadcastInDim ⟨2, ![n, m]⟩ ![0, 1] h₂ (broadcastInDim ⟨2, ![n, 1]⟩ ![0] h₁ batch))
        (broadcastInDim ⟨2, ![n, m]⟩ ![0, 1] h₃ (iotaInDim ⟨2, ![1, m]⟩ 32 1))) : FVec Ideal ⟨2, ![n, m]⟩ .f32) (ix2 p q)
      = if batch (ix1 p) = BitVec.ofNat 32 q.val then 1 else 0 := by
  show FloatOps.uitofp (F := Ideal) .f32 (IntOp.cmpi .eq
      (broadcastInDim ⟨2, ![n, m]⟩ ![0, 1] h₂ (broadcastInDim ⟨2, ![n, 1]⟩ ![0] h₁ batch) (ix2 p q))
      (broadcastInDim ⟨2, ![n, m]⟩ ![0, 1] h₃ (iotaInDim ⟨2, ![1, m]⟩ 32 1) (ix2 p q))) = _
  rw [← ij_eq_ix2, bcast_rows h₁ h₂ batch p q, bcast_of_row h₃ _ p q, uitofp_cmpi_eq, Cert.LibGatherScatter.ofFin_eq_ix1]
  rfl

theorem reduceAdd_rows_apply {n m : Nat} {u : Shape} (h : (⟨2, ![n, m]⟩ : Shape).ReducesTo [0] ⟨1, ![m]⟩) (hu : 0 < u.numel)
    (x : FVec Ideal ⟨2, ![n, m]⟩ .f32) (init : FVec Ideal u .f32) (q : Fin m) :
    Host.reduceAdd (F := Ideal) x init h hu (ix1 q) = init (Shape.Idx.first hu) + ∑ p : Fin n, x (ix2 p q) := by
  have hdrop : ∀ i : (⟨2, ![n, m]⟩ : Shape).Idx, h.drop i = ix1 q ↔ i 1 = q := by
    intro i
    have hv : (h.drop i 0 : Nat) = i 1 := Shape.ReducesTo.drop_apply_val h i 0
    constructor
    · intro e; rw [e] at hv; exact Fin.ext hv.symm
    · intro e; funext b; have hb : b = 0 := Subsingleton.elim _ _; subst hb; exact Fin.ext (by rw [hv, e]; rfl)
  rw [hostReduceAdd_apply]
  unfold Ideal.hostReduceAdd
  congr 1
  refine Finset.sum_bij' (fun i _ => i 0) (fun p _ => ix2 p q) (fun _ _ => Finset.mem_univ _)
    (fun p _ => Finset.mem_filter.2 ⟨Finset.mem_univ _, (hdrop _).2 rfl⟩) ?_ (fun _ _ => rfl) ?_
  · intro i hi
    have h1 : i 1 = q := (hdrop i).1 (Finset.mem_filter.1 hi).2
    rw [← h1]; exact (eq_ix2 i).symm
  · intro i hi
    have h1 : i 1 = q := (hdrop i).1 (Finset.mem_filter.1 hi).2
    rw [← h1]; exact congrArg x (eq_ix2 i)

theorem sum_indicator_mul {n : Nat} (w : Fin n → BitVec 32) (g : Nat) (hg : g < 2 ^ 31) (x : Fin n → EReal) :
    ∑ e : Fin n, (if w e = BitVec.ofNat 32 g then (1 : EReal) else 0) * x e
      = ∑ e ∈ Finset.univ.filter (fun e : Fin n => (w e).toInt = (g : ℤ)), x e := by
  rw [Finset.sum_filter]
  refine Finset.sum_congr rfl fun e _ => ?_
  by_cases h : w e = BitVec.ofNat 32 g
  · rw [if_pos h, if_pos ((toInt_eq_iff (w e) g hg).2 h), one_mul]
  · rw [if_neg h, if_neg (fun h' => h ((toInt_eq_iff (w e) g hg).1 h')), zero_mul]

theorem sum_indicator {n : Nat} (w : Fin n → BitVec 32) (g : Nat) (hg : g < 2 ^ 31) :
    ∑ e : Fin n, (if w e = BitVec.ofNat 32 g then (1 : EReal) else 0)
      = ∑ e ∈ Finset.univ.filter (fun e : Fin n => (w e).toInt = (g : ℤ)), (1 : EReal) := by
  rw [← sum_indicator_mul w g hg (fun _ => 1)]
  exact Finset.sum_congr rfl fun e _ => (mul_one _).symm

theorem concat3_apply {α : Type} {R C C3 : Nat} (x₀ x₁ x₂ : (⟨2, ![R, C]⟩ : Shape).Idx → α)
    (h : Shape.Concatenates [(⟨2, ![R, C]⟩ : Shape), ⟨2, ![R, C]⟩, ⟨2, ![R, C]⟩] ⟨2, ![R, C3]⟩ 1)
    (r : Fin R) (c : Fin C3) (c' : Fin C) :
    (c.val = c'.val → concatenate ⟨2, ![R, C3]⟩ 1 [⟨⟨2, ![R, C]⟩, x₀⟩, ⟨⟨2, ![R, C]⟩, x₁⟩, ⟨⟨2, ![R, C]⟩, x₂⟩] h (ix2 r c) = x₀ (ix2 r c'))
    ∧ (c.val = C + c'.val → concatenate ⟨2, ![R, C3]⟩ 1 [⟨⟨2, ![R, C]⟩, x₀⟩, ⟨⟨2, ![R, C]⟩, x₁⟩, ⟨⟨2, ![R, C]⟩, x₂⟩] h (ix2 r c) = x₁ (ix2 r c'))
    ∧ (c.val = C + C + c'.val → concatenate ⟨2, ![R, C3]⟩ 1 [⟨⟨2, ![R, C]⟩, x₀⟩, ⟨⟨2, ![R, C]⟩, x₁⟩, ⟨⟨2, ![R, C]⟩, x₂⟩] h (ix2 r c) = x₂ (ix2 r c')) := by
  have hi : ∀ b : Fin (⟨2, ![R, C]⟩ : Shape).rank, b.cast (rfl : (⟨2, ![R, C]⟩ : Shape).rank = (⟨2, ![R, C3]⟩ : Shape).rank) ≠ (1 : Fin 2) →
      ((ix2 r c' : (⟨2, ![R, C]⟩ : Shape).Idx) b).val = ((ix2 r c : (⟨2, ![R, C3]⟩ : Shape).Idx) (b.cast rfl)).val := by
    intro b hb
    match b with
    | ⟨0, _⟩ => rfl
    | ⟨1, _⟩ => exact absurd rfl hb
  refine ⟨fun hc => ?_, fun hc => ?_, fun hc => ?_⟩
  · exact concatenate_apply_piece (t := ⟨2, ![R, C3]⟩) (1 : Fin 2)
      [⟨⟨2, ![R, C]⟩, x₀⟩, ⟨⟨2, ![R, C]⟩, x₁⟩, ⟨⟨2, ![R, C]⟩, x₂⟩] h (ix2 r c) 0 (by simp) ⟨2, ![R, C]⟩ x₀ rfl rfl 0 rfl (ix2 r c') hi
      (by show 0 + c'.val = c.val; omega)
  · exact concatenate_apply_piece (t := ⟨2, ![R, C3]⟩) (1 : Fin 2)
      [⟨⟨2, ![R, C]⟩, x₀⟩, ⟨⟨2, ![R, C]⟩, x₁⟩, ⟨⟨2, ![R, C]⟩, x₂⟩] h (ix2 r c) 1 (by simp) ⟨2, ![R, C]⟩ x₁ rfl rfl C (by simp) (ix2 r c') hi
      (by show C + c'.val = c.val; omega)
  · exact concatenate_apply_piece (t := ⟨2, ![R, C3]⟩) (1 : Fin 2)
      [⟨⟨2, ![R, C]⟩, x₀⟩, ⟨⟨2, ![R, C]⟩, x₁⟩, ⟨⟨2, ![R, C]⟩, x₂⟩] h (ix2 r c) 2 (by simp) ⟨2, ![R, C]⟩ x₂ rfl rfl (C + C) (by simp) (ix2 r c') hi
      (by show C + C + c'.val = c.val; omega)

theorem kcounts_apply {n m : Nat} (h₁ : (⟨1, ![n]⟩ : Shape).BroadcastsInDim ⟨2, ![n, 1]⟩ ![0])
    (h₂ : (⟨2, ![n, 1]⟩ : Shape).BroadcastsInDim ⟨2, ![n, m]⟩ ![0, 1])
    (h₃ : (⟨2, ![1, m]⟩ : Shape).BroadcastsInDim ⟨2, ![n, m]⟩ ![0, 1])
    (hred : (⟨2, ![n, m]⟩ : Shape).ReducesTo [0] ⟨1, ![m]⟩) (hu : 0 < (⟨0, ![]⟩ : Shape).numel)
    (hb : (⟨0, ![]⟩ : Shape).BroadcastsInDim ⟨1, ![m]⟩ ![])
    (batch : IVec ⟨1, ![n]⟩ 32) (g : Fin m) :
    maximumf (Host.reduceAdd (uitofp (F := Ideal) .f32 (cmpi .eq (broadcastInDim ⟨2, ![n, m]⟩ ![0, 1] h₂ (broadcastInDim ⟨2, ![n, 1]⟩ ![0] h₁ batch))
        (broadcastInDim ⟨2, ![n, m]⟩ ![0, 1] h₃ (iotaInDim ⟨2, ![1, m]⟩ 32 1))) : FVec Ideal ⟨2, ![n, m]⟩ .f32)
        (constant (F := Ideal) ⟨0, ![]⟩ .f32 0x00000000#32) hred hu)
      (broadcastInDim ⟨1, ![m]⟩ ![] hb (constant (F := Ideal) ⟨0, ![]⟩ .f32 0x3F800000#32)) (ix1 g)
      = max (∑ p : Fin n, if batch (ix1 p) = BitVec.ofNat 32 g.val then (1 : EReal) else 0) 1 := by
  rw [maximumf_apply, reduceAdd_rows_apply, broadcastInDim_scalar_apply, constant_apply, constant_apply,
    Ideal.ofBits_zero_f32, Ideal.ofBits_one_f32, zero_add]
  congr 1
  exact Finset.sum_congr rfl fun p _ => onehot_apply h₁ h₂ h₃ batch p g

theorem rcnt_apply {n G : Nat} (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (hb0 : (⟨0, ![]⟩ : Shape).BroadcastsInDim ⟨1, ![G]⟩ ![]) (hb1 : (⟨0, ![]⟩ : Shape).BroadcastsInDim ⟨1, ![n]⟩ ![])
    (h₁ : (⟨1, ![n]⟩ : Shape).BroadcastsInDim ⟨2, ![n, 1]⟩ ![0])
    (batch : IVec ⟨1, ![n]⟩ 32) (g : Fin G) :
    maximumf (Host.scatterAdd (F := Ideal) d
        (broadcastInDim ⟨1, ![G]⟩ ![] hb0 (constant (F := Ideal) ⟨0, ![]⟩ .f32 0x00000000#32))
        (broadcastInDim ⟨2, ![n, 1]⟩ ![0] h₁ batch)
        (broadcastInDim ⟨1, ![n]⟩ ![] hb1 (constant (F := Ideal) ⟨0, ![]⟩ .f32 0x3F800000#32)))
      (broadcastInDim ⟨1, ![G]⟩ ![] hb0 (constant (F := Ideal) ⟨0, ![]⟩ .f32 0x3F800000#32)) (ix1 g)
      = max (∑ e ∈ Finset.univ.filter (fun e : Fin n => (batch (ix1 e)).toInt = (g.val : ℤ)), (1 : EReal)) 1 := by
  rw [maximumf_apply, Cert.LibGatherScatter.scatterAdd_vec_apply d huw hiw hsd hivd, broadcastInDim_scalar_apply,
    broadcastInDim_scalar_apply, constant_apply, constant_apply, Ideal.ofBits_zero_f32, Ideal.ofBits_one_f32, zero_add]
  congr 1
  have hidx : ∀ e : Fin n, broadcastInDim ⟨2, ![n, 1]⟩ ![0] h₁ batch (ixP e) = batch (ix1 e) := fun e => by
    rw [bcast_col1 h₁ batch e, Cert.LibGatherScatter.ofFin_eq_ix1]
  simp only [hidx]
  refine Finset.sum_congr rfl fun e _ => ?_
  rw [broadcastInDim_scalar_apply, constant_apply, Ideal.ofBits_one_f32]

theorem counts_eq {n : Nat} (batch : IVec ⟨1, ![n]⟩ 32) (g : Nat) (hg : g < 2 ^ 31) :
    max (∑ p : Fin n, if batch (ix1 p) = BitVec.ofNat 32 g then (1 : EReal) else 0) 1
      = max (∑ e ∈ Finset.univ.filter (fun e : Fin n => (batch (ix1 e)).toInt = (g : ℤ)), (1 : EReal)) 1 := by
  rw [sum_indicator (fun e => batch (ix1 e)) g hg]

theorem rlayer_apply {n G C : Nat} (d : ScatterDims ⟨2, ![G, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (hb0 : (⟨0, ![]⟩ : Shape).BroadcastsInDim ⟨2, ![G, C]⟩ ![])
    (h₁ : (⟨1, ![n]⟩ : Shape).BroadcastsInDim ⟨2, ![n, 1]⟩ ![0])
    (hc1 : (⟨1, ![G]⟩ : Shape).BroadcastsInDim ⟨2, ![G, 1]⟩ ![0])
    (hc2 : (⟨2, ![G, 1]⟩ : Shape).BroadcastsInDim ⟨2, ![G, C]⟩ ![0, 1])
    (batch : IVec ⟨1, ![n]⟩ 32) (h : FVec Ideal ⟨2, ![n, C]⟩ .f32) (cnt : FVec Ideal ⟨1, ![G]⟩ .f32) (g : Fin G) (c' : Fin C) :
    Host.divf (F := Ideal)
        (Host.scatterAdd (F := Ideal) d (broadcastInDim ⟨2, ![G, C]⟩ ![] hb0 (constant (F := Ideal) ⟨0, ![]⟩ .f32 0x00000000#32))
          (broadcastInDim ⟨2, ![n, 1]⟩ ![0] h₁ batch) h)
        (broadcastInDim ⟨2, ![G, C]⟩ ![0, 1] hc2 (broadcastInDim ⟨2, ![G, 1]⟩ ![0] hc1 cnt)) (ix2 g c')
      = Ideal.div (∑ e ∈ Finset.univ.filter (fun e : Fin n => (batch (ix1 e)).toInt = (g.val : ℤ)), h (ix2 e c')) (cnt (ix1 g)) := by
  have hidx : ∀ e : Fin n, broadcastInDim ⟨2, ![n, 1]⟩ ![0] h₁ batch (ixP e) = batch (ix1 e) := fun e => by
    rw [bcast_col1 h₁ batch e, Cert.LibGatherScatter.ofFin_eq_ix1]
  rw [hostDivf_apply]
  congr 1
  · rw [Cert.LibGatherScatter.scatterAdd_rows_apply d huw hiw hsd hivd, broadcastInDim_scalar_apply, constant_apply,
      Ideal.ofBits_zero_f32, zero_add]
    simp only [hidx]
  · rw [← ij_eq_ix2, bcast_rows hc1 hc2 cnt g c', Cert.LibGatherScatter.ofFin_eq_ix1]

theorem kdiv_apply {G K : Nat} (hc1 : (⟨1, ![G]⟩ : Shape).BroadcastsInDim ⟨2, ![G, 1]⟩ ![0])
    (hc2 : (⟨2, ![G, 1]⟩ : Shape).BroadcastsInDim ⟨2, ![G, K]⟩ ![0, 1])
    (P : FVec Ideal ⟨2, ![G, K]⟩ .f32) (cnt : FVec Ideal ⟨1, ![G]⟩ .f32) (g : Fin G) (c : Fin K) :
    Host.divf (F := Ideal) P (broadcastInDim ⟨2, ![G, K]⟩ ![0, 1] hc2 (broadcastInDim ⟨2, ![G, 1]⟩ ![0] hc1 cnt)) (ix2 g c)
      = Ideal.div (P (ix2 g c)) (cnt (ix1 g)) := by
  rw [hostDivf_apply]
  congr 1
  rw [← ij_eq_ix2, bcast_rows hc1 hc2 cnt g c, Cert.LibGatherScatter.ofFin_eq_ix1]

theorem pooled_sum {n m K : Nat} (h₁ : (⟨1, ![n]⟩ : Shape).BroadcastsInDim ⟨2, ![n, 1]⟩ ![0])
    (h₂ : (⟨2, ![n, 1]⟩ : Shape).BroadcastsInDim ⟨2, ![n, m]⟩ ![0, 1])
    (h₃ : (⟨2, ![1, m]⟩ : Shape).BroadcastsInDim ⟨2, ![n, m]⟩ ![0, 1])
    (batch : IVec ⟨1, ![n]⟩ 32) (xs : FVec Ideal ⟨2, ![n, K]⟩ .f32) (x : Fin n → EReal) (g : Fin m) (hg : g.val < 2 ^ 31)
    (c : Fin K) (hx : ∀ e : Fin n, xs (ix2 e c) = x e) :
    ∑ e : Fin n, (uitofp (F := Ideal) .f32 (cmpi .eq (broadcastInDim ⟨2, ![n, m]⟩ ![0, 1] h₂ (broadcastInDim ⟨2, ![n, 1]⟩ ![0] h₁ batch))
        (broadcastInDim ⟨2, ![n, m]⟩ ![0, 1] h₃ (iotaInDim ⟨2, ![1, m]⟩ 32 1))) : FVec Ideal ⟨2, ![n, m]⟩ .f32) (ix2 e g) * xs (ix2 e c)
      = ∑ e ∈ Finset.univ.filter (fun e : Fin n => (batch (ix1 e)).toInt = (g.val : ℤ)), x e := by
  rw [← sum_indicator_mul (fun e => batch (ix1 e)) g.val hg x]
  refine Finset.sum_congr rfl fun e _ => ?_
  rw [onehot_apply, hx e]

theorem kernel_side [Cert.KernelIdeal.Facts₀] (batch : IVec Cert.KernelIdeal.S50000 32) (h1 h2 h3 : FVec Ideal Cert.KernelIdeal.S50000x128 .f32)
    (g : Fin 128) (c : Fin 384) (c' : Fin 128) (h : FVec Ideal Cert.KernelIdeal.S50000x128 .f32)
    (hx : ∀ e : Fin 50000, (concatenate Cert.KernelIdeal.S50000x384 1 [⟨Cert.KernelIdeal.S50000x128, h1⟩, ⟨Cert.KernelIdeal.S50000x128, h2⟩, ⟨Cert.KernelIdeal.S50000x128, h3⟩]
          Cert.KernelIdeal.Facts₀.concatenates_S50000x128_S50000x128_S50000x128_S50000x384_d1) (ix2 e c) = h (ix2 e c')) :
    (Host.divf (F := Ideal)
      (Cert.KernelIdeal.Spec.poolArr (uitofp (F := Ideal) .f32 (cmpi .eq
          (broadcastInDim Cert.KernelIdeal.S50000x128 ![0, 1] Cert.KernelIdeal.Facts₀.bcast_S50000x1_S50000x128_0_1
            (broadcastInDim Cert.KernelIdeal.S50000x1 ![0] Cert.KernelIdeal.Facts₀.bcast_S50000_S50000x1_0 batch))
          (broadcastInDim Cert.KernelIdeal.S50000x128 ![0, 1] Cert.KernelIdeal.Facts₀.bcast_S1x128_S50000x128_0_1 (iotaInDim Cert.KernelIdeal.S1x128 32 1))))
        (concatenate Cert.KernelIdeal.S50000x384 1 [⟨Cert.KernelIdeal.S50000x128, h1⟩, ⟨Cert.KernelIdeal.S50000x128, h2⟩, ⟨Cert.KernelIdeal.S50000x128, h3⟩]
          Cert.KernelIdeal.Facts₀.concatenates_S50000x128_S50000x128_S50000x128_S50000x384_d1))
      (broadcastInDim Cert.KernelIdeal.S128x384 ![0, 1] Cert.KernelIdeal.Facts₀.bcast_S128x1_S128x384_0_1
        (broadcastInDim Cert.KernelIdeal.S128x1 ![0] Cert.KernelIdeal.Facts₀.bcast_S128_S128x1_0
          (maximumf
            (Host.reduceAdd (uitofp (F := Ideal) .f32 (cmpi .eq
          (broadcastInDim Cert.KernelIdeal.S50000x128 ![0, 1] Cert.KernelIdeal.Facts₀.bcast_S50000x1_S50000x128_0_1
            (broadcastInDim Cert.KernelIdeal.S50000x1 ![0] Cert.KernelIdeal.Facts₀.bcast_S50000_S50000x1_0 batch))
          (broadcastInDim Cert.KernelIdeal.S50000x128 ![0, 1] Cert.KernelIdeal.Facts₀.bcast_S1x128_S50000x128_0_1 (iotaInDim Cert.KernelIdeal.S1x128 32 1))))
              (constant (F := Ideal) Cert.KernelIdeal.S_ .f32 0x00000000#32) Cert.KernelIdeal.Facts₀.reducesTo_S50000x128_S128_d0 Cert.KernelIdeal.Facts₀.h_S_)
            (broadcastInDim Cert.KernelIdeal.S128 ![] Cert.KernelIdeal.Facts₀.bcast_S_S128 (constant (F := Ideal) Cert.KernelIdeal.S_ .f32 0x3F800000#32)))))) (ix2 g c)
      = Ideal.div (∑ e ∈ Finset.univ.filter (fun e : Fin 50000 => (batch (ix1 e)).toInt = (g.val : ℤ)), h (ix2 e c'))
          (max (∑ e ∈ Finset.univ.filter (fun e : Fin 50000 => (batch (ix1 e)).toInt = (g.val : ℤ)), (1 : EReal)) 1) := by
  have hg : g.val < 2 ^ 31 := by have := g.isLt; omega
  rw [kdiv_apply, Cert.KernelIdeal.Spec.poolArr_apply, pooled_sum _ _ _ batch _ (fun e => h (ix2 e c')) g hg c hx, kcounts_apply,
    counts_eq batch g.val hg]

theorem reference_layer [Cert.ReferenceIdeal.Facts₀] (batch : IVec Cert.ReferenceIdeal.S50000 32) (h : FVec Ideal Cert.ReferenceIdeal.S50000x128 .f32)
    (g : Fin 128) (c' : Fin 128) :
    (Host.divf (F := Ideal)
          (Host.scatterAdd (F := Ideal) Cert.ReferenceIdeal.scatter_S128x128_S50000x1_S50000x128_1_0_0_1
            (broadcastInDim Cert.ReferenceIdeal.S128x128 ![] Cert.ReferenceIdeal.Facts₀.bcast_S_S128x128 (constant (F := Ideal) Cert.ReferenceIdeal.S_ .f32 0x00000000#32))
            (broadcastInDim Cert.ReferenceIdeal.S50000x1 ![0] Cert.ReferenceIdeal.Facts₀.bcast_S50000_S50000x1_0 batch) h)
          (broadcastInDim Cert.ReferenceIdeal.S128x128 ![0, 1] Cert.ReferenceIdeal.Facts₀.bcast_S128x1_S128x128_0_1
            (broadcastInDim Cert.ReferenceIdeal.S128x1 ![0] Cert.ReferenceIdeal.Facts₀.bcast_S128_S128x1_0
              (maximumf
            (Host.scatterAdd (F := Ideal) Cert.ReferenceIdeal.scatter_S128_S50000x1_S50000_n_0_0_1
              (broadcastInDim Cert.ReferenceIdeal.S128 ![] Cert.ReferenceIdeal.Facts₀.bcast_S_S128 (constant (F := Ideal) Cert.ReferenceIdeal.S_ .f32 0x00000000#32))
              (broadcastInDim Cert.ReferenceIdeal.S50000x1 ![0] Cert.ReferenceIdeal.Facts₀.bcast_S50000_S50000x1_0 batch)
              (broadcastInDim Cert.ReferenceIdeal.S50000 ![] Cert.ReferenceIdeal.Facts₀.bcast_S_S50000 (constant (F := Ideal) Cert.ReferenceIdeal.S_ .f32 0x3F800000#32)))
            (broadcastInDim Cert.ReferenceIdeal.S128 ![] Cert.ReferenceIdeal.Facts₀.bcast_S_S128 (constant (F := Ideal) Cert.ReferenceIdeal.S_ .f32 0x3F800000#32)))))) (ix2 g c')
      = Ideal.div (∑ e ∈ Finset.univ.filter (fun e : Fin 50000 => (batch (ix1 e)).toInt = (g.val : ℤ)), h (ix2 e c'))
          (max (∑ e ∈ Finset.univ.filter (fun e : Fin 50000 => (batch (ix1 e)).toInt = (g.val : ℤ)), (1 : EReal)) 1) := by
  rw [rlayer_apply Cert.ReferenceIdeal.scatter_S128x128_S50000x1_S50000x128_1_0_0_1 rfl rfl rfl rfl,
    rcnt_apply Cert.ReferenceIdeal.scatter_S128_S50000x1_S50000_n_0_0_1 rfl rfl rfl rfl]

/-- The membership product divided by the clipped column sums is the per-graph mean: a row whose id matches no column adds 0 on both sides, and 1 x = x, 0 x = 0. -/
theorem pool_bridge [Cert.KernelIdeal.Facts₀] [Cert.ReferenceIdeal.Facts₀] (batch : IVec Cert.KernelIdeal.S50000 32) (h1 h2 h3 : FVec Ideal Cert.KernelIdeal.S50000x128 .f32) :
    Host.divf (F := Ideal)
      (Cert.KernelIdeal.Spec.poolArr (uitofp (F := Ideal) .f32 (cmpi .eq
          (broadcastInDim Cert.KernelIdeal.S50000x128 ![0, 1] Cert.KernelIdeal.Facts₀.bcast_S50000x1_S50000x128_0_1
            (broadcastInDim Cert.KernelIdeal.S50000x1 ![0] Cert.KernelIdeal.Facts₀.bcast_S50000_S50000x1_0 batch))
          (broadcastInDim Cert.KernelIdeal.S50000x128 ![0, 1] Cert.KernelIdeal.Facts₀.bcast_S1x128_S50000x128_0_1 (iotaInDim Cert.KernelIdeal.S1x128 32 1))))
        (concatenate Cert.KernelIdeal.S50000x384 1 [⟨Cert.KernelIdeal.S50000x128, h1⟩, ⟨Cert.KernelIdeal.S50000x128, h2⟩, ⟨Cert.KernelIdeal.S50000x128, h3⟩]
          Cert.KernelIdeal.Facts₀.concatenates_S50000x128_S50000x128_S50000x128_S50000x384_d1))
      (broadcastInDim Cert.KernelIdeal.S128x384 ![0, 1] Cert.KernelIdeal.Facts₀.bcast_S128x1_S128x384_0_1
        (broadcastInDim Cert.KernelIdeal.S128x1 ![0] Cert.KernelIdeal.Facts₀.bcast_S128_S128x1_0
          (maximumf
            (Host.reduceAdd (uitofp (F := Ideal) .f32 (cmpi .eq
          (broadcastInDim Cert.KernelIdeal.S50000x128 ![0, 1] Cert.KernelIdeal.Facts₀.bcast_S50000x1_S50000x128_0_1
            (broadcastInDim Cert.KernelIdeal.S50000x1 ![0] Cert.KernelIdeal.Facts₀.bcast_S50000_S50000x1_0 batch))
          (broadcastInDim Cert.KernelIdeal.S50000x128 ![0, 1] Cert.KernelIdeal.Facts₀.bcast_S1x128_S50000x128_0_1 (iotaInDim Cert.KernelIdeal.S1x128 32 1))))
              (constant (F := Ideal) Cert.KernelIdeal.S_ .f32 0x00000000#32) Cert.KernelIdeal.Facts₀.reducesTo_S50000x128_S128_d0 Cert.KernelIdeal.Facts₀.h_S_)
            (broadcastInDim Cert.KernelIdeal.S128 ![] Cert.KernelIdeal.Facts₀.bcast_S_S128 (constant (F := Ideal) Cert.KernelIdeal.S_ .f32 0x3F800000#32)))))
    = concatenate Cert.ReferenceIdeal.S128x384 1
      [⟨Cert.ReferenceIdeal.S128x128, Host.divf (F := Ideal)
          (Host.scatterAdd (F := Ideal) Cert.ReferenceIdeal.scatter_S128x128_S50000x1_S50000x128_1_0_0_1
            (broadcastInDim Cert.ReferenceIdeal.S128x128 ![] Cert.ReferenceIdeal.Facts₀.bcast_S_S128x128 (constant (F := Ideal) Cert.ReferenceIdeal.S_ .f32 0x00000000#32))
            (broadcastInDim Cert.ReferenceIdeal.S50000x1 ![0] Cert.ReferenceIdeal.Facts₀.bcast_S50000_S50000x1_0 batch) h1)
          (broadcastInDim Cert.ReferenceIdeal.S128x128 ![0, 1] Cert.ReferenceIdeal.Facts₀.bcast_S128x1_S128x128_0_1
            (broadcastInDim Cert.ReferenceIdeal.S128x1 ![0] Cert.ReferenceIdeal.Facts₀.bcast_S128_S128x1_0
              (maximumf
            (Host.scatterAdd (F := Ideal) Cert.ReferenceIdeal.scatter_S128_S50000x1_S50000_n_0_0_1
              (broadcastInDim Cert.ReferenceIdeal.S128 ![] Cert.ReferenceIdeal.Facts₀.bcast_S_S128 (constant (F := Ideal) Cert.ReferenceIdeal.S_ .f32 0x00000000#32))
              (broadcastInDim Cert.ReferenceIdeal.S50000x1 ![0] Cert.ReferenceIdeal.Facts₀.bcast_S50000_S50000x1_0 batch)
              (broadcastInDim Cert.ReferenceIdeal.S50000 ![] Cert.ReferenceIdeal.Facts₀.bcast_S_S50000 (constant (F := Ideal) Cert.ReferenceIdeal.S_ .f32 0x3F800000#32)))
            (broadcastInDim Cert.ReferenceIdeal.S128 ![] Cert.ReferenceIdeal.Facts₀.bcast_S_S128 (constant (F := Ideal) Cert.ReferenceIdeal.S_ .f32 0x3F800000#32)))))⟩,
       ⟨Cert.ReferenceIdeal.S128x128, Host.divf (F := Ideal)
          (Host.scatterAdd (F := Ideal) Cert.ReferenceIdeal.scatter_S128x128_S50000x1_S50000x128_1_0_0_1
            (broadcastInDim Cert.ReferenceIdeal.S128x128 ![] Cert.ReferenceIdeal.Facts₀.bcast_S_S128x128 (constant (F := Ideal) Cert.ReferenceIdeal.S_ .f32 0x00000000#32))
            (broadcastInDim Cert.ReferenceIdeal.S50000x1 ![0] Cert.ReferenceIdeal.Facts₀.bcast_S50000_S50000x1_0 batch) h2)
          (broadcastInDim Cert.ReferenceIdeal.S128x128 ![0, 1] Cert.ReferenceIdeal.Facts₀.bcast_S128x1_S128x128_0_1
            (broadcastInDim Cert.ReferenceIdeal.S128x1 ![0] Cert.ReferenceIdeal.Facts₀.bcast_S128_S128x1_0
              (maximumf
            (Host.scatterAdd (F := Ideal) Cert.ReferenceIdeal.scatter_S128_S50000x1_S50000_n_0_0_1
              (broadcastInDim Cert.ReferenceIdeal.S128 ![] Cert.ReferenceIdeal.Facts₀.bcast_S_S128 (constant (F := Ideal) Cert.ReferenceIdeal.S_ .f32 0x00000000#32))
              (broadcastInDim Cert.ReferenceIdeal.S50000x1 ![0] Cert.ReferenceIdeal.Facts₀.bcast_S50000_S50000x1_0 batch)
              (broadcastInDim Cert.ReferenceIdeal.S50000 ![] Cert.ReferenceIdeal.Facts₀.bcast_S_S50000 (constant (F := Ideal) Cert.ReferenceIdeal.S_ .f32 0x3F800000#32)))
            (broadcastInDim Cert.ReferenceIdeal.S128 ![] Cert.ReferenceIdeal.Facts₀.bcast_S_S128 (constant (F := Ideal) Cert.ReferenceIdeal.S_ .f32 0x3F800000#32)))))⟩,
       ⟨Cert.ReferenceIdeal.S128x128, Host.divf (F := Ideal)
          (Host.scatterAdd (F := Ideal) Cert.ReferenceIdeal.scatter_S128x128_S50000x1_S50000x128_1_0_0_1
            (broadcastInDim Cert.ReferenceIdeal.S128x128 ![] Cert.ReferenceIdeal.Facts₀.bcast_S_S128x128 (constant (F := Ideal) Cert.ReferenceIdeal.S_ .f32 0x00000000#32))
            (broadcastInDim Cert.ReferenceIdeal.S50000x1 ![0] Cert.ReferenceIdeal.Facts₀.bcast_S50000_S50000x1_0 batch) h3)
          (broadcastInDim Cert.ReferenceIdeal.S128x128 ![0, 1] Cert.ReferenceIdeal.Facts₀.bcast_S128x1_S128x128_0_1
            (broadcastInDim Cert.ReferenceIdeal.S128x1 ![0] Cert.ReferenceIdeal.Facts₀.bcast_S128_S128x1_0
              (maximumf
            (Host.scatterAdd (F := Ideal) Cert.ReferenceIdeal.scatter_S128_S50000x1_S50000_n_0_0_1
              (broadcastInDim Cert.ReferenceIdeal.S128 ![] Cert.ReferenceIdeal.Facts₀.bcast_S_S128 (constant (F := Ideal) Cert.ReferenceIdeal.S_ .f32 0x00000000#32))
              (broadcastInDim Cert.ReferenceIdeal.S50000x1 ![0] Cert.ReferenceIdeal.Facts₀.bcast_S50000_S50000x1_0 batch)
              (broadcastInDim Cert.ReferenceIdeal.S50000 ![] Cert.ReferenceIdeal.Facts₀.bcast_S_S50000 (constant (F := Ideal) Cert.ReferenceIdeal.S_ .f32 0x3F800000#32)))
            (broadcastInDim Cert.ReferenceIdeal.S128 ![] Cert.ReferenceIdeal.Facts₀.bcast_S_S128 (constant (F := Ideal) Cert.ReferenceIdeal.S_ .f32 0x3F800000#32)))))⟩]
      Cert.ReferenceIdeal.Facts₀.concatenates_S128x128_S128x128_S128x128_S128x384_d1 := by
  funext j
  obtain ⟨g, c, rfl⟩ : ∃ (g : Fin 128) (c : Fin 384), j = ix2 g c := ⟨j 0, j 1, eq_ix2 j⟩
  have hc384 := c.isLt
  rcases (by omega : c.val < 128 ∨ (128 ≤ c.val ∧ c.val < 256) ∨ 256 ≤ c.val) with hc | hc | hc
  · rw [kernel_side batch h1 h2 h3 g c ⟨c.val, hc⟩ h1 (fun e => (concat3_apply h1 h2 h3 _ e c ⟨c.val, hc⟩).1 rfl),
      (concat3_apply _ _ _ _ g c ⟨c.val, hc⟩).1 rfl, reference_layer]
  · rw [kernel_side batch h1 h2 h3 g c ⟨c.val - 128, by omega⟩ h2
        (fun e => (concat3_apply h1 h2 h3 _ e c ⟨c.val - 128, by omega⟩).2.1 (by show c.val = 128 + (c.val - 128); omega)),
      (concat3_apply _ _ _ _ g c ⟨c.val - 128, by omega⟩).2.1 (by show c.val = 128 + (c.val - 128); omega), reference_layer]
  · rw [kernel_side batch h1 h2 h3 g c ⟨c.val - 256, by omega⟩ h3
        (fun e => (concat3_apply h1 h2 h3 _ e c ⟨c.val - 256, by omega⟩).2.2 (by show c.val = 128 + 128 + (c.val - 256); omega)),
      (concat3_apply _ _ _ _ g c ⟨c.val - 256, by omega⟩).2.2 (by show c.val = 128 + 128 + (c.val - 256); omega), reference_layer]

end Cert.PoolBridge

end
-- ==== Proof.ChainPool.lean ====
import proofs.«426581_j30013231464613_1_alg».proof.Proof.ChainK
import proofs.«426581_j30013231464613_1_alg».proof.Proof.Arr6
import proofs.«426581_j30013231464613_1_alg».proof.Proof.RefStages
import proofs.«426581_j30013231464613_1_alg».proof.Proof.PoolBridge

set_option maxRecDepth 16384

noncomputable section

namespace Cert.KernelIdeal.Calls

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

theorem B14_pool : B14 m c main_v88
    = Spec.poolArr (kOnehot (F := Ideal) (m ((c.tc : Thread nD τ).loc main_arg2))) (kConcat (B6 m c main_v45) (B9 m c main_v61) (B12 m c main_v77)) := by
  rw [B14_out, arr6_eq, in6_0, in6_1, B13_v84, B13_v78, B12_v45, B12_v61]

theorem out0_of_layers
    (h1 : B6 m c main_v45 = Cert.ReferenceIdeal.ReadP.val_main_v47 (F := Ideal) (m ((c.tc : Thread nD τ).loc main_arg0)) (m ((c.tc : Thread nD τ).loc main_arg1)) (m ((c.tc : Thread nD τ).loc main_arg3)) (m ((c.tc : Thread nD τ).loc main_arg4)))
    (h2 : B9 m c main_v61 = Cert.ReferenceIdeal.ReadP.val_main_v65 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
    (h3 : B12 m c main_v77 = Cert.ReferenceIdeal.ReadP.val_main_v83 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :
    B15 m c main_v91
      = Cert.ReferenceIdeal.ReadP.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [B15_v91, B14_pool, h1, h2, h3]
  unfold kDiv kCounts kOnehot kConcat
  unfold Cert.ReferenceIdeal.ReadP.val_main_v106 Cert.ReferenceIdeal.ReadP.val_main_v95 Cert.ReferenceIdeal.ReadP.val_main_v100 Cert.ReferenceIdeal.ReadP.val_main_v105
    Cert.ReferenceIdeal.ReadP.val_main_v93 Cert.ReferenceIdeal.ReadP.val_main_v98 Cert.ReferenceIdeal.ReadP.val_main_v103 Cert.ReferenceIdeal.ReadP.val_main_v94 Cert.ReferenceIdeal.ReadP.val_main_v99 Cert.ReferenceIdeal.ReadP.val_main_v104
    Cert.ReferenceIdeal.ReadP.val_main_v91 Cert.ReferenceIdeal.ReadP.val_main_v96 Cert.ReferenceIdeal.ReadP.val_main_v101 Cert.ReferenceIdeal.ReadP.val_main_v92 Cert.ReferenceIdeal.ReadP.val_main_v97 Cert.ReferenceIdeal.ReadP.val_main_v102
    Cert.ReferenceIdeal.ReadP.val_main_v90 Cert.ReferenceIdeal.ReadP.val_main_v89 Cert.ReferenceIdeal.ReadP.val_main_v88 Cert.ReferenceIdeal.ReadP.val_main_v87 Cert.ReferenceIdeal.ReadP.val_main_v86 Cert.ReferenceIdeal.ReadP.val_main_v85 Cert.ReferenceIdeal.ReadP.val_main_v84
    Cert.ReferenceIdeal.ReadP.val_main_cst_15 Cert.ReferenceIdeal.ReadP.val_main_cst_16 Cert.ReferenceIdeal.ReadP.val_main_cst_17 Cert.ReferenceIdeal.ReadP.val_main_cst_18 Cert.ReferenceIdeal.ReadP.val_main_cst_19 Cert.ReferenceIdeal.ReadP.val_main_cst_20
  exact Cert.PoolBridge.pool_bridge _ _ _ _

end Cert.KernelIdeal.Calls

end
-- ==== Proof.Chain.lean ====
import proofs.«426581_j30013231464613_1_alg».proof.Proof.ChainLayers
import proofs.«426581_j30013231464613_1_alg».proof.Proof.ChainPool

noncomputable section

namespace Cert.KernelIdeal.Calls

open Cert.KernelIdeal Cert.KernelIdeal.Gen
open Idealize.ShloMosaic Idealize.ShloMosaic.TcCoe Idealize.SL.Sem

/-- The first result is the reference's pooled means at the same arguments. -/
theorem out0_eq (m : (ℓ : Loc nD τ sig) → Buf (Elt Ideal) ℓ) (c : Dev nD) :
    B15 m c main_v91 = Cert.ReferenceIdeal.ReadP.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  out0_of_layers m c (layer1_eq m c) (layer2_eq m c) (layer3_eq m c)

end Cert.KernelIdeal.Calls

end
-- ==== Proof.RefReads.lean ====
import proofs.«426581_j30013231464613_1_alg».proof.Proof.RefStages
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]
theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsA_fresh : (opsA : List (HloOp τ sig (Elt F))).Forall fun op => op.fresh = ∅ := by
  simp only [List.Forall]; repeat' constructor

abbrev opsB : List (HloOp τ sig (Elt F)) :=
  [ binary main_arg0 main_arg3 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]
theorem opsB_sub : (opsB : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem opsB_fresh : (opsB : List (HloOp τ sig (Elt F))).Forall fun op => op.fresh = ∅ := by
  simp only [List.Forall]; repeat' constructor

abbrev opsC : List (HloOp τ sig (Elt F)) :=
  [ binary main_v47 main_arg5 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v64) (TRef.of (T := ⟨S50000x128, .f32⟩) main_call2_v0) (TRef.of (T := ⟨S50000x128, .f32⟩) main_v65) maximumf ]
theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem opsC_fresh : (opsC : List (HloOp τ sig (Elt F))).Forall fun op => op.fresh = ∅ := by
  simp only [List.Forall]; repeat' constructor

abbrev opsD : List (HloOp τ sig (Elt F)) :=
  [ binary main_v65 main_arg7 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_12 (constantI S_ 32 0#32),
    unary main_c_12 main_v67 (broadcastInDim S850000 ![] bcast_S_S850000 : (⟨S_, .i32⟩ : BufTy).Contents (Elt F) → (⟨S850000, .i32⟩ : BufTy).Contents (Elt F)),
    binary main_v3 main_v67 main_v68 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v69 (broadcastInDim S850000 ![] bcast_S_S850000 : (⟨S_, .i32⟩ : BufTy).Contents (Elt F) → (⟨S850000, .i32⟩ : BufTy).Contents (Elt F)),
    binary main_v3 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v3 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v66 main_v72 main_v73 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v74 (broadcastInDim S850000x1 ![0] bcast_S850000_S850000x1_0 : (⟨S850000, .f32⟩ : BufTy).Contents (Elt F) → (⟨S850000x1, .f32⟩ : BufTy).Contents (Elt F)),
    unary main_v74 main_v75 (broadcastInDim S850000x128 ![0, 1] bcast_S850000x1_S850000x128_0_1 : (⟨S850000x1, .f32⟩ : BufTy).Contents (Elt F) → (⟨S850000x128, .f32⟩ : BufTy).Contents (Elt F)),
    binary main_v73 main_v75 main_v76 (mulf : (⟨S850000x128, .f32⟩ : BufTy).Contents (Elt F) → (⟨S850000x128, .f32⟩ : BufTy).Contents (Elt F) → (⟨S850000x128, .f32⟩ : BufTy).Contents (Elt F)),
    nullary main_cst_14 (constant S_ .f32 0x00000000#32),
    unary main_cst_14 main_v77 (broadcastInDim S50000x128 ![] bcast_S_S50000x128 : (⟨S_, .f32⟩ : BufTy).Contents (Elt F) → (⟨S50000x128, .f32⟩ : BufTy).Contents (Elt F)),
    unary main_v6 main_v78 (broadcastInDim S850000x1 ![0] bcast_S850000_S850000x1_0 : (⟨S850000, .i32⟩ : BufTy).Contents (Elt F) → (⟨S850000x1, .i32⟩ : BufTy).Contents (Elt F)),
    ternary main_v77 main_v78 main_v76 main_v79 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg8 main_v80 (broadcastInDim S1x128 ![1] bcast_S128_S1x128_1 : (⟨S128, .f32⟩ : BufTy).Contents (Elt F) → (⟨S1x128, .f32⟩ : BufTy).Contents (Elt F)),
    unary main_v80 main_v81 (broadcastInDim S50000x128 ![0, 1] bcast_S1x128_S50000x128_0_1 : (⟨S1x128, .f32⟩ : BufTy).Contents (Elt F) → (⟨S50000x128, .f32⟩ : BufTy).Contents (Elt F)),
    binary main_v79 main_v81 main_v82 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v82) (TRef.of (T := ⟨S50000x128, .f32⟩) main_call3_v0) (TRef.of (T := ⟨S50000x128, .f32⟩) main_v83) maximumf ]
theorem opsD_sub : (opsD : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem opsD_fresh : (opsD : List (HloOp τ sig (Elt F))).Forall fun op => op.fresh = ∅ := by
  simp only [List.Forall]; repeat' constructor

abbrev opsE : List (HloOp τ sig (Elt F)) :=
  [ nullary main_cst_15 (constant S_ .f32 0x3F800000#32),
    unary main_cst_15 main_v84 (broadcastInDim S50000 ![] bcast_S_S50000 : (⟨S_, .f32⟩ : BufTy).Contents (Elt F) → (⟨S50000, .f32⟩ : BufTy).Contents (Elt F)),
    nullary main_cst_16 (constant S_ .f32 0x00000000#32),
    unary main_cst_16 main_v85 (broadcastInDim S128 ![] bcast_S_S128 : (⟨S_, .f32⟩ : BufTy).Contents (Elt F) → (⟨S128, .f32⟩ : BufTy).Contents (Elt F)),
    unary main_arg2 main_v86 (broadcastInDim S50000x1 ![0] bcast_S50000_S50000x1_0 : (⟨S50000, .i32⟩ : BufTy).Contents (Elt F) → (⟨S50000x1, .i32⟩ : BufTy).Contents (Elt F)),
    ternary main_v85 main_v86 main_v84 main_v87 ((fun x i u => Host.scatterAdd scatter_S128_S50000x1_S50000_n_0_0_1 x i u) : (⟨S128, .f32⟩ : BufTy).Contents (Elt F) → (⟨S50000x1, .i32⟩ : BufTy).Contents (Elt F) → (⟨S50000, .f32⟩ : BufTy).Contents (Elt F) → (⟨S128, .f32⟩ : BufTy).Contents (Elt F)),
    nullary main_cst_17 (constant S_ .f32 0x3F800000#32),
    unary main_cst_17 main_v88 (broadcastInDim S128 ![] bcast_S_S128 : (⟨S_, .f32⟩ : BufTy).Contents (Elt F) → (⟨S128, .f32⟩ : BufTy).Contents (Elt F)),
    binary main_v87 main_v88 main_v89 (maximumf : (⟨S128, .f32⟩ : BufTy).Contents (Elt F) → (⟨S128, .f32⟩ : BufTy).Contents (Elt F) → (⟨S128, .f32⟩ : BufTy).Contents (Elt F)),
    unary main_v89 main_v90 (broadcastInDim S128x1 ![0] bcast_S128_S128x1_0 : (⟨S128, .f32⟩ : BufTy).Contents (Elt F) → (⟨S128x1, .f32⟩ : BufTy).Contents (Elt F)),
    nullary main_cst_18 (constant S_ .f32 0x00000000#32),
    unary main_cst_18 main_v91 (broadcastInDim S128x128 ![] bcast_S_S128x128 : (⟨S_, .f32⟩ : BufTy).Contents (Elt F) → (⟨S128x128, .f32⟩ : BufTy).Contents (Elt F)),
    unary main_arg2 main_v92 (broadcastInDim S50000x1 ![0] bcast_S50000_S50000x1_0 : (⟨S50000, .i32⟩ : BufTy).Contents (Elt F) → (⟨S50000x1, .i32⟩ : BufTy).Contents (Elt F)),
    ternary main_v91 main_v92 main_v47 main_v93 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    unary main_v90 main_v94 (broadcastInDim S128x128 ![0, 1] bcast_S128x1_S128x128_0_1 : (⟨S128x1, .f32⟩ : BufTy).Contents (Elt F) → (⟨S128x128, .f32⟩ : BufTy).Contents (Elt F)),
    binary main_v93 main_v94 main_v95 (Host.divf : (⟨S128x128, .f32⟩ : BufTy).Contents (Elt F) → (⟨S128x128, .f32⟩ : BufTy).Contents (Elt F) → (⟨S128x128, .f32⟩ : BufTy).Contents (Elt F)),
    nullary main_cst_19 (constant S_ .f32 0x00000000#32),
    unary main_cst_19 main_v96 (broadcastInDim S128x128 ![] bcast_S_S128x128 : (⟨S_, .f32⟩ : BufTy).Contents (Elt F) → (⟨S128x128, .f32⟩ : BufTy).Contents (Elt F)),
    unary main_arg2 main_v97 (broadcastInDim S50000x1 ![0] bcast_S50000_S50000x1_0 : (⟨S50000, .i32⟩ : BufTy).Contents (Elt F) → (⟨S50000x1, .i32⟩ : BufTy).Contents (Elt F)),
    ternary main_v96 main_v97 main_v65 main_v98 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    unary main_v90 main_v99 (broadcastInDim S128x128 ![0, 1] bcast_S128x1_S128x128_0_1 : (⟨S128x1, .f32⟩ : BufTy).Contents (Elt F) → (⟨S128x128, .f32⟩ : BufTy).Contents (Elt F)),
    binary main_v98 main_v99 main_v100 (Host.divf : (⟨S128x128, .f32⟩ : BufTy).Contents (Elt F) → (⟨S128x128, .f32⟩ : BufTy).Contents (Elt F) → (⟨S128x128, .f32⟩ : BufTy).Contents (Elt F)),
    nullary main_cst_20 (constant S_ .f32 0x00000000#32),
    unary main_cst_20 main_v101 (broadcastInDim S128x128 ![] bcast_S_S128x128 : (⟨S_, .f32⟩ : BufTy).Contents (Elt F) → (⟨S128x128, .f32⟩ : BufTy).Contents (Elt F)),
    unary main_arg2 main_v102 (broadcastInDim S50000x1 ![0] bcast_S50000_S50000x1_0 : (⟨S50000, .i32⟩ : BufTy).Contents (Elt F) → (⟨S50000x1, .i32⟩ : BufTy).Contents (Elt F)),
    ternary main_v101 main_v102 main_v83 main_v103 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    unary main_v90 main_v104 (broadcastInDim S128x128 ![0, 1] bcast_S128x1_S128x128_0_1 : (⟨S128x1, .f32⟩ : BufTy).Contents (Elt F) → (⟨S128x128, .f32⟩ : BufTy).Contents (Elt F)),
    binary main_v103 main_v104 main_v105 (Host.divf : (⟨S128x128, .f32⟩ : BufTy).Contents (Elt F) → (⟨S128x128, .f32⟩ : BufTy).Contents (Elt F) → (⟨S128x128, .f32⟩ : BufTy).Contents (Elt F)) ]
theorem opsE_sub : (opsE : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., unary_bufs_sub .., ternary_bufs_sub .., unary_bufs_sub .., binary_bufs_sub ..⟩
theorem opsE_fresh : (opsE : List (HloOp τ sig (Elt F))).Forall fun op => op.fresh = ∅ := by
  simp only [List.Forall]; repeat' constructor

abbrev opsF : List (HloOp τ sig (Elt F)) :=
  [ nary ![main_v95, main_v100, main_v105] main_v106 (fun u => concatenate S128x384 1 [⟨S128x128, u 0⟩, ⟨S128x128, u 1⟩, ⟨S128x128, u 2⟩] concatenates_S128x128_S128x128_S128x128_S128x384_d1),
    nary ![main_v47, main_v65, main_v83] main_v107 (fun u => concatenate S50000x384 1 [⟨S50000x128, u 0⟩, ⟨S50000x128, u 1⟩, ⟨S50000x128, u 2⟩] concatenates_S50000x128_S50000x128_S50000x128_S50000x384_d1) ]
theorem opsF_sub : (opsF : List (HloOp τ sig (Elt F))).Forall fun op => op.bufs ⊆ tcRefs τ sig :=
  ⟨nary_bufs_sub .., nary_bufs_sub ..⟩
theorem opsF_fresh : (opsF : List (HloOp τ sig (Elt F))).Forall fun op => op.fresh = ∅ := by
  simp only [List.Forall]; repeat' constructor

def rLayer (x : FVec F S50000x128 .f32) (w : FVec F S128x128 .f32) (src dst : IVec S850000 32) (norm : FVec F S850000 .f32)
    (b : FVec F S128 .f32) : FVec F S50000x128 .f32 :=
  maximumf
    (addf
      (Host.scatterAdd scatter_S50000x128_S850000x1_S850000x128_1_0_0_1
        (broadcastInDim S50000x128 ![] bcast_S_S50000x128 (constant S_ .f32 0x00000000#32))
        (broadcastInDim S850000x1 ![0] bcast_S850000_S850000x1_0 dst)
        (mulf
          (Host.gather gather_S50000x128_S850000x1_S850000x128_1_0_n_n_0_1_1128
            (Host.dotGeneral dot_S50000x128_S128x128_S50000x128_1_0_0_1_n_n none x w)
            (broadcastInDim S850000x1 ![0] bcast_S850000_S850000x1_0
              (select (cmpi .slt src (broadcastInDim S850000 ![] bcast_S_S850000 (constantI S_ 32 0#32)))
                (addi src (broadcastInDim S850000 ![] bcast_S_S850000 (constantI S_ 32 50000#32))) src)))
          (broadcastInDim S850000x128 ![0, 1] bcast_S850000x1_S850000x128_0_1
            (broadcastInDim S850000x1 ![0] bcast_S850000_S850000x1_0 norm))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

def rCnt (batch : IVec S50000 32) : FVec F S128x1 .f32 :=
  broadcastInDim S128x1 ![0] bcast_S128_S128x1_0
    (maximumf
      (Host.scatterAdd scatter_S128_S50000x1_S50000_n_0_0_1
        (broadcastInDim S128 ![] bcast_S_S128 (constant S_ .f32 0x00000000#32))
        (broadcastInDim S50000x1 ![0] bcast_S50000_S50000x1_0 batch)
        (broadcastInDim S50000 ![] bcast_S_S50000 (constant S_ .f32 0x3F800000#32)))
      (broadcastInDim S128 ![] bcast_S_S128 (constant S_ .f32 0x3F800000#32)))

def rPool (batch : IVec S50000 32) (h : FVec F S50000x128 .f32) : FVec F S128x128 .f32 :=
  Host.divf
    (Host.scatterAdd scatter_S128x128_S50000x1_S50000x128_1_0_0_1
      (broadcastInDim S128x128 ![] bcast_S_S128x128 (constant S_ .f32 0x00000000#32))
      (broadcastInDim S50000x1 ![0] bcast_S50000_S50000x1_0 batch) h)
    (broadcastInDim S128x128 ![0, 1] bcast_S128x1_S128x128_0_1 (rCnt (F := F) batch))

section Stretches
variable (W : Valuation τ sig (Elt F))

theorem readA_v3 : after opsA W main_v3 = ReadP.val_main_v3 (W main_arg1) := by after_results_simp <;> (try simp only [TRef.ofBuf, TRef.toBuf, cast_eq]) <;> rfl
theorem readA_v6 : after opsA W main_v6 = ReadP.val_main_v6 (W main_arg1) := by after_results_simp <;> (try simp only [TRef.ofBuf, TRef.toBuf, cast_eq]) <;> rfl
theorem readA_v29 : after opsA W main_v29 = ReadP.val_main_v29 (W main_arg1) := by after_results_simp <;> (try simp only [TRef.ofBuf, TRef.toBuf, cast_eq]) <;> rfl
theorem keepA_arg0 : after opsA W main_arg0 = W main_arg0 := by after_results_simp <;> (try simp only [TRef.ofBuf, TRef.toBuf, cast_eq]) <;> rfl
theorem keepA_arg1 : after opsA W main_arg1 = W main_arg1 := by after_results_simp <;> (try simp only [TRef.ofBuf, TRef.toBuf, cast_eq]) <;> rfl
theorem keepA_arg2 : after opsA W main_arg2 = W main_arg2 := by after_results_simp <;> (try simp only [TRef.ofBuf, TRef.toBuf, cast_eq]) <;> rfl
theorem keepA_arg3 : after opsA W main_arg3 = W main_arg3 := by after_results_simp <;> (try simp only [TRef.ofBuf, TRef.toBuf, cast_eq]) <;> rfl
theorem keepA_arg4 : after opsA W main_arg4 = W main_arg4 := by after_results_simp <;> (try simp only [TRef.ofBuf, TRef.toBuf, cast_eq]) <;> rfl
theorem keepA_arg5 : after opsA W main_arg5 = W main_arg5 := by after_results_simp <;> (try simp only [TRef.ofBuf, TRef.toBuf, cast_eq]) <;> rfl
theorem keepA_arg6 : after opsA W main_arg6 = W main_arg6 := by after_results_simp <;> (try simp only [TRef.ofBuf, TRef.toBuf, cast_eq]) <;> rfl
theorem keepA_arg7 : after opsA W main_arg7 = W main_arg7 := by after_results_simp <;> (try simp only [TRef.ofBuf, TRef.toBuf, cast_eq]) <;> rfl
theorem keepA_arg8 : after opsA W main_arg8 = W main_arg8 := by after_results_simp <;> (try simp only [TRef.ofBuf, TRef.toBuf, cast_eq]) <;> rfl

theorem readB_v47 : after opsB W main_v47 = rLayer (W main_arg0) (W main_arg3) (W main_v3) (W main_v6) (W main_v29) (W main_arg4) := by after_results_simp <;> (try simp only [TRef.ofBuf, TRef.toBuf, cast_eq]) <;> rfl
theorem keepB_arg0 : after opsB W main_arg0 = W main_arg0 := by after_results_simp <;> (try simp only [TRef.ofBuf, TRef.toBuf, cast_eq]) <;> rfl
theorem keepB_arg1 : after opsB W main_arg1 = W main_arg1 := by after_results_simp <;> (try simp only [TRef.ofBuf, TRef.toBuf, cast_eq]) <;> rfl
theorem keepB_arg2 : after opsB W main_arg2 = W main_arg2 := by after_results_simp <;> (try simp only [TRef.ofBuf, TRef.toBuf, cast_eq]) <;> rfl
theorem keepB_arg3 : after opsB W main_arg3 = W main_arg3 := by after_results_simp <;> (try simp only [TRef.ofBuf, TRef.toBuf, cast_eq]) <;> rfl
theorem keepB_arg4 : after opsB W main_arg4 = W main_arg4 := by after_results_simp <;> (try simp only [TRef.ofBuf, TRef.toBuf, cast_eq]) <;> rfl
theorem keepB_arg5 : after opsB W main_arg5 = W main_arg5 := by after_results_simp <;> (try simp only [TRef.ofBuf, TRef.toBuf, cast_eq]) <;> rfl
theorem keepB_arg6 : after opsB W main_arg6 = W main_arg6 := by after_results_simp <;> (try simp only [TRef.ofBuf, TRef.toBuf, cast_eq]) <;> rfl
theorem keepB_arg7 : after opsB W main_arg7 = W main_arg7 := by after_results_simp <;> (try simp only [TRef.ofBuf, TRef.toBuf, cast_eq]) <;> rfl
theorem keepB_arg8 : after opsB W main_arg8 = W main_arg8 := by after_results_simp <;> (try simp only [TRef.ofBuf, TRef.toBuf, cast_eq]) <;> rfl
theorem keepB_v3 : after opsB W main_v3 = W main_v3 := by after_results_simp <;> (try simp only [TRef.ofBuf, TRef.toBuf, cast_eq]) <;> rfl
theorem keepB_v6 : after opsB W main_v6 = W main_v6 := by after_results_simp <;> (try simp only [TRef.ofBuf, TRef.toBuf, cast_eq]) <;> rfl
theorem keepB_v29 : after opsB W main_v29 = W main_v29 := by after_results_simp <;> (try simp only [TRef.ofBuf, TRef.toBuf, cast_eq]) <;> rfl

theorem readC_v65 : after opsC W main_v65 = rLayer (W main_v47) (W main_arg5) (W main_v3) (W main_v6) (W main_v29) (W main_arg6) := by after_results_simp <;> (try simp only [TRef.ofBuf, TRef.toBuf, cast_eq]) <;> rfl
theorem keepC_arg0 : after opsC W main_arg0 = W main_arg0 := by after_results_simp <;> (try simp only [TRef.ofBuf, TRef.toBuf, cast_eq]) <;> rfl
theorem keepC_arg1 : after opsC W main_arg1 = W main_arg1 := by after_results_simp <;> (try simp only [TRef.ofBuf, TRef.toBuf, cast_eq]) <;> rfl
theorem keepC_arg2 : after opsC W main_arg2 = W main_arg2 := by after_results_simp <;> (try simp only [TRef.ofBuf, TRef.toBuf, cast_eq]) <;> rfl
theorem keepC_arg3 : after opsC W main_arg3 = W main_arg3 := by after_results_simp <;> (try simp only [TRef.ofBuf, TRef.toBuf, cast_eq]) <;> rfl
theorem keepC_arg4 : after opsC W main_arg4 = W main_arg4 := by after_results_simp <;> (try simp only [TRef.ofBuf, TRef.toBuf, cast_eq]) <;> rfl
theorem keepC_arg5 : after opsC W main_arg5 = W main_arg5 := by after_results_simp <;> (try simp only [TRef.ofBuf, TRef.toBuf, cast_eq]) <;> rfl
theorem keepC_arg6 : after opsC W main_arg6 = W main_arg6 := by after_results_simp <;> (try simp only [TRef.ofBuf, TRef.toBuf, cast_eq]) <;> rfl
theorem keepC_arg7 : after opsC W main_arg7 = W main_arg7 := by after_results_simp <;> (try simp only [TRef.ofBuf, TRef.toBuf, cast_eq]) <;> rfl
theorem keepC_arg8 : after opsC W main_arg8 = W main_arg8 := by after_results_simp <;> (try simp only [TRef.ofBuf, TRef.toBuf, cast_eq]) <;> rfl
theorem keepC_v3 : after opsC W main_v3 = W main_v3 := by after_results_simp <;> (try simp only [TRef.ofBuf, TRef.toBuf, cast_eq]) <;> rfl
theorem keepC_v6 : after opsC W main_v6 = W main_v6 := by after_results_simp <;> (try simp only [TRef.ofBuf, TRef.toBuf, cast_eq]) <;> rfl
theorem keepC_v29 : after opsC W main_v29 = W main_v29 := by after_results_simp <;> (try simp only [TRef.ofBuf, TRef.toBuf, cast_eq]) <;> rfl
theorem keepC_v47 : after opsC W main_v47 = W main_v47 := by after_results_simp <;> (try simp only [TRef.ofBuf, TRef.toBuf, cast_eq]) <;> rfl

theorem readD_v83 : after opsD W main_v83 = rLayer (W main_v65) (W main_arg7) (W main_v3) (W main_v6) (W main_v29) (W main_arg8) := by after_results_simp <;> (try simp only [TRef.ofBuf, TRef.toBuf, cast_eq]) <;> rfl
theorem keepD_arg0 : after opsD W main_arg0 = W main_arg0 := by after_results_simp <;> (try simp only [TRef.ofBuf, TRef.toBuf, cast_eq]) <;> rfl
theorem keepD_arg1 : after opsD W main_arg1 = W main_arg1 := by after_results_simp <;> (try simp only [TRef.ofBuf, TRef.toBuf, cast_eq]) <;> rfl
theorem keepD_arg2 : after opsD W main_arg2 = W main_arg2 := by after_results_simp <;> (try simp only [TRef.ofBuf, TRef.toBuf, cast_eq]) <;> rfl
theorem keepD_arg3 : after opsD W main_arg3 = W main_arg3 := by after_results_simp <;> (try simp only [TRef.ofBuf, TRef.toBuf, cast_eq]) <;> rfl
theorem keepD_arg4 : after opsD W main_arg4 = W main_arg4 := by after_results_simp <;> (try simp only [TRef.ofBuf, TRef.toBuf, cast_eq]) <;> rfl
theorem keepD_arg5 : after opsD W main_arg5 = W main_arg5 := by after_results_simp <;> (try simp only [TRef.ofBuf, TRef.toBuf, cast_eq]) <;> rfl
theorem keepD_arg6 : after opsD W main_arg6 = W main_arg6 := by after_results_simp <;> (try simp only [TRef.ofBuf, TRef.toBuf, cast_eq]) <;> rfl
theorem keepD_arg7 : after opsD W main_arg7 = W main_arg7 := by after_results_simp <;> (try simp only [TRef.ofBuf, TRef.toBuf, cast_eq]) <;> rfl
theorem keepD_arg8 : after opsD W main_arg8 = W main_arg8 := by after_results_simp <;> (try simp only [TRef.ofBuf, TRef.toBuf, cast_eq]) <;> rfl
theorem keepD_v47 : after opsD W main_v47 = W main_v47 := by after_results_simp <;> (try simp only [TRef.ofBuf, TRef.toBuf, cast_eq]) <;> rfl
theorem keepD_v65 : after opsD W main_v65 = W main_v65 := by after_results_simp <;> (try simp only [TRef.ofBuf, TRef.toBuf, cast_eq]) <;> rfl

theorem readE_v95 : after opsE W main_v95 = rPool (W main_arg2) (W main_v47) := by after_results_simp <;> (try simp only [TRef.ofBuf, TRef.toBuf, cast_eq]) <;> rfl
theorem readE_v100 : after opsE W main_v100 = rPool (W main_arg2) (W main_v65) := by after_results_simp <;> (try simp only [TRef.ofBuf, TRef.toBuf, cast_eq]) <;> rfl
theorem readE_v105 : after opsE W main_v105 = rPool (W main_arg2) (W main_v83) := by after_results_simp <;> (try simp only [TRef.ofBuf, TRef.toBuf, cast_eq]) <;> rfl
theorem keepE_arg0 : after opsE W main_arg0 = W main_arg0 := by after_results_simp <;> (try simp only [TRef.ofBuf, TRef.toBuf, cast_eq]) <;> rfl
theorem keepE_arg1 : after opsE W main_arg1 = W main_arg1 := by after_results_simp <;> (try simp only [TRef.ofBuf, TRef.toBuf, cast_eq]) <;> rfl
theorem keepE_arg2 : after opsE W main_arg2 = W main_arg2 := by after_results_simp <;> (try simp only [TRef.ofBuf, TRef.toBuf, cast_eq]) <;> rfl
theorem keepE_arg3 : after opsE W main_arg3 = W main_arg3 := by after_results_simp <;> (try simp only [TRef.ofBuf, TRef.toBuf, cast_eq]) <;> rfl
theorem keepE_arg4 : after opsE W main_arg4 = W main_arg4 := by after_results_simp <;> (try simp only [TRef.ofBuf, TRef.toBuf, cast_eq]) <;> rfl
theorem keepE_arg5 : after opsE W main_arg5 = W main_arg5 := by after_results_simp <;> (try simp only [TRef.ofBuf, TRef.toBuf, cast_eq]) <;> rfl
theorem keepE_arg6 : after opsE W main_arg6 = W main_arg6 := by after_results_simp <;> (try simp only [TRef.ofBuf, TRef.toBuf, cast_eq]) <;> rfl
theorem keepE_arg7 : after opsE W main_arg7 = W main_arg7 := by after_results_simp <;> (try simp only [TRef.ofBuf, TRef.toBuf, cast_eq]) <;> rfl
theorem keepE_arg8 : after opsE W main_arg8 = W main_arg8 := by after_results_simp <;> (try simp only [TRef.ofBuf, TRef.toBuf, cast_eq]) <;> rfl
theorem keepE_v47 : after opsE W main_v47 = W main_v47 := by after_results_simp <;> (try simp only [TRef.ofBuf, TRef.toBuf, cast_eq]) <;> rfl
theorem keepE_v65 : after opsE W main_v65 = W main_v65 := by after_results_simp <;> (try simp only [TRef.ofBuf, TRef.toBuf, cast_eq]) <;> rfl
theorem keepE_v83 : after opsE W main_v83 = W main_v83 := by after_results_simp <;> (try simp only [TRef.ofBuf, TRef.toBuf, cast_eq]) <;> rfl

theorem readF_v106 : after opsF W main_v106 = concatenate S128x384 1 [⟨S128x128, W main_v95⟩, ⟨S128x128, W main_v100⟩, ⟨S128x128, W main_v105⟩] concatenates_S128x128_S128x128_S128x128_S128x384_d1 := by after_results_simp <;> (try simp only [TRef.ofBuf, TRef.toBuf, cast_eq]) <;> rfl
theorem readF_v107 : after opsF W main_v107 = concatenate S50000x384 1 [⟨S50000x128, W main_v47⟩, ⟨S50000x128, W main_v65⟩, ⟨S50000x128, W main_v83⟩] concatenates_S50000x128_S50000x128_S50000x128_S50000x384_d1 := by after_results_simp <;> (try simp only [TRef.ofBuf, TRef.toBuf, cast_eq]) <;> rfl
theorem keepF_arg0 : after opsF W main_arg0 = W main_arg0 := by after_results_simp <;> (try simp only [TRef.ofBuf, TRef.toBuf, cast_eq]) <;> rfl
theorem keepF_arg1 : after opsF W main_arg1 = W main_arg1 := by after_results_simp <;> (try simp only [TRef.ofBuf, TRef.toBuf, cast_eq]) <;> rfl
theorem keepF_arg2 : after opsF W main_arg2 = W main_arg2 := by after_results_simp <;> (try simp only [TRef.ofBuf, TRef.toBuf, cast_eq]) <;> rfl
theorem keepF_arg3 : after opsF W main_arg3 = W main_arg3 := by after_results_simp <;> (try simp only [TRef.ofBuf, TRef.toBuf, cast_eq]) <;> rfl
theorem keepF_arg4 : after opsF W main_arg4 = W main_arg4 := by after_results_simp <;> (try simp only [TRef.ofBuf, TRef.toBuf, cast_eq]) <;> rfl
theorem keepF_arg5 : after opsF W main_arg5 = W main_arg5 := by after_results_simp <;> (try simp only [TRef.ofBuf, TRef.toBuf, cast_eq]) <;> rfl
theorem keepF_arg6 : after opsF W main_arg6 = W main_arg6 := by after_results_simp <;> (try simp only [TRef.ofBuf, TRef.toBuf, cast_eq]) <;> rfl
theorem keepF_arg7 : after opsF W main_arg7 = W main_arg7 := by after_results_simp <;> (try simp only [TRef.ofBuf, TRef.toBuf, cast_eq]) <;> rfl
theorem keepF_arg8 : after opsF W main_arg8 = W main_arg8 := by after_results_simp <;> (try simp only [TRef.ofBuf, TRef.toBuf, cast_eq]) <;> rfl

end Stretches

section Stages
variable (x0 : (⟨S50000x128, .f32⟩ : BufTy).Contents (Elt F)) (x1 : (⟨S2x800000, .i32⟩ : BufTy).Contents (Elt F)) (x2 : (⟨S50000, .i32⟩ : BufTy).Contents (Elt F))
  (x3 x5 x7 : (⟨S128x128, .f32⟩ : BufTy).Contents (Elt F)) (x4 x6 x8 : (⟨S128, .f32⟩ : BufTy).Contents (Elt F))

theorem val_v47_eq : ReadP.val_main_v47 x0 x1 x3 x4 = rLayer x0 x3 (ReadP.val_main_v3 x1) (ReadP.val_main_v6 x1) (ReadP.val_main_v29 x1) x4 := rfl
theorem val_v65_eq : ReadP.val_main_v65 x0 x1 x3 x4 x5 x6 = rLayer (ReadP.val_main_v47 x0 x1 x3 x4) x5 (ReadP.val_main_v3 x1) (ReadP.val_main_v6 x1) (ReadP.val_main_v29 x1) x6 := rfl
theorem val_v83_eq : ReadP.val_main_v83 x0 x1 x3 x4 x5 x6 x7 x8 = rLayer (ReadP.val_main_v65 x0 x1 x3 x4 x5 x6) x7 (ReadP.val_main_v3 x1) (ReadP.val_main_v6 x1) (ReadP.val_main_v29 x1) x8 := rfl
theorem val_v95_eq : ReadP.val_main_v95 x0 x1 x2 x3 x4 = rPool x2 (ReadP.val_main_v47 x0 x1 x3 x4) := rfl
theorem val_v100_eq : ReadP.val_main_v100 x0 x1 x2 x3 x4 x5 x6 = rPool x2 (ReadP.val_main_v65 x0 x1 x3 x4 x5 x6) := rfl
theorem val_v105_eq : ReadP.val_main_v105 x0 x1 x2 x3 x4 x5 x6 x7 x8 = rPool x2 (ReadP.val_main_v83 x0 x1 x3 x4 x5 x6 x7 x8) := rfl

end Stages

abbrev ops : List (HloOp τ sig (Elt F)) := opsA ++ opsB ++ opsC ++ opsD ++ opsE ++ opsF

theorem after_append' (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

section Compose
variable (V : Valuation τ sig (Elt F))

theorem after_ops : after (ops (F := F)) V = after opsF (after opsE (after opsD (after opsC (after opsB (after opsA V))))) := by
  show after (opsA ++ opsB ++ opsC ++ opsD ++ opsE ++ opsF) V = _
  rw [after_append', after_append', after_append', after_append', after_append']

theorem AB_v47 : after opsB (after opsA V) main_v47 = ReadP.val_main_v47 (V main_arg0) (V main_arg1) (V main_arg3) (V main_arg4) := by
  rw [readB_v47, keepA_arg0, keepA_arg3, keepA_arg4, readA_v3, readA_v6, readA_v29, val_v47_eq]
theorem AC_v65 : after opsC (after opsB (after opsA V)) main_v65 = ReadP.val_main_v65 (V main_arg0) (V main_arg1) (V main_arg3) (V main_arg4) (V main_arg5) (V main_arg6) := by
  rw [readC_v65, AB_v47, keepB_arg5, keepA_arg5, keepB_arg6, keepA_arg6, keepB_v3, readA_v3, keepB_v6, readA_v6, keepB_v29, readA_v29, val_v65_eq]
theorem AD_v83 : after opsD (after opsC (after opsB (after opsA V))) main_v83 = ReadP.val_main_v83 (V main_arg0) (V main_arg1) (V main_arg3) (V main_arg4) (V main_arg5) (V main_arg6) (V main_arg7) (V main_arg8) := by
  rw [readD_v83, AC_v65, keepC_arg7, keepB_arg7, keepA_arg7, keepC_arg8, keepB_arg8, keepA_arg8, keepC_v3, keepB_v3, readA_v3,
    keepC_v6, keepB_v6, readA_v6, keepC_v29, keepB_v29, readA_v29, val_v83_eq]
theorem AD_v47 : after opsD (after opsC (after opsB (after opsA V))) main_v47 = ReadP.val_main_v47 (V main_arg0) (V main_arg1) (V main_arg3) (V main_arg4) := by rw [keepD_v47, keepC_v47, AB_v47]
theorem AD_v65 : after opsD (after opsC (after opsB (after opsA V))) main_v65 = ReadP.val_main_v65 (V main_arg0) (V main_arg1) (V main_arg3) (V main_arg4) (V main_arg5) (V main_arg6) := by rw [keepD_v65, AC_v65]
theorem AD_arg2 : after opsD (after opsC (after opsB (after opsA V))) main_arg2 = V main_arg2 := by rw [keepD_arg2, keepC_arg2, keepB_arg2, keepA_arg2]
theorem AE_v95 : after opsE (after opsD (after opsC (after opsB (after opsA V)))) main_v95 = ReadP.val_main_v95 (V main_arg0) (V main_arg1) (V main_arg2) (V main_arg3) (V main_arg4) := by rw [readE_v95, AD_arg2, AD_v47, val_v95_eq]
theorem AE_v100 : after opsE (after opsD (after opsC (after opsB (after opsA V)))) main_v100 = ReadP.val_main_v100 (V main_arg0) (V main_arg1) (V main_arg2) (V main_arg3) (V main_arg4) (V main_arg5) (V main_arg6) := by rw [readE_v100, AD_arg2, AD_v65, val_v100_eq]
theorem AE_v105 : after opsE (after opsD (after opsC (after opsB (after opsA V)))) main_v105 = ReadP.val_main_v105 (V main_arg0) (V main_arg1) (V main_arg2) (V main_arg3) (V main_arg4) (V main_arg5) (V main_arg6) (V main_arg7) (V main_arg8) := by rw [readE_v105, AD_arg2, AD_v83, val_v105_eq]
theorem AE_v47 : after opsE (after opsD (after opsC (after opsB (after opsA V)))) main_v47 = ReadP.val_main_v47 (V main_arg0) (V main_arg1) (V main_arg3) (V main_arg4) := by rw [keepE_v47, AD_v47]
theorem AE_v65 : after opsE (after opsD (after opsC (after opsB (after opsA V)))) main_v65 = ReadP.val_main_v65 (V main_arg0) (V main_arg1) (V main_arg3) (V main_arg4) (V main_arg5) (V main_arg6) := by rw [keepE_v65, AD_v65]
theorem AE_v83 : after opsE (after opsD (after opsC (after opsB (after opsA V)))) main_v83 = ReadP.val_main_v83 (V main_arg0) (V main_arg1) (V main_arg3) (V main_arg4) (V main_arg5) (V main_arg6) (V main_arg7) (V main_arg8) := by rw [keepE_v83, AD_v83]

theorem ops_v106 : after (ops (F := F)) V main_v106 = ReadP.val_main_v106 (V main_arg0) (V main_arg1) (V main_arg2) (V main_arg3) (V main_arg4) (V main_arg5) (V main_arg6) (V main_arg7) (V main_arg8) := by
  rw [after_ops, readF_v106, AE_v95, AE_v100, AE_v105]; rfl

theorem ops_v107 : after (ops (F := F)) V main_v107 = ReadP.val_main_v107 (V main_arg0) (V main_arg1) (V main_arg3) (V main_arg4) (V main_arg5) (V main_arg6) (V main_arg7) (V main_arg8) := by
  rw [after_ops, readF_v107, AE_v47, AE_v65, AE_v83]; rfl
theorem ops_arg0 : after (ops (F := F)) V main_arg0 = V main_arg0 := by
  rw [after_ops, keepF_arg0, keepE_arg0, keepD_arg0, keepC_arg0, keepB_arg0, keepA_arg0]
theorem ops_arg1 : after (ops (F := F)) V main_arg1 = V main_arg1 := by
  rw [after_ops, keepF_arg1, keepE_arg1, keepD_arg1, keepC_arg1, keepB_arg1, keepA_arg1]
theorem ops_arg2 : after (ops (F := F)) V main_arg2 = V main_arg2 := by
  rw [after_ops, keepF_arg2, keepE_arg2, keepD_arg2, keepC_arg2, keepB_arg2, keepA_arg2]
theorem ops_arg3 : after (ops (F := F)) V main_arg3 = V main_arg3 := by
  rw [after_ops, keepF_arg3, keepE_arg3, keepD_arg3, keepC_arg3, keepB_arg3, keepA_arg3]
theorem ops_arg4 : after (ops (F := F)) V main_arg4 = V main_arg4 := by
  rw [after_ops, keepF_arg4, keepE_arg4, keepD_arg4, keepC_arg4, keepB_arg4, keepA_arg4]
theorem ops_arg5 : after (ops (F := F)) V main_arg5 = V main_arg5 := by
  rw [after_ops, keepF_arg5, keepE_arg5, keepD_arg5, keepC_arg5, keepB_arg5, keepA_arg5]
theorem ops_arg6 : after (ops (F := F)) V main_arg6 = V main_arg6 := by
  rw [after_ops, keepF_arg6, keepE_arg6, keepD_arg6, keepC_arg6, keepB_arg6, keepA_arg6]
theorem ops_arg7 : after (ops (F := F)) V main_arg7 = V main_arg7 := by
  rw [after_ops, keepF_arg7, keepE_arg7, keepD_arg7, keepC_arg7, keepB_arg7, keepA_arg7]
theorem ops_arg8 : after (ops (F := F)) V main_arg8 = V main_arg8 := by
  rw [after_ops, keepF_arg8, keepE_arg8, keepD_arg8, keepC_arg8, keepB_arg8, keepA_arg8]

end Compose

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  rcases List.mem_append.mp h with h | h
  · rcases List.mem_append.mp h with h | h
    · rcases List.mem_append.mp h with h | h
      · rcases List.mem_append.mp h with h | h
        · rcases List.mem_append.mp h with h | h
          · exact List.forall_iff_forall_mem.mp opsA_sub op h
          · exact List.forall_iff_forall_mem.mp opsB_sub op h
        · exact List.forall_iff_forall_mem.mp opsC_sub op h
      · exact List.forall_iff_forall_mem.mp opsD_sub op h
    · exact List.forall_iff_forall_mem.mp opsE_sub op h
  · exact List.forall_iff_forall_mem.mp opsF_sub op h

theorem ops_fresh : (ops : List (HloOp τ sig (Elt F))).Forall fun op => op.fresh = ∅ := by
  rw [List.forall_iff_forall_mem]
  intro op h
  rcases List.mem_append.mp h with h | h
  · rcases List.mem_append.mp h with h | h
    · rcases List.mem_append.mp h with h | h
      · rcases List.mem_append.mp h with h | h
        · rcases List.mem_append.mp h with h | h
          · exact List.forall_iff_forall_mem.mp opsA_fresh op h
          · exact List.forall_iff_forall_mem.mp opsB_fresh op h
        · exact List.forall_iff_forall_mem.mp opsC_fresh op h
      · exact List.forall_iff_forall_mem.mp opsD_fresh op h
    · exact List.forall_iff_forall_mem.mp opsE_fresh op h
  · exact List.forall_iff_forall_mem.mp opsF_fresh op h

/-- The reference's run: each result is its last stage's value of the arguments, and the arguments are kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v106) = ReadP.val_main_v106 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v107) = ReadP.val_main_v107 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v106).trans (ops_v106 (launchContents m c)),
      (h c main_v107).trans (ops_v107 (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c)),
      (h c main_arg6).trans (ops_arg6 (launchContents m c)),
      (h c main_arg7).trans (ops_arg7 (launchContents m c)),
      (h c main_arg8).trans (ops_arg8 (launchContents m c))⟩)
    (run_seq scopedRefs_eq scopedSems_eq defs main (fun _ => ops) main_eq (fun _ => ops_sub) m ρ
      (fun _ => List.forall_iff_forall_mem.mp ops_fresh))

end Cert.ReferenceIdeal.RunH

end
-- ==== Proof.lean ====
import proofs.«426581_j30013231464613_1_alg».proof.Defs
import proofs.«426581_j30013231464613_1_alg».proof.Proof.Gen.Kernel
import proofs.«426581_j30013231464613_1_alg».proof.Proof.Gen.KernelIdeal
import proofs.«426581_j30013231464613_1_alg».proof.Proof.Gen.ReferenceIdeal
import proofs.«426581_j30013231464613_1_alg».proof.Proof.Gen.Pre_finite_inputs
import proofs.«426581_j30013231464613_1_alg».proof.Proof.KLaunch
import proofs.«426581_j30013231464613_1_alg».proof.Proof.Launch
import proofs.«426581_j30013231464613_1_alg».proof.Proof.Chain
import proofs.«426581_j30013231464613_1_alg».proof.Proof.RefReads
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Calls.frame m ρ

theorem frame_ki : Cert.frame_KernelIdeal := fun m ρ _ => Cert.KernelIdeal.Calls.frame m ρ

/-- The reference is host operations only: its run, the results dropped. -/
theorem frame_ri : Cert.frame_ReferenceIdeal := fun m ρ _ =>
  (θ_run Cert.ReferenceIdeal.defs _ _).mono (fun _ h c => (h c).2.2) (Cert.ReferenceIdeal.RunH.run (F := Ideal) m ρ)

/-- The idealization rewrote nothing. -/
theorem preserves : Cert.preserves_Kernel_KernelIdeal := trivial

open Cert.KernelIdeal Cert.KernelIdeal.Gen Cert.KernelIdeal.Calls in
/-- Both programs end with the same two results: the kernel program's last boundary contents are the reference's stages at the same arguments. -/
theorem algebraic : Cert.algebraic_KernelIdeal_ReferenceIdeal := by
  intro m ρ m' ρ' _ hagree
  refine ⟨fun c => B15 m c main_v91, fun c => B15 m c main_v78, ?_, ?_⟩
  · refine (θ_run Cert.KernelIdeal.defs _ _).mono (fun r h c => ?_) (Cert.KernelIdeal.Calls.run_all m ρ)
    exact ⟨h c _ (mem_uc main_v91 (by decide)), h c _ (mem_uc main_v78 (by decide)),
      (h c _ (mem_uc main_arg0 (by decide))).trans ((congrFun (B15_eq m c) _).trans (Gen.V15_main_arg0 m (outs m) c)),
      (h c _ (mem_uc main_arg1 (by decide))).trans ((congrFun (B15_eq m c) _).trans (Gen.V15_main_arg1 m (outs m) c)),
      (h c _ (mem_uc main_arg2 (by decide))).trans ((congrFun (B15_eq m c) _).trans (Gen.V15_main_arg2 m (outs m) c)),
      (h c _ (mem_uc main_arg3 (by decide))).trans ((congrFun (B15_eq m c) _).trans (Gen.V15_main_arg3 m (outs m) c)),
      (h c _ (mem_uc main_arg4 (by decide))).trans ((congrFun (B15_eq m c) _).trans (Gen.V15_main_arg4 m (outs m) c)),
      (h c _ (mem_uc main_arg5 (by decide))).trans ((congrFun (B15_eq m c) _).trans (Gen.V15_main_arg5 m (outs m) c)),
      (h c _ (mem_uc main_arg6 (by decide))).trans ((congrFun (B15_eq m c) _).trans (Gen.V15_main_arg6 m (outs m) c)),
      (h c _ (mem_uc main_arg7 (by decide))).trans ((congrFun (B15_eq m c) _).trans (Gen.V15_main_arg7 m (outs m) c)),
      (h c _ (mem_uc main_arg8 (by decide))).trans ((congrFun (B15_eq m c) _).trans (Gen.V15_main_arg8 m (outs m) c))⟩
  · refine (θ_run Cert.ReferenceIdeal.defs _ _).mono (fun _ h c => ⟨?_, ?_, (h c).2.2⟩)
      (Cert.ReferenceIdeal.RunH.run (F := Ideal) m' ρ')
    · refine ((h c).1).trans ?_
      obtain ⟨h0, h1, h2, h3, h4, h5, h6, h7, h8⟩ := hagree c
      rw [h0, h1, h2, h3, h4, h5, h6, h7, h8]
      exact (out0_eq m c).symm
    · refine ((h c).2.1).trans ?_
      obtain ⟨h0, h1, h2, h3, h4, h5, h6, h7, h8⟩ := hagree c
      rw [h0, h1, h3, h4, h5, h6, h7, h8]
      exact (out1_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
